-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000x128 : Shape := ⟨3, ![8, 10000, 128]⟩
abbrev S160000 : Shape := ⟨1, ![160000]⟩
abbrev S384x1 : Shape := ⟨2, ![384, 1]⟩
abbrev S3x1 : Shape := ⟨2, ![3, 1]⟩
abbrev S1x1x1 : Shape := ⟨3, ![1, 1, 1]⟩
abbrev S_ : Shape := ⟨0, ![]⟩

class Facts : Prop where
  bcast_S_S8x10000x128 : S_.BroadcastsInDim S8x10000x128 (![] : Fin 0 → Fin S8x10000x128.rank)
  reducesTo_S8x10000x128_S_d0_1_2 : S8x10000x128.ReducesTo [0, 1, 2] S_
  h_S_ : 0 < S_.numel
  bcast_S_S160000 : S_.BroadcastsInDim S160000 (![] : Fin 0 → Fin S160000.rank)
  reducesTo_S160000_S_d0 : S160000.ReducesTo [0] S_
  bcast_S_S384x1 : S_.BroadcastsInDim S384x1 (![] : Fin 0 → Fin S384x1.rank)
  reducesTo_S384x1_S_d0_1 : S384x1.ReducesTo [0, 1] S_
  bcast_S_S3x1 : S_.BroadcastsInDim S3x1 (![] : Fin 0 → Fin S3x1.rank)
  reducesTo_S3x1_S_d0_1 : S3x1.ReducesTo [0, 1] S_
  bcast_S_S1x1x1 : S_.BroadcastsInDim S1x1x1 (![] : Fin 0 → Fin S1x1x1.rank)
  reducesTo_S1x1x1_S_d0_1_2 : S1x1x1.ReducesTo [0, 1, 2] S_

variable [Facts]

def fn_part2 {F : FTy → Type} [FloatOps F] (main_arg2 : IVec S160000 32) (main_v30 : IVec S_ 1) (main_v32 : IVec S160000 1) (main_c_12 : IVec S_ 32) : IVec S_ 1 :=
  let main_v33 : IVec S160000 32 := broadcastInDim S160000 ![] bcast_S_S160000 main_c_12
  let main_v34 : IVec S160000 1 := cmpi .slt main_arg2 main_v33
  let main_v35 : IVec S160000 1 := andi main_v32 main_v34
  let main_c_13 : IVec S_ 1 := constantI S_ 1 1#1
  let main_v36 : IVec S_ 1 := (fun x v => Host.reduce IntOp.andi x v reducesTo_S160000_S_d0 h_S_) main_v35 main_c_13
  let main_v37 : IVec S_ 1 := andi main_v30 main_v36
  main_v37

def fn_part1 {F : FTy → Type} [FloatOps F] (main_arg1 : IVec S160000 32) (main_arg2 : IVec S160000 32) (main_arg6 : FVec F S1x1x1 .f32) (main_v13 : IVec S_ 1) (main_v16 : IVec S3x1 1) : IVec S_ 1 :=
  let main_c_5 : IVec S_ 1 := constantI S_ 1 1#1
  let main_v17 : IVec S_ 1 := (fun x v => Host.reduce IntOp.andi x v reducesTo_S3x1_S_d0_1 h_S_) main_v16 main_c_5
  let main_v18 : IVec S_ 1 := andi main_v13 main_v17
  let main_v19 : FVec F S1x1x1 .f32 := Host.absf main_arg6
  let main_cst_6 : FVec F S_ .f32 := constant S_ .f32 0x7F800000#32
  let main_v20 : FVec F S1x1x1 .f32 := broadcastInDim S1x1x1 ![] bcast_S_S1x1x1 main_cst_6
  let main_v21 : IVec S1x1x1 1 := cmpf .olt main_v19 main_v20
  let main_c_7 : IVec S_ 1 := constantI S_ 1 1#1
  let main_v22 : IVec S_ 1 := (fun x v => Host.reduce IntOp.andi x v reducesTo_S1x1x1_S_d0_1_2 h_S_) main_v21 main_c_7
  let main_v23 : IVec S_ 1 := andi main_v18 main_v22
  let main_c_8 : IVec S_ 32 := constantI S_ 32 0#32
  let main_v24 : IVec S160000 32 := broadcastInDim S160000 ![] bcast_S_S160000 main_c_8
  let main_v25 : IVec S160000 1 := cmpi .sge main_arg1 main_v24
  let main_c_9 : IVec S_ 32 := constantI S_ 32 10000#32
  let main_v26 : IVec S160000 32 := broadcastInDim S160000 ![] bcast_S_S160000 main_c_9
  let main_v27 : IVec S160000 1 := cmpi .slt main_arg1 main_v26
  let main_v28 : IVec S160000 1 := andi main_v25 main_v27
  let main_c_10 : IVec S_ 1 := constantI S_ 1 1#1
  let main_v29 : IVec S_ 1 := (fun x v => Host.reduce IntOp.andi x v reducesTo_S160000_S_d0 h_S_) main_v28 main_c_10
  let main_v30 : IVec S_ 1 := andi main_v23 main_v29
  let main_c_11 : IVec S_ 32 := constantI S_ 32 0#32
  let main_v31 : IVec S160000 32 := broadcastInDim S160000 ![] bcast_S_S160000 main_c_11
  let main_v32 : IVec S160000 1 := cmpi .sge main_arg2 main_v31
  let main_c_12 : IVec S_ 32 := constantI S_ 32 10000#32
  fn_part2 (F := F) main_arg2 main_v30 main_v32 main_c_12

def fn {F : FTy → Type} [FloatOps F] (main_arg0 : FVec F S8x10000x128 .f32) (main_arg1 : IVec S160000 32) (main_arg2 : IVec S160000 32) (main_arg3 : FVec F S160000 .f32) (main_arg4 : FVec F S384x1 .f32) (main_arg5 : FVec F S3x1 .f32) (main_arg6 : FVec F S1x1x1 .f32) : IVec S_ 1 :=
  let main_v0 : FVec F S8x10000x128 .f32 := Host.absf main_arg0
  let main_cst : FVec F S_ .f32 := constant S_ .f32 0x7F800000#32
  let main_v1 : FVec F S8x10000x128 .f32 := broadcastInDim S8x10000x128 ![] bcast_S_S8x10000x128 main_cst
  let main_v2 : IVec S8x10000x128 1 := cmpf .olt main_v0 main_v1
  let main_c : IVec S_ 1 := constantI S_ 1 1#1
  let main_v3 : IVec S_ 1 := (fun x v => Host.reduce IntOp.andi x v reducesTo_S8x10000x128_S_d0_1_2 h_S_) main_v2 main_c
  let main_v4 : FVec F S160000 .f32 := Host.absf main_arg3
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S384x1 .f32 := Host.absf main_arg4
  let main_cst_2 : FVec F S_ .f32 := constant S_ .f32 0x7F800000#32
  let main_v10 : FVec F S384x1 .f32 := broadcastInDim S384x1 ![] bcast_S_S384x1 main_cst_2
  let main_v11 : IVec S384x1 1 := cmpf .olt main_v9 main_v10
  let main_c_3 : IVec S_ 1 := constantI S_ 1 1#1
  let main_v12 : IVec S_ 1 := (fun x v => Host.reduce IntOp.andi x v reducesTo_S384x1_S_d0_1 h_S_) main_v11 main_c_3
  let main_v13 : IVec S_ 1 := andi main_v8 main_v12
  let main_v14 : FVec F S3x1 .f32 := Host.absf main_arg5
  let main_cst_4 : FVec F S_ .f32 := constant S_ .f32 0x7F800000#32
  let main_v15 : FVec F S3x1 .f32 := broadcastInDim S3x1 ![] bcast_S_S3x1 main_cst_4
  let main_v16 : IVec S3x1 1 := cmpf .olt main_v14 main_v15
  fn_part1 (F := F) main_arg1 main_arg2 main_arg6 main_v13 main_v16
-- ==== Kernel.lean ====
abbrev S8x10000x128 : Shape := ⟨3, ![8, 10000, 128]⟩
abbrev S160000 : Shape := ⟨1, ![160000]⟩
abbrev S384x1 : Shape := ⟨2, ![384, 1]⟩
abbrev S3x1 : Shape := ⟨2, ![3, 1]⟩
abbrev S1x1x1 : Shape := ⟨3, ![1, 1, 1]⟩
abbrev S_ : Shape := ⟨0, ![]⟩
abbrev S10240x10240 : Shape := ⟨2, ![10240, 10240]⟩
abbrev S160000x1 : Shape := ⟨2, ![160000, 1]⟩
abbrev S160000x2 : Shape := ⟨2, ![160000, 2]⟩
abbrev S8x10240x128 : Shape := ⟨3, ![8, 10240, 128]⟩
abbrev S10240x128x8 : Shape := ⟨3, ![10240, 128, 8]⟩
abbrev S10240x1024 : Shape := ⟨2, ![10240, 1024]⟩
abbrev S1024x1024 : Shape := ⟨2, ![1024, 1024]⟩
abbrev S1x10240x1024 : Shape := ⟨3, ![1, 10240, 1024]⟩
abbrev S3x10240x1024 : Shape := ⟨3, ![3, 10240, 1024]⟩
abbrev S3x10240x128x8 : Shape := ⟨4, ![3, 10240, 128, 8]⟩
abbrev S8x10240x128x3 : Shape := ⟨4, ![8, 10240, 128, 3]⟩
abbrev S81920x384 : Shape := ⟨2, ![81920, 384]⟩
abbrev S81920x1 : Shape := ⟨2, ![81920, 1]⟩
abbrev S8x10240x1 : Shape := ⟨3, ![8, 10240, 1]⟩
abbrev S10240x1x8 : Shape := ⟨3, ![10240, 1, 8]⟩
abbrev S10240x8 : Shape := ⟨2, ![10240, 8]⟩
abbrev S10240x128 : Shape := ⟨2, ![10240, 128]⟩
abbrev S1024x128 : Shape := ⟨2, ![1024, 128]⟩
abbrev S1x10240x8 : Shape := ⟨3, ![1, 10240, 8]⟩
abbrev S3x10240x8 : Shape := ⟨3, ![3, 10240, 8]⟩
abbrev S3x10240x1x8 : Shape := ⟨4, ![3, 10240, 1, 8]⟩
abbrev S8x10240x1x3 : Shape := ⟨4, ![8, 10240, 1, 3]⟩
abbrev S81920x3 : Shape := ⟨2, ![81920, 3]⟩
abbrev S8x10000x1 : Shape := ⟨3, ![8, 10000, 1]⟩
abbrev S8x10000 : Shape := ⟨2, ![8, 10000]⟩

abbrev nBuf : Space → Nat
  | .hbm => 81
  | .vmem => 28
  | .smem => 0
  | _ => 0

abbrev bufTy : (tb : Table) → Fin (tcTables nBuf tb) → BufTy
  | .hbm, ⟨0, _⟩ => ⟨S8x10000x128, .f32⟩
  | .hbm, ⟨1, _⟩ => ⟨S160000, .i32⟩
  | .hbm, ⟨2, _⟩ => ⟨S160000, .i32⟩
  | .hbm, ⟨3, _⟩ => ⟨S160000, .f32⟩
  | .hbm, ⟨4, _⟩ => ⟨S384x1, .f32⟩
  | .hbm, ⟨5, _⟩ => ⟨S3x1, .f32⟩
  | .hbm, ⟨6, _⟩ => ⟨S1x1x1, .f32⟩
  | .hbm, ⟨7, _⟩ => ⟨S_, .f32⟩
  | .hbm, ⟨8, _⟩ => ⟨S10240x10240, .f32⟩
  | .hbm, ⟨9, _⟩ => ⟨S_, .i32⟩
  | .hbm, ⟨10, _⟩ => ⟨S160000, .i32⟩
  | .hbm, ⟨11, _⟩ => ⟨S160000, .i1⟩
  | .hbm, ⟨12, _⟩ => ⟨S_, .i32⟩
  | .hbm, ⟨13, _⟩ => ⟨S160000, .i32⟩
  | .hbm, ⟨14, _⟩ => ⟨S160000, .i32⟩
  | .hbm, ⟨15, _⟩ => ⟨S160000, .i32⟩
  | .hbm, ⟨16, _⟩ => ⟨S_, .i32⟩
  | .hbm, ⟨17, _⟩ => ⟨S160000, .i32⟩
  | .hbm, ⟨18, _⟩ => ⟨S160000, .i1⟩
  | .hbm, ⟨19, _⟩ => ⟨S_, .i32⟩
  | .hbm, ⟨20, _⟩ => ⟨S160000, .i32⟩
  | .hbm, ⟨21, _⟩ => ⟨S160000, .i32⟩
  | .hbm, ⟨22, _⟩ => ⟨S160000, .i32⟩
  | .hbm, ⟨23, _⟩ => ⟨S160000x1, .i32⟩
  | .hbm, ⟨24, _⟩ => ⟨S160000x1, .i32⟩
  | .hbm, ⟨25, _⟩ => ⟨S160000x2, .i32⟩
  | .hbm, ⟨26, _⟩ => ⟨S10240x10240, .f32⟩
  | .hbm, ⟨27, _⟩ => ⟨S_, .i32⟩
  | .hbm, ⟨28, _⟩ => ⟨S_, .f32⟩
  | .hbm, ⟨29, _⟩ => ⟨S8x10240x128, .f32⟩
  | .hbm, ⟨30, _⟩ => ⟨S10240x128x8, .f32⟩
  | .hbm, ⟨31, _⟩ => ⟨S10240x1024, .f32⟩
  | .hbm, ⟨32, _⟩ => ⟨S10240x1024, .f32⟩
  | .hbm, ⟨33, _⟩ => ⟨S10240x1024, .f32⟩
  | .hbm, ⟨34, _⟩ => ⟨S_, .f32⟩
  | .hbm, ⟨35, _⟩ => ⟨S10240x1024, .f32⟩
  | .hbm, ⟨36, _⟩ => ⟨S10240x1024, .f32⟩
  | .hbm, ⟨37, _⟩ => ⟨S10240x1024, .f32⟩
  | .hbm, ⟨38, _⟩ => ⟨S1x10240x1024, .f32⟩
  | .hbm, ⟨39, _⟩ => ⟨S1x10240x1024, .f32⟩
  | .hbm, ⟨40, _⟩ => ⟨S1x10240x1024, .f32⟩
  | .hbm, ⟨41, _⟩ => ⟨S3x10240x1024, .f32⟩
  | .hbm, ⟨42, _⟩ => ⟨S3x10240x128x8, .f32⟩
  | .hbm, ⟨43, _⟩ => ⟨S8x10240x128x3, .f32⟩
  | .hbm, ⟨44, _⟩ => ⟨S81920x384, .f32⟩
  | .hbm, ⟨45, _⟩ => ⟨S81920x1, .f32⟩
  | .hbm, ⟨46, _⟩ => ⟨S8x10240x1, .f32⟩
  | .hbm, ⟨47, _⟩ => ⟨S8x10240x1, .f32⟩
  | .hbm, ⟨48, _⟩ => ⟨S8x10240x1, .f32⟩
  | .hbm, ⟨49, _⟩ => ⟨S_, .f32⟩
  | .hbm, ⟨50, _⟩ => ⟨S8x10240x1, .f32⟩
  | .hbm, ⟨51, _⟩ => ⟨S8x10240x1, .f32⟩
  | .hbm, ⟨52, _⟩ => ⟨S10240x1x8, .f32⟩
  | .hbm, ⟨53, _⟩ => ⟨S10240x8, .f32⟩
  | .hbm, ⟨54, _⟩ => ⟨S_, .i32⟩
  | .hbm, ⟨55, _⟩ => ⟨S_, .f32⟩
  | .hbm, ⟨56, _⟩ => ⟨S10240x128, .f32⟩
  | .hbm, ⟨57, _⟩ => ⟨S10240x128, .f32⟩
  | .hbm, ⟨58, _⟩ => ⟨S10240x128, .f32⟩
  | .hbm, ⟨59, _⟩ => ⟨S_, .f32⟩
  | .hbm, ⟨60, _⟩ => ⟨S10240x128, .f32⟩
  | .hbm, ⟨61, _⟩ => ⟨S10240x128, .f32⟩
  | .hbm, ⟨62, _⟩ => ⟨S10240x128, .f32⟩
  | .hbm, ⟨63, _⟩ => ⟨S10240x8, .f32⟩
  | .hbm, ⟨64, _⟩ => ⟨S10240x8, .f32⟩
  | .hbm, ⟨65, _⟩ => ⟨S1x10240x8, .f32⟩
  | .hbm, ⟨66, _⟩ => ⟨S1x10240x8, .f32⟩
  | .hbm, ⟨67, _⟩ => ⟨S1x10240x8, .f32⟩
  | .hbm, ⟨68, _⟩ => ⟨S3x10240x8, .f32⟩
  | .hbm, ⟨69, _⟩ => ⟨S3x10240x1x8, .f32⟩
  | .hbm, ⟨70, _⟩ => ⟨S8x10240x1x3, .f32⟩
  | .hbm, ⟨71, _⟩ => ⟨S81920x3, .f32⟩
  | .hbm, ⟨72, _⟩ => ⟨S81920x1, .f32⟩
  | .hbm, ⟨73, _⟩ => ⟨S8x10240x1, .f32⟩
  | .hbm, ⟨74, _⟩ => ⟨S8x10240x1, .f32⟩
  | .hbm, ⟨75, _⟩ => ⟨S8x10240x1, .f32⟩
  | .hbm, ⟨76, _⟩ => ⟨S_, .f32⟩
  | .hbm, ⟨77, _⟩ => ⟨S8x10240x1, .f32⟩
  | .hbm, ⟨78, _⟩ => ⟨S8x10240x1, .f32⟩
  | .hbm, ⟨79, _⟩ => ⟨S8x10000x1, .f32⟩
  | .hbm, ⟨80, _⟩ => ⟨S8x10000, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x1024, .f32⟩
  | .local _ .vmem, ⟨22, _⟩ => ⟨S1024x1024, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | _, _ => ⟨S8x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call1_cst : Ref sig .tc := ⟨.hbm, 49, rfl⟩
abbrev main_call1_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_call2_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call3_cst : Ref sig .tc := ⟨.hbm, 76, rfl⟩
abbrev main_call3_v0 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨2, ![10, 10], ![false, false]⟩

def k0_cond2 (i : grid0.Coords) : BitVec 1 :=
  let arg1 : BitVec 32 := BitVec.ofNat 32 (i 1).val
  let c9_i32 : BitVec 32 := 9#32
  let v15 : BitVec 1 := Scalar.cmpi .eq arg1 c9_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![10, 10], ![false, false]⟩

def k1_cond2 (i : grid1.Coords) : BitVec 1 :=
  let arg1 : BitVec 32 := BitVec.ofNat 32 (i 1).val
  let c9_i32 : BitVec 32 := 9#32
  let v15 : BitVec 1 := Scalar.cmpi .eq arg1 c9_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![10, 10], ![false, false]⟩

def k2_cond2 (i : grid2.Coords) : BitVec 1 :=
  let arg1 : BitVec 32 := BitVec.ofNat 32 (i 1).val
  let c9_i32 : BitVec 32 := 9#32
  let v15 : BitVec 1 := Scalar.cmpi .eq arg1 c9_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![10, 10], ![false, false]⟩

def k3_cond2 (i : grid3.Coords) : BitVec 1 :=
  let arg1 : BitVec 32 := BitVec.ofNat 32 (i 1).val
  let c9_i32 : BitVec 32 := 9#32
  let v15 : BitVec 1 := Scalar.cmpi .eq arg1 c9_i32
  let v16 : BitVec 32 := Scalar.extui v15
  let c0_i32_8 : BitVec 32 := 0#32
  let v17 : BitVec 1 := Scalar.cmpi .ne v16 c0_i32_8
  v17

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  bcast_S_S10240x10240 : S_.BroadcastsInDim S10240x10240 (![] : Fin 0 → Fin S10240x10240.rank)
  bcast_S_S160000 : S_.BroadcastsInDim S160000 (![] : Fin 0 → Fin S160000.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  pads_S8x10000x128_S8x10240x128_000_02400_000 : S8x10000x128.Pads (![0, 0, 0] : Fin 3 → Nat) ![0, 240, 0] ![0, 0, 0] S8x10240x128
  h_S_ : 0 < S_.numel
  transposes_S8x10240x128_S10240x128x8_1_2_0 : S8x10240x128.Transposes [1, 2, 0] S10240x128x8
  shapeCasts_S10240x128x8_S10240x1024 : S10240x128x8.ShapeCasts S10240x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  bcast_S_S10240x1024 : S_.BroadcastsInDim S10240x1024 (![] : Fin 0 → Fin S10240x1024.rank)
  bcast_S10240x1024_S1x10240x1024_1_2 : S10240x1024.BroadcastsInDim S1x10240x1024 (![1, 2] : Fin 2 → Fin S1x10240x1024.rank)
  concatenates_S1x10240x1024_S1x10240x1024_S1x10240x1024_S3x10240x1024_d0 : Shape.Concatenates [S1x10240x1024, S1x10240x1024, S1x10240x1024] S3x10240x1024 0
  shapeCasts_S3x10240x1024_S3x10240x128x8 : S3x10240x1024.ShapeCasts S3x10240x128x8
  transposes_S3x10240x128x8_S8x10240x128x3_3_1_2_0 : S3x10240x128x8.Transposes [3, 1, 2, 0] S8x10240x128x3
  shapeCasts_S8x10240x128x3_S81920x384 : S8x10240x128x3.ShapeCasts S81920x384
  shapeCasts_S81920x1_S8x10240x1 : S81920x1.ShapeCasts S8x10240x1
  bcast_S1x1x1_S8x10240x1_0_1_2 : S1x1x1.BroadcastsInDim S8x10240x1 (![0, 1, 2] : Fin 3 → Fin S8x10240x1.rank)
  bcast_S_S8x10240x1 : S_.BroadcastsInDim S8x10240x1 (![] : Fin 0 → Fin S8x10240x1.rank)
  transposes_S8x10240x1_S10240x1x8_1_2_0 : S8x10240x1.Transposes [1, 2, 0] S10240x1x8
  shapeCasts_S10240x1x8_S10240x8 : S10240x1x8.ShapeCasts S10240x8
  pads_S10240x8_S10240x128_000_01200 : S10240x8.Pads (![0, 0] : Fin 2 → Nat) ![0, 120] ![0, 0] S10240x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bcast_S_S10240x128 : S_.BroadcastsInDim S10240x128 (![] : Fin 0 → Fin S10240x128.rank)
  slices_S10240x128_S10240x8_0_0 : S10240x128.Slices ![0, 0] S10240x8
  bcast_S10240x8_S1x10240x8_1_2 : S10240x8.BroadcastsInDim S1x10240x8 (![1, 2] : Fin 2 → Fin S1x10240x8.rank)
  concatenates_S1x10240x8_S1x10240x8_S1x10240x8_S3x10240x8_d0 : Shape.Concatenates [S1x10240x8, S1x10240x8, S1x10240x8] S3x10240x8 0
  shapeCasts_S3x10240x8_S3x10240x1x8 : S3x10240x8.ShapeCasts S3x10240x1x8
  transposes_S3x10240x1x8_S8x10240x1x3_3_1_2_0 : S3x10240x1x8.Transposes [3, 1, 2, 0] S8x10240x1x3
  shapeCasts_S8x10240x1x3_S81920x3 : S8x10240x1x3.ShapeCasts S81920x3
  slices_S8x10240x1_S8x10000x1_0_0_0 : S8x10240x1.Slices ![0, 0, 0] S8x10000x1
  shapeCasts_S8x10000x1_S8x10000 : S8x10000x1.ShapeCasts S8x10000
  scatter_S10240x10240_S160000x2_S160000_n_01_01_1_wf : ScatterDims.WF S10240x10240 S160000x2 S160000 [] [0, 1] [0, 1] 1
  dot_S1024x1024_S1024x1024_S1024x1024_1_0_0_1_n_n_wf : DotDims.WF S1024x1024 S1024x1024 S1024x1024 [1] [0] [0] [1] [] []
  dot_S81920x384_S384x1_S81920x1_1_0_0_1_n_n_wf : DotDims.WF S81920x384 S384x1 S81920x1 [1] [0] [0] [1] [] []
  dot_S1024x1024_S1024x128_S1024x128_1_0_0_1_n_n_wf : DotDims.WF S1024x1024 S1024x128 S1024x128 [1] [0] [0] [1] [] []
  dot_S81920x3_S3x1_S81920x1_1_0_0_1_n_n_wf : DotDims.WF S81920x3 S3x1 S81920x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S10240x10240.size a
  hwx0_0 : ∀ i : grid0.Coords, EltTy.bits .f32 = 32 ∨ (Rect.block (s := S10240x10240) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S10240x1024.size a
  hwx0_1 : ∀ i : grid0.Coords, EltTy.bits .f32 = 32 ∨ (Rect.block (s := S10240x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S10240x1024.size a
  hwx0_2 : ∀ i : grid0.Coords, EltTy.bits .f32 = 32 ∨ (Rect.block (s := S10240x1024) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S10240x10240.size a
  hwx1_0 : ∀ i : grid1.Coords, EltTy.bits .f32 = 32 ∨ (Rect.block (s := S10240x10240) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S10240x1024.size a
  hwx1_1 : ∀ i : grid1.Coords, EltTy.bits .f32 = 32 ∨ (Rect.block (s := S10240x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S10240x1024.size a
  hwx1_2 : ∀ i : grid1.Coords, EltTy.bits .f32 = 32 ∨ (Rect.block (s := S10240x1024) S1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S10240x10240.size a
  hwx2_0 : ∀ i : grid2.Coords, EltTy.bits .f32 = 32 ∨ (Rect.block (s := S10240x10240) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S10240x128.size a
  hwx2_1 : ∀ i : grid2.Coords, EltTy.bits .f32 = 32 ∨ (Rect.block (s := S10240x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S10240x128.size a
  hwx2_2 : ∀ i : grid2.Coords, EltTy.bits .f32 = 32 ∨ (Rect.block (s := S10240x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S10240x10240.size a
  hwx3_0 : ∀ i : grid3.Coords, EltTy.bits .f32 = 32 ∨ (Rect.block (s := S10240x10240) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S10240x128.size a
  hwx3_1 : ∀ i : grid3.Coords, EltTy.bits .f32 = 32 ∨ (Rect.block (s := S10240x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S10240x128.size a
  hwx3_2 : ∀ i : grid3.Coords, EltTy.bits .f32 = 32 ∨ (Rect.block (s := S10240x128) S1024x128.size (cc3_transform_2 i) (hinb3_2 i)).WholeWords (EltTy.packing .f32)

variable [Facts₀]

def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S81920x384_S384x1_S81920x1_1_0_0_1_n_n : DotDims S81920x384 S384x1 S81920x1 where
  lhsContracting := [1]
  rhsContracting := [0]
  lhsNonContracting := [0]
  rhsNonContracting := [1]
  lhsBatch := []
  rhsBatch := []
  wf := dot_S81920x384_S384x1_S81920x1_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S81920x3_S3x1_S81920x1_1_0_0_1_n_n : DotDims S81920x3 S3x1 S81920x1 where
  lhsContracting := [1]
  rhsContracting := [0]
  lhsNonContracting := [0]
  rhsNonContracting := [1]
  lhsBatch := []
  rhsBatch := []
  wf := dot_S81920x3_S3x1_S81920x1_1_0_0_1_n_n_wf

abbrev win0_0 : Pipeline.Window sig grid0 :=
  Pipeline.Window.ofSpec (Memref.whole main_v14) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v14) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v14) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v14) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1024x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S8x10000x128 : Shape := ⟨3, ![8, 10000, 128]⟩
abbrev S160000 : Shape := ⟨1, ![160000]⟩
abbrev S384x1 : Shape := ⟨2, ![384, 1]⟩
abbrev S3x1 : Shape := ⟨2, ![3, 1]⟩
abbrev S1x1x1 : Shape := ⟨3, ![1, 1, 1]⟩
abbrev S10000x128x8 : Shape := ⟨3, ![10000, 128, 8]⟩
abbrev S10000x1024 : Shape := ⟨2, ![10000, 1024]⟩
abbrev S160000x1 : Shape := ⟨2, ![160000, 1]⟩
abbrev S_ : Shape := ⟨0, ![]⟩
abbrev S160000x1024 : Shape := ⟨2, ![160000, 1024]⟩
abbrev S1x10000x1024 : Shape := ⟨3, ![1, 10000, 1024]⟩
abbrev S3x10000x1024 : Shape := ⟨3, ![3, 10000, 1024]⟩
abbrev S3x10000x128x8 : Shape := ⟨4, ![3, 10000, 128, 8]⟩
abbrev S8x10000x128x3 : Shape := ⟨4, ![8, 10000, 128, 3]⟩
abbrev S80000x384 : Shape := ⟨2, ![80000, 384]⟩
abbrev S80000x1 : Shape := ⟨2, ![80000, 1]⟩
abbrev S8x10000x1 : Shape := ⟨3, ![8, 10000, 1]⟩
abbrev S10000x1x8 : Shape := ⟨3, ![10000, 1, 8]⟩
abbrev S10000x8 : Shape := ⟨2, ![10000, 8]⟩
abbrev S160000x8 : Shape := ⟨2, ![160000, 8]⟩
abbrev S1x10000x8 : Shape := ⟨3, ![1, 10000, 8]⟩
abbrev S3x10000x8 : Shape := ⟨3, ![3, 10000, 8]⟩
abbrev S3x10000x1x8 : Shape := ⟨4, ![3, 10000, 1, 8]⟩
abbrev S8x10000x1x3 : Shape := ⟨4, ![8, 10000, 1, 3]⟩
abbrev S80000x3 : Shape := ⟨2, ![80000, 3]⟩
abbrev S8x10000 : Shape := ⟨2, ![8, 10000]⟩

abbrev nBuf : Space → Nat
  | .hbm => 112
  | .vmem => 0
  | .smem => 0
  | _ => 0

abbrev bufTy : (tb : Table) → Fin (tcTables nBuf tb) → BufTy
  | .hbm, ⟨0, _⟩ => ⟨S8x10000x128, .f32⟩
  | .hbm, ⟨1, _⟩ => ⟨S160000, .i32⟩
  | .hbm, ⟨2, _⟩ => ⟨S160000, .i32⟩
  | .hbm, ⟨3, _⟩ => ⟨S160000, .f32⟩
  | .hbm, ⟨4, _⟩ => ⟨S384x1, .f32⟩
  | .hbm, ⟨5, _⟩ => ⟨S3x1, .f32⟩
  | .hbm, ⟨6, _⟩ => ⟨S1x1x1, .f32⟩
  | .hbm, ⟨7, _⟩ => ⟨S10000x128x8, .f32⟩
  | .hbm, ⟨8, _⟩ => ⟨S10000x1024, .f32⟩
  | .hbm, ⟨9, _⟩ => ⟨S160000x1, .f32⟩
  | .hbm, ⟨10, _⟩ => ⟨S_, .i32⟩
  | .hbm, ⟨11, _⟩ => ⟨S160000, .i32⟩
  | .hbm, ⟨12, _⟩ => ⟨S160000, .i1⟩
  | .hbm, ⟨13, _⟩ => ⟨S_, .i32⟩
  | .hbm, ⟨14, _⟩ => ⟨S160000, .i32⟩
  | .hbm, ⟨15, _⟩ => ⟨S160000, .i32⟩
  | .hbm, ⟨16, _⟩ => ⟨S160000, .i32⟩
  | .hbm, ⟨17, _⟩ => ⟨S160000x1, .i32⟩
  | .hbm, ⟨18, _⟩ => ⟨S160000x1024, .f32⟩
  | .hbm, ⟨19, _⟩ => ⟨S160000x1024, .f32⟩
  | .hbm, ⟨20, _⟩ => ⟨S160000x1024, .f32⟩
  | .hbm, ⟨21, _⟩ => ⟨S_, .f32⟩
  | .hbm, ⟨22, _⟩ => ⟨S10000x1024, .f32⟩
  | .hbm, ⟨23, _⟩ => ⟨S160000x1, .i32⟩
  | .hbm, ⟨24, _⟩ => ⟨S10000x1024, .f32⟩
  | .hbm, ⟨25, _⟩ => ⟨S160000x1, .f32⟩
  | .hbm, ⟨26, _⟩ => ⟨S_, .i32⟩
  | .hbm, ⟨27, _⟩ => ⟨S160000, .i32⟩
  | .hbm, ⟨28, _⟩ => ⟨S160000, .i1⟩
  | .hbm, ⟨29, _⟩ => ⟨S_, .i32⟩
  | .hbm, ⟨30, _⟩ => ⟨S160000, .i32⟩
  | .hbm, ⟨31, _⟩ => ⟨S160000, .i32⟩
  | .hbm, ⟨32, _⟩ => ⟨S160000, .i32⟩
  | .hbm, ⟨33, _⟩ => ⟨S160000x1, .i32⟩
  | .hbm, ⟨34, _⟩ => ⟨S160000x1024, .f32⟩
  | .hbm, ⟨35, _⟩ => ⟨S160000x1024, .f32⟩
  | .hbm, ⟨36, _⟩ => ⟨S160000x1024, .f32⟩
  | .hbm, ⟨37, _⟩ => ⟨S_, .f32⟩
  | .hbm, ⟨38, _⟩ => ⟨S10000x1024, .f32⟩
  | .hbm, ⟨39, _⟩ => ⟨S160000x1, .i32⟩
  | .hbm, ⟨40, _⟩ => ⟨S10000x1024, .f32⟩
  | .hbm, ⟨41, _⟩ => ⟨S_, .f32⟩
  | .hbm, ⟨42, _⟩ => ⟨S10000x1024, .f32⟩
  | .hbm, ⟨43, _⟩ => ⟨S10000x1024, .f32⟩
  | .hbm, ⟨44, _⟩ => ⟨S10000x1024, .f32⟩
  | .hbm, ⟨45, _⟩ => ⟨S1x10000x1024, .f32⟩
  | .hbm, ⟨46, _⟩ => ⟨S1x10000x1024, .f32⟩
  | .hbm, ⟨47, _⟩ => ⟨S1x10000x1024, .f32⟩
  | .hbm, ⟨48, _⟩ => ⟨S3x10000x1024, .f32⟩
  | .hbm, ⟨49, _⟩ => ⟨S3x10000x128x8, .f32⟩
  | .hbm, ⟨50, _⟩ => ⟨S8x10000x128x3, .f32⟩
  | .hbm, ⟨51, _⟩ => ⟨S80000x384, .f32⟩
  | .hbm, ⟨52, _⟩ => ⟨S80000x1, .f32⟩
  | .hbm, ⟨53, _⟩ => ⟨S8x10000x1, .f32⟩
  | .hbm, ⟨54, _⟩ => ⟨S8x10000x1, .f32⟩
  | .hbm, ⟨55, _⟩ => ⟨S8x10000x1, .f32⟩
  | .hbm, ⟨56, _⟩ => ⟨S_, .f32⟩
  | .hbm, ⟨57, _⟩ => ⟨S8x10000x1, .f32⟩
  | .hbm, ⟨58, _⟩ => ⟨S8x10000x1, .f32⟩
  | .hbm, ⟨59, _⟩ => ⟨S10000x1x8, .f32⟩
  | .hbm, ⟨60, _⟩ => ⟨S10000x8, .f32⟩
  | .hbm, ⟨61, _⟩ => ⟨S160000x1, .f32⟩
  | .hbm, ⟨62, _⟩ => ⟨S_, .i32⟩
  | .hbm, ⟨63, _⟩ => ⟨S160000, .i32⟩
  | .hbm, ⟨64, _⟩ => ⟨S160000, .i1⟩
  | .hbm, ⟨65, _⟩ => ⟨S_, .i32⟩
  | .hbm, ⟨66, _⟩ => ⟨S160000, .i32⟩
  | .hbm, ⟨67, _⟩ => ⟨S160000, .i32⟩
  | .hbm, ⟨68, _⟩ => ⟨S160000, .i32⟩
  | .hbm, ⟨69, _⟩ => ⟨S160000x1, .i32⟩
  | .hbm, ⟨70, _⟩ => ⟨S160000x8, .f32⟩
  | .hbm, ⟨71, _⟩ => ⟨S160000x8, .f32⟩
  | .hbm, ⟨72, _⟩ => ⟨S160000x8, .f32⟩
  | .hbm, ⟨73, _⟩ => ⟨S_, .f32⟩
  | .hbm, ⟨74, _⟩ => ⟨S10000x8, .f32⟩
  | .hbm, ⟨75, _⟩ => ⟨S160000x1, .i32⟩
  | .hbm, ⟨76, _⟩ => ⟨S10000x8, .f32⟩
  | .hbm, ⟨77, _⟩ => ⟨S160000x1, .f32⟩
  | .hbm, ⟨78, _⟩ => ⟨S_, .i32⟩
  | .hbm, ⟨79, _⟩ => ⟨S160000, .i32⟩
  | .hbm, ⟨80, _⟩ => ⟨S160000, .i1⟩
  | .hbm, ⟨81, _⟩ => ⟨S_, .i32⟩
  | .hbm, ⟨82, _⟩ => ⟨S160000, .i32⟩
  | .hbm, ⟨83, _⟩ => ⟨S160000, .i32⟩
  | .hbm, ⟨84, _⟩ => ⟨S160000, .i32⟩
  | .hbm, ⟨85, _⟩ => ⟨S160000x1, .i32⟩
  | .hbm, ⟨86, _⟩ => ⟨S160000x8, .f32⟩
  | .hbm, ⟨87, _⟩ => ⟨S160000x8, .f32⟩
  | .hbm, ⟨88, _⟩ => ⟨S160000x8, .f32⟩
  | .hbm, ⟨89, _⟩ => ⟨S_, .f32⟩
  | .hbm, ⟨90, _⟩ => ⟨S10000x8, .f32⟩
  | .hbm, ⟨91, _⟩ => ⟨S160000x1, .i32⟩
  | .hbm, ⟨92, _⟩ => ⟨S10000x8, .f32⟩
  | .hbm, ⟨93, _⟩ => ⟨S_, .f32⟩
  | .hbm, ⟨94, _⟩ => ⟨S10000x8, .f32⟩
  | .hbm, ⟨95, _⟩ => ⟨S10000x8, .f32⟩
  | .hbm, ⟨96, _⟩ => ⟨S10000x8, .f32⟩
  | .hbm, ⟨97, _⟩ => ⟨S1x10000x8, .f32⟩
  | .hbm, ⟨98, _⟩ => ⟨S1x10000x8, .f32⟩
  | .hbm, ⟨99, _⟩ => ⟨S1x10000x8, .f32⟩
  | .hbm, ⟨100, _⟩ => ⟨S3x10000x8, .f32⟩
  | .hbm, ⟨101, _⟩ => ⟨S3x10000x1x8, .f32⟩
  | .hbm, ⟨102, _⟩ => ⟨S8x10000x1x3, .f32⟩
  | .hbm, ⟨103, _⟩ => ⟨S80000x3, .f32⟩
  | .hbm, ⟨104, _⟩ => ⟨S80000x1, .f32⟩
  | .hbm, ⟨105, _⟩ => ⟨S8x10000x1, .f32⟩
  | .hbm, ⟨106, _⟩ => ⟨S8x10000x1, .f32⟩
  | .hbm, ⟨107, _⟩ => ⟨S8x10000x1, .f32⟩
  | .hbm, ⟨108, _⟩ => ⟨S_, .f32⟩
  | .hbm, ⟨109, _⟩ => ⟨S8x10000x1, .f32⟩
  | .hbm, ⟨110, _⟩ => ⟨S8x10000x1, .f32⟩
  | .hbm, ⟨111, _⟩ => ⟨S8x10000, .f32⟩
  | _, _ => ⟨S8x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_cst : Ref sig .tc := ⟨.hbm, 56, rfl⟩
abbrev main_call0_v0 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_5 : Ref sig .tc := ⟨.hbm, 62, rfl⟩
abbrev main_v46 : Ref sig .tc := ⟨.hbm, 63, rfl⟩
abbrev main_v47 : Ref sig .tc := ⟨.hbm, 64, rfl⟩
abbrev main_c_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_8 : Ref sig .tc := ⟨.hbm, 78, rfl⟩
abbrev main_v59 : Ref sig .tc := ⟨.hbm, 79, rfl⟩
abbrev main_v60 : Ref sig .tc := ⟨.hbm, 80, rfl⟩
abbrev main_c_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_call1_cst : Ref sig .tc := ⟨.hbm, 108, rfl⟩
abbrev main_call1_v0 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]

class Facts₀ : Prop where
  transposes_S8x10000x128_S10000x128x8_1_2_0 : S8x10000x128.Transposes [1, 2, 0] S10000x128x8
  shapeCasts_S10000x128x8_S10000x1024 : S10000x128x8.ShapeCasts S10000x1024
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x1024_0_1 : S160000x1.BroadcastsInDim S160000x1024 (![0, 1] : Fin 2 → Fin S160000x1024.rank)
  bcast_S_S10000x1024 : S_.BroadcastsInDim S10000x1024 (![] : Fin 0 → Fin S10000x1024.rank)
  bcast_S10000x1024_S1x10000x1024_1_2 : S10000x1024.BroadcastsInDim S1x10000x1024 (![1, 2] : Fin 2 → Fin S1x10000x1024.rank)
  concatenates_S1x10000x1024_S1x10000x1024_S1x10000x1024_S3x10000x1024_d0 : Shape.Concatenates [S1x10000x1024, S1x10000x1024, S1x10000x1024] S3x10000x1024 0
  shapeCasts_S3x10000x1024_S3x10000x128x8 : S3x10000x1024.ShapeCasts S3x10000x128x8
  transposes_S3x10000x128x8_S8x10000x128x3_3_1_2_0 : S3x10000x128x8.Transposes [3, 1, 2, 0] S8x10000x128x3
  shapeCasts_S8x10000x128x3_S80000x384 : S8x10000x128x3.ShapeCasts S80000x384
  shapeCasts_S80000x1_S8x10000x1 : S80000x1.ShapeCasts S8x10000x1
  bcast_S1x1x1_S8x10000x1_0_1_2 : S1x1x1.BroadcastsInDim S8x10000x1 (![0, 1, 2] : Fin 3 → Fin S8x10000x1.rank)
  bcast_S_S8x10000x1 : S_.BroadcastsInDim S8x10000x1 (![] : Fin 0 → Fin S8x10000x1.rank)
  transposes_S8x10000x1_S10000x1x8_1_2_0 : S8x10000x1.Transposes [1, 2, 0] S10000x1x8
  shapeCasts_S10000x1x8_S10000x8 : S10000x1x8.ShapeCasts S10000x8
  bcast_S160000x1_S160000x8_0_1 : S160000x1.BroadcastsInDim S160000x8 (![0, 1] : Fin 2 → Fin S160000x8.rank)
  bcast_S_S10000x8 : S_.BroadcastsInDim S10000x8 (![] : Fin 0 → Fin S10000x8.rank)
  bcast_S10000x8_S1x10000x8_1_2 : S10000x8.BroadcastsInDim S1x10000x8 (![1, 2] : Fin 2 → Fin S1x10000x8.rank)
  concatenates_S1x10000x8_S1x10000x8_S1x10000x8_S3x10000x8_d0 : Shape.Concatenates [S1x10000x8, S1x10000x8, S1x10000x8] S3x10000x8 0
  shapeCasts_S3x10000x8_S3x10000x1x8 : S3x10000x8.ShapeCasts S3x10000x1x8
  transposes_S3x10000x1x8_S8x10000x1x3_3_1_2_0 : S3x10000x1x8.Transposes [3, 1, 2, 0] S8x10000x1x3
  shapeCasts_S8x10000x1x3_S80000x3 : S8x10000x1x3.ShapeCasts S80000x3
  shapeCasts_S8x10000x1_S8x10000 : S8x10000x1.ShapeCasts S8x10000
  gather_S10000x1024_S160000x1_S160000x1024_1_0_n_n_0_1_11024_wf : GatherDims.WF S10000x1024 S160000x1 S160000x1024 [1] [0] [] [0] [] 1 ![1, 1024]
  scatter_S10000x1024_S160000x1_S160000x1024_1_0_0_1_wf : ScatterDims.WF S10000x1024 S160000x1 S160000x1024 [1] [0] [0] 1
  dot_S80000x384_S384x1_S80000x1_1_0_0_1_n_n_wf : DotDims.WF S80000x384 S384x1 S80000x1 [1] [0] [0] [1] [] []
  gather_S10000x8_S160000x1_S160000x8_1_0_n_n_0_1_18_wf : GatherDims.WF S10000x8 S160000x1 S160000x8 [1] [0] [] [0] [] 1 ![1, 8]
  scatter_S10000x8_S160000x1_S160000x8_1_0_0_1_wf : ScatterDims.WF S10000x8 S160000x1 S160000x8 [1] [0] [0] 1
  dot_S80000x3_S3x1_S80000x1_1_0_0_1_n_n_wf : DotDims.WF S80000x3 S3x1 S80000x1 [1] [0] [0] [1] [] []

variable [Facts₀]

def gather_S10000x1024_S160000x1_S160000x1024_1_0_n_n_0_1_11024 : GatherDims S10000x1024 S160000x1 S160000x1024 where
  offsetDims := [1]
  collapsedSliceDims := [0]
  operandBatchingDims := []
  startIndicesBatchingDims := []
  startIndexMap := [0]
  indexVectorDim := 1
  sliceSizes := ![1, 1024]
  wf := gather_S10000x1024_S160000x1_S160000x1024_1_0_n_n_0_1_11024_wf
def scatter_S10000x1024_S160000x1_S160000x1024_1_0_0_1 : ScatterDims S10000x1024 S160000x1 S160000x1024 where
  updateWindowDims := [1]
  insertedWindowDims := [0]
  scatterDimsToOperandDims := [0]
  indexVectorDim := 1
  wf := scatter_S10000x1024_S160000x1_S160000x1024_1_0_0_1_wf
def dot_S80000x384_S384x1_S80000x1_1_0_0_1_n_n : DotDims S80000x384 S384x1 S80000x1 where
  lhsContracting := [1]
  rhsContracting := [0]
  lhsNonContracting := [0]
  rhsNonContracting := [1]
  lhsBatch := []
  rhsBatch := []
  wf := dot_S80000x384_S384x1_S80000x1_1_0_0_1_n_n_wf
def gather_S10000x8_S160000x1_S160000x8_1_0_n_n_0_1_18 : GatherDims S10000x8 S160000x1 S160000x8 where
  offsetDims := [1]
  collapsedSliceDims := [0]
  operandBatchingDims := []
  startIndicesBatchingDims := []
  startIndexMap := [0]
  indexVectorDim := 1
  sliceSizes := ![1, 8]
  wf := gather_S10000x8_S160000x1_S160000x8_1_0_n_n_0_1_18_wf
def scatter_S10000x8_S160000x1_S160000x8_1_0_0_1 : ScatterDims S10000x8 S160000x1 S160000x8 where
  updateWindowDims := [1]
  insertedWindowDims := [0]
  scatterDimsToOperandDims := [0]
  indexVectorDim := 1
  wf := scatter_S10000x8_S160000x1_S160000x8_1_0_0_1_wf
def dot_S80000x3_S3x1_S80000x1_1_0_0_1_n_n : DotDims S80000x3 S3x1 S80000x1 where
  lhsContracting := [1]
  rhsContracting := [0]
  lhsNonContracting := [0]
  rhsNonContracting := [1]
  lhsBatch := []
  rhsBatch := []
  wf := dot_S80000x3_S3x1_S80000x1_1_0_0_1_n_n_wf

class Facts : Prop extends Facts₀ where

variable [Facts]
-- ==== Proof.K.Runs0.lean ====
/- A product L · Y over a 10 × 10 grid of points (i, k) in blocks of 1024 × 1024: the blocks its operands show at a point, and its conditions k = 0 and k = 9 decided over the grid. -/
import proofs.«416138_j67946382623286_1_alg».proof.Proof.Gen.Kernel.Launch
import proofs.«416138_j67946382623286_1_alg».proof.Proof.Gen.Kernel.Skeleton
import proofs.«416138_j67946382623286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin grid0.N, cond0_0 (grid0.coords t) ↔ t.val % 10 = 0 := by decide +kernel

abbrev cond0_1 (i : grid0.Coords) : Prop := k0_cond2 i = 1#1
theorem hcond0_1 : ∀ t : Fin grid0.N, cond0_1 (grid0.coords t) ↔ t.val % 10 = 9 := by decide +kernel

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬t.val % 10 = 9 → cfg0.idle 2 (grid0.coords t) = true := by decide +kernel
theorem noFlush0_2 : ∀ t : Fin cfg0.N, ¬t.val % 10 = 9 → (cfg0.win 2).flush t = false := by decide +kernel
theorem liveAt0_2 : ∀ t : Fin cfg0.N, t.val % 10 = 9 → cfg0.idle 2 (grid0.coords t) = false := by decide +kernel

abbrev VO0_2 : View sig .tc .vmem S1024x1024 .f32 := (Memref.whole cc0_stg2_0 : Memref sig .tc .vmem S1024x1024 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)

abbrev scM0 : Memref sig .tc .vmem S1024x1024 .f32 := Memref.whole cc0_scratch0
abbrev VS0 : View sig .tc .vmem S1024x1024 .f32 := scM0.view

abbrev RestBut0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ RestBut0 c) ∗ (∃ r, prngReg c r)) := by
  unfold Pipeline.ΦA
  rw [Pipeline.scopedRest_split_of_list spec0 c [cc0_scratch0] (by decide) (by decide)]
  simp only [scM0, owns_whole, bigSepL_singleton]
  try rfl

end Cert.Kernel.Frame

end
-- ==== Proof.K.Run0.lean ====
/- The product body run in its three cases: k = 0 clears the accumulator and adds the block product, 0 < k < 9 adds, k = 9 adds and copies the accumulator into the result block. -/
import proofs.«416138_j67946382623286_1_alg».proof.Proof.K.Runs0

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole)
  (x0 : Vec F S1024x1024 .f32) (x1 : Vec F S1024x1024 .f32)

set_option maxHeartbeats 1000000 in
noncomputable def kernelRun0_A (hc0 : cond0_0 i) (hc1 : ¬cond0_1 i) :
    Σ' (L2 : List (View.Piece (Elt F) S1024x1024 .f32)), { LS : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

variable (hc0 : ¬cond0_0 i) (xs : Vec F S1024x1024 .f32)

set_option maxHeartbeats 1000000 in
noncomputable def kernelRun0_B (hc1 : ¬cond0_1 i) :
    Σ' (L2 : List (View.Piece (Elt F) S1024x1024 .f32)), { LS : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def kernelRun0_C (hc1 : cond0_1 i) :
    Σ' (L2 : List (View.Piece (Elt F) S1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.K.Reg0.lean ====
/- After point t the accumulator holds what the point's case makes of what the point before left; k = 0 starts afresh, and k = 9 also copies it into the result block. -/
import proofs.«416138_j67946382623286_1_alg».proof.Proof.K.Run0

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section pieces

variable (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole)
  (x0 : Vec F S1024x1024 .f32) (x1 : Vec F S1024x1024 .f32)

section
variable (hc0 : cond0_0 i) (hc1 : ¬cond0_1 i)

theorem scover0_A (y : S1024x1024.Idx) : ∃ pc ∈ (kernelRun0_A c i arg2 harg2 arg3 harg3 arg4 harg4 arg5 harg5 x0 x1 hc0 hc1).2.1, y ∈ pc.1.set :=
  View.cover_of_tiledL _ S1024x1024.size (by sl_kernel_rfl) y

def sout0_A : Vec F S1024x1024 .f32 :=
  VS0.read (Elt F) (VS0.writes (Elt F) VS0.junk (kernelRun0_A c i arg2 harg2 arg3 harg3 arg4 harg4 arg5 harg5 x0 x1 hc0 hc1).2.1)

end

variable (hc0 : ¬cond0_0 i) (xs : Vec F S1024x1024 .f32)

section
variable (hc1 : ¬cond0_1 i)

theorem scover0_B (y : S1024x1024.Idx) : ∃ pc ∈ (kernelRun0_B c i arg2 harg2 arg3 harg3 arg4 harg4 arg5 harg5 x0 x1 hc0 xs hc1).2.1, y ∈ pc.1.set :=
  View.cover_of_tiledL _ S1024x1024.size (by sl_kernel_rfl) y

def sout0_B : Vec F S1024x1024 .f32 :=
  VS0.read (Elt F) (VS0.writes (Elt F) VS0.junk (kernelRun0_B c i arg2 harg2 arg3 harg3 arg4 harg4 arg5 harg5 x0 x1 hc0 xs hc1).2.1)

end

variable (hc1 : cond0_1 i)

theorem cover0_C_2 (y : S1024x1024.Idx) : ∃ pc ∈ (kernelRun0_C c i arg2 harg2 arg3 harg3 arg4 harg4 arg5 harg5 x0 x1 hc0 xs hc1).1, y ∈ pc.1.set :=
  View.cover_of_tiledL _ S1024x1024.size (by sl_kernel_rfl) y

def out0_C_2 : Vec F S1024x1024 .f32 :=
  VO0_2.read (Elt F) (VO0_2.writes (Elt F) VO0_2.junk (kernelRun0_C c i arg2 harg2 arg3 harg3 arg4 harg4 arg5 harg5 x0 x1 hc0 xs hc1).1)

theorem scover0_C (y : S1024x1024.Idx) : ∃ pc ∈ (kernelRun0_C c i arg2 harg2 arg3 harg3 arg4 harg4 arg5 harg5 x0 x1 hc0 xs hc1).2.1, y ∈ pc.1.set :=
  View.cover_of_tiledL _ S1024x1024.size (by sl_kernel_rfl) y

def sout0_C : Vec F S1024x1024 .f32 :=
  VS0.read (Elt F) (VS0.writes (Elt F) VS0.junk (kernelRun0_C c i arg2 harg2 arg3 harg3 arg4 harg4 arg5 harg5 x0 x1 hc0 xs hc1).2.1)

end pieces

section point

variable (c : Dev nD) (t : Fin cfg0.N)

def accA0 (h0 : t.val % 10 = 0) (h1 : ¬t.val % 10 = 9) : Vec F S1024x1024 .f32 :=
  sout0_A c (grid0.coords t) (ms0_0 t) (hs0_0 t) (ms0_1 t) (hs0_1 t) (ms0_2 t) (hs0_2 t) scM0 (Memref.isWhole_whole _) (iblk0 V c 0 t) (iblk0 V c 1 t) ((hcond0_0 t).mpr h0) (fun h => h1 ((hcond0_1 t).mp h))

def accB0 (h0 : ¬t.val % 10 = 0) (h1 : ¬t.val % 10 = 9) (xs : Vec F S1024x1024 .f32) : Vec F S1024x1024 .f32 :=
  sout0_B c (grid0.coords t) (ms0_0 t) (hs0_0 t) (ms0_1 t) (hs0_1 t) (ms0_2 t) (hs0_2 t) scM0 (Memref.isWhole_whole _) (iblk0 V c 0 t) (iblk0 V c 1 t) (fun h => h0 ((hcond0_0 t).mp h)) xs (fun h => h1 ((hcond0_1 t).mp h))

def accC0 (h0 : ¬t.val % 10 = 0) (h1 : t.val % 10 = 9) (xs : Vec F S1024x1024 .f32) : Vec F S1024x1024 .f32 :=
  sout0_C c (grid0.coords t) (ms0_0 t) (hs0_0 t) (ms0_1 t) (hs0_1 t) (ms0_2 t) (hs0_2 t) scM0 (Memref.isWhole_whole _) (iblk0 V c 0 t) (iblk0 V c 1 t) (fun h => h0 ((hcond0_0 t).mp h)) xs ((hcond0_1 t).mpr h1)

def resC0 (h0 : ¬t.val % 10 = 0) (h1 : t.val % 10 = 9) (xs : Vec F S1024x1024 .f32) : Vec F S1024x1024 .f32 :=
  out0_C_2 c (grid0.coords t) (ms0_0 t) (hs0_0 t) (ms0_1 t) (hs0_1 t) (ms0_2 t) (hs0_2 t) scM0 (Memref.isWhole_whole _) (iblk0 V c 0 t) (iblk0 V c 1 t) (fun h => h0 ((hcond0_0 t).mp h)) xs ((hcond0_1 t).mpr h1)

end point

def accAt0 (c : Dev nD) : (n : ℕ) → n < cfg0.N → Vec F S1024x1024 .f32
  | 0, hn => accA0 V c ⟨0, hn⟩ (Nat.zero_mod _) (by show ¬(0 % 10 = 9); omega)
  | n + 1, hn =>
    if h0 : (n + 1) % 10 = 0 then accA0 V c ⟨n + 1, hn⟩ h0 (by show ¬((n + 1) % 10 = 9); omega)
    else if h1 : (n + 1) % 10 = 9 then accC0 V c ⟨n + 1, hn⟩ h0 h1 (accAt0 c n (Nat.lt_of_succ_lt hn))
    else accB0 V c ⟨n + 1, hn⟩ h0 h1 (accAt0 c n (Nat.lt_of_succ_lt hn))

variable (c : Dev nD) (t : Fin cfg0.N)

theorem accAt0_A (h0 : t.val % 10 = 0) (h1 : ¬t.val % 10 = 9) : accAt0 V c t.val t.isLt = accA0 V c t h0 h1 := by
  obtain ⟨n, hn⟩ := t
  cases n with
  | zero => exact rfl
  | succ n => exact (dif_pos h0).trans rfl

theorem accAt0_B (h0 : ¬t.val % 10 = 0) (h1 : ¬t.val % 10 = 9) : accAt0 V c t.val t.isLt = accB0 V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt0_C (h0 : ¬t.val % 10 = 0) (h1 : t.val % 10 = 9) : accAt0 V c t.val t.isLt = accC0 V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def resAt0 : Vec F S1024x1024 .f32 :=
  if h1 : t.val % 10 = 9 then resC0 V c t (by omega) h1 (accAt0 V c (t.val - 1) (Nat.lt_of_le_of_lt (Nat.sub_le _ _) t.isLt)) else accAt0 V c t.val t.isLt

def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ RestBut0 c) ∗ (∃ r, prngReg c r))

theorem PhiS0_pos (n : ℕ) (h : n ≤ cfg0.N) (hz : n ≠ 0) :
    PhiS0 V c n h = iprop(iprop(owns (c : Thread nD τ) scM0 fullShare (accAt0 V c (n - 1) (by omega)) ∗ RestBut0 c) ∗ (∃ r, prngReg c r)) := by
  cases n with
  | zero => exact absurd rfl hz
  | succ n => rfl

theorem PhiS0_some (n : ℕ) (h : n ≤ cfg0.N) :
    PhiS0 V c n h ⊢ iprop(iprop((∃ d, owns (c : Thread nD τ) scM0 fullShare d) ∗ RestBut0 c) ∗ (∃ r, prngReg c r)) := by
  cases n with
  | zero => rw [show PhiS0 V c 0 h = Pipeline.ΦA spec0 c from rfl, PhiA0_eq]
  | succ n =>
    rw [show PhiS0 V c (n + 1) h = iprop(iprop(owns (c : Thread nD τ) scM0 fullShare (accAt0 V c n h) ∗ RestBut0 c) ∗ (∃ r, prngReg c r)) from rfl]
    iintro ⟨⟨HS0, HR⟩, Hg⟩
    isplitl [HS0 HR]
    · isplitl [HS0]
      · iexists _; iexact HS0
      iexact HR
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => resAt0 V c t
  Φ t := PhiS0 V c t.val (Nat.le_of_lt_succ t.isLt)
  q _ := fullShare
  owed _ := 0

theorem A_eq0 (w : Fin cfg0.W) : (dat0 V c).A w = V c (Pipeline.arrRef spec0 w) := by
  dsimp only [dat0]

theorem after0_0 : (dat0 V c).after 0 t = iblk0 V c 0 t := by dsimp only [dat0]
theorem after0_1 : (dat0 V c).after 1 t = iblk0 V c 1 t := by dsimp only [dat0]
theorem after0_2 : (dat0 V c).after 2 t = resAt0 V c t := by dsimp only [dat0]

theorem before0_0 (d) : (dat0 V c).before 0 t d = iblk0 V c 0 t :=
  (dat0 V c).before_in_eq_fetched 0 rfl (fun _ => rfl) (fun _ _ _ => rfl) (fun _ => rfl) t d
theorem before0_1 (d) : (dat0 V c).before 1 t d = iblk0 V c 1 t :=
  (dat0 V c).before_in_eq_fetched 1 rfl (fun _ => rfl) (fun _ _ _ => rfl) (fun _ => rfl) t d

def bodyPre0 : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = iprop(iprop(owns (c : Thread nD τ) scM0 fullShare (accAt0 V c t.val t.isLt) ∗ RestBut0 c) ∗ (∃ r, prngReg c r)) from rfl]
  rw [show (dat0 V c).Φ t.castSucc = PhiS0 V c t.val (Nat.le_of_lt t.isLt) from by dsimp only [dat0]; simp only [Fin.coe_castSucc]]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 10 = 9
  · have h0 : ¬t.val % 10 = 0 := by omega
    rw [show (dat0 V c).leavesExact 2 t = owns (c : Thread nD τ) (ms0_2 t) fullShare ((dat0 V c).after 2 t) from by
      unfold Dat.leavesExact; rw [liveAt0_2 t h1], after0_2, show resAt0 V c t = resC0 V c t h0 h1 (accAt0 V c (t.val - 1) (Nat.lt_of_le_of_lt (Nat.sub_le _ _) t.isLt)) from dif_pos h1]
    rw [accAt0_C V c t h0 h1, PhiS0_pos V c _ _ (fun hz => h0 (by rw [hz]))]
    unfold accC0 resC0 out0_C_2 sout0_C
    iintro ⟨⟨⟨HS0, HR⟩, Hg⟩, Ho, ⟨%d0, H0⟩, ⟨%d1, H1⟩, ⟨%d2, H2⟩⟩
    iapply ((kernelRun0_C c (grid0.coords t) _ _ _ _ _ _ _ _ (iblk0 V c 0 t) (iblk0 V c 1 t) (fun h => h0 ((hcond0_0 t).mp h)) _ ((hcond0_1 t).mpr h1)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _)
  rw [Dat.leavesExact_idle (dat0 V c) 2 t (idleAt0_2 t h1) (noFlush0_2 t h1)]
  by_cases h0 : t.val % 10 = 0
  · rw [accAt0_A V c t h0 h1]
    unfold accA0 sout0_A
    iintro ⟨HΦ, Ho, ⟨%d0, H0⟩, ⟨%d1, H1⟩, ⟨%d2, H2⟩⟩
    ihave HΦ' := PhiS0_some V c _ _ $$ HΦ
    icases HΦ' with ⟨⟨HS0, HR⟩, Hg⟩
    iapply ((kernelRun0_A c (grid0.coords t) _ _ _ _ _ _ _ _ (iblk0 V c 0 t) (iblk0 V c 1 t) ((hcond0_0 t).mpr h0) (fun h => h1 ((hcond0_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A c _ _ _ _ _ _ _ _ _ _ _ _ _)
        iexact HR
      iexact Hg
    isplitl [Ho]; · iexact Ho
    isplitl [H0]; · iexact H0
    isplitl [H1]; · iexact H1
    iexists _; iexact H2
  · rw [accAt0_B V c t h0 h1, PhiS0_pos V c _ _ (fun hz => h0 (by rw [hz]))]
    unfold accB0 sout0_B
    iintro ⟨⟨⟨HS0, HR⟩, Hg⟩, Ho, ⟨%d0, H0⟩, ⟨%d1, H1⟩, ⟨%d2, H2⟩⟩
    iapply ((kernelRun0_B c (grid0.coords t) _ _ _ _ _ _ _ _ (iblk0 V c 0 t) (iblk0 V c 1 t) (fun h => h0 ((hcond0_0 t).mp h)) _ (fun h => h1 ((hcond0_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B c _ _ _ _ _ _ _ _ _ _ _ _ _ _)
        iexact HR
      iexact Hg
    isplitl [Ho]; · iexact Ho
    isplitl [H0]; · iexact H0
    isplitl [H1]; · iexact H1
    iexists _; iexact H2

theorem body_obligation0 (c : Dev nD) : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := .rfl

theorem hout0 : (dat0 V c).Φ (Fin.last cfg0.N) ⊢ Pipeline.ΦA spec0 c := by
  rw [PhiA0_eq, show (dat0 V c).Φ (Fin.last cfg0.N) = PhiS0 V c (Fin.last cfg0.N).val (Nat.le_of_lt_succ (Fin.last cfg0.N).isLt) from rfl]
  exact PhiS0_some V c _ _

end Cert.Kernel.Frame

end
-- ==== Proof.K.Runs1.lean ====
/- A product L · Y over a 10 × 10 grid of points (i, k) in blocks of 1024 × 1024: the blocks its operands show at a point, and its conditions k = 0 and k = 9 decided over the grid. -/
import proofs.«416138_j67946382623286_1_alg».proof.Proof.Gen.Kernel.Launch
import proofs.«416138_j67946382623286_1_alg».proof.Proof.Gen.Kernel.Skeleton
import proofs.«416138_j67946382623286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin grid1.N, cond1_0 (grid1.coords t) ↔ t.val % 10 = 0 := by decide +kernel

abbrev cond1_1 (i : grid1.Coords) : Prop := k1_cond2 i = 1#1
theorem hcond1_1 : ∀ t : Fin grid1.N, cond1_1 (grid1.coords t) ↔ t.val % 10 = 9 := by decide +kernel

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬t.val % 10 = 9 → cfg1.idle 2 (grid1.coords t) = true := by decide +kernel
theorem noFlush1_2 : ∀ t : Fin cfg1.N, ¬t.val % 10 = 9 → (cfg1.win 2).flush t = false := by decide +kernel
theorem liveAt1_2 : ∀ t : Fin cfg1.N, t.val % 10 = 9 → cfg1.idle 2 (grid1.coords t) = false := by decide +kernel

abbrev VO1_2 : View sig .tc .vmem S1024x1024 .f32 := (Memref.whole cc1_stg2_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)

abbrev scM1 : Memref sig .tc .vmem S1024x1024 .f32 := Memref.whole cc1_scratch0
abbrev VS1 : View sig .tc .vmem S1024x1024 .f32 := scM1.view

abbrev RestBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ RestBut1 c) ∗ (∃ r, prngReg c r)) := by
  unfold Pipeline.ΦA
  rw [Pipeline.scopedRest_split_of_list spec1 c [cc1_scratch0] (by decide) (by decide)]
  simp only [scM1, owns_whole, bigSepL_singleton]
  try rfl

end Cert.Kernel.Frame

end
-- ==== Proof.K.Run1.lean ====
/- The product body run in its three cases: k = 0 clears the accumulator and adds the block product, 0 < k < 9 adds, k = 9 adds and copies the accumulator into the result block. -/
import proofs.«416138_j67946382623286_1_alg».proof.Proof.K.Runs1

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole)
  (x0 : Vec F S1024x1024 .f32) (x1 : Vec F S1024x1024 .f32)

set_option maxHeartbeats 1000000 in
noncomputable def kernelRun1_A (hc0 : cond1_0 i) (hc1 : ¬cond1_1 i) :
    Σ' (L2 : List (View.Piece (Elt F) S1024x1024 .f32)), { LS : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

variable (hc0 : ¬cond1_0 i) (xs : Vec F S1024x1024 .f32)

set_option maxHeartbeats 1000000 in
noncomputable def kernelRun1_B (hc1 : ¬cond1_1 i) :
    Σ' (L2 : List (View.Piece (Elt F) S1024x1024 .f32)), { LS : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def kernelRun1_C (hc1 : cond1_1 i) :
    Σ' (L2 : List (View.Piece (Elt F) S1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.K.Reg1.lean ====
/- After point t the accumulator holds what the point's case makes of what the point before left; k = 0 starts afresh, and k = 9 also copies it into the result block. -/
import proofs.«416138_j67946382623286_1_alg».proof.Proof.K.Run1

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section pieces

variable (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole)
  (x0 : Vec F S1024x1024 .f32) (x1 : Vec F S1024x1024 .f32)

section
variable (hc0 : cond1_0 i) (hc1 : ¬cond1_1 i)

theorem scover1_A (y : S1024x1024.Idx) : ∃ pc ∈ (kernelRun1_A c i arg2 harg2 arg3 harg3 arg4 harg4 arg5 harg5 x0 x1 hc0 hc1).2.1, y ∈ pc.1.set :=
  View.cover_of_tiledL _ S1024x1024.size (by sl_kernel_rfl) y

def sout1_A : Vec F S1024x1024 .f32 :=
  VS1.read (Elt F) (VS1.writes (Elt F) VS1.junk (kernelRun1_A c i arg2 harg2 arg3 harg3 arg4 harg4 arg5 harg5 x0 x1 hc0 hc1).2.1)

end

variable (hc0 : ¬cond1_0 i) (xs : Vec F S1024x1024 .f32)

section
variable (hc1 : ¬cond1_1 i)

theorem scover1_B (y : S1024x1024.Idx) : ∃ pc ∈ (kernelRun1_B c i arg2 harg2 arg3 harg3 arg4 harg4 arg5 harg5 x0 x1 hc0 xs hc1).2.1, y ∈ pc.1.set :=
  View.cover_of_tiledL _ S1024x1024.size (by sl_kernel_rfl) y

def sout1_B : Vec F S1024x1024 .f32 :=
  VS1.read (Elt F) (VS1.writes (Elt F) VS1.junk (kernelRun1_B c i arg2 harg2 arg3 harg3 arg4 harg4 arg5 harg5 x0 x1 hc0 xs hc1).2.1)

end

variable (hc1 : cond1_1 i)

theorem cover1_C_2 (y : S1024x1024.Idx) : ∃ pc ∈ (kernelRun1_C c i arg2 harg2 arg3 harg3 arg4 harg4 arg5 harg5 x0 x1 hc0 xs hc1).1, y ∈ pc.1.set :=
  View.cover_of_tiledL _ S1024x1024.size (by sl_kernel_rfl) y

def out1_C_2 : Vec F S1024x1024 .f32 :=
  VO1_2.read (Elt F) (VO1_2.writes (Elt F) VO1_2.junk (kernelRun1_C c i arg2 harg2 arg3 harg3 arg4 harg4 arg5 harg5 x0 x1 hc0 xs hc1).1)

theorem scover1_C (y : S1024x1024.Idx) : ∃ pc ∈ (kernelRun1_C c i arg2 harg2 arg3 harg3 arg4 harg4 arg5 harg5 x0 x1 hc0 xs hc1).2.1, y ∈ pc.1.set :=
  View.cover_of_tiledL _ S1024x1024.size (by sl_kernel_rfl) y

def sout1_C : Vec F S1024x1024 .f32 :=
  VS1.read (Elt F) (VS1.writes (Elt F) VS1.junk (kernelRun1_C c i arg2 harg2 arg3 harg3 arg4 harg4 arg5 harg5 x0 x1 hc0 xs hc1).2.1)

end pieces

section point

variable (c : Dev nD) (t : Fin cfg1.N)

def accA1 (h0 : t.val % 10 = 0) (h1 : ¬t.val % 10 = 9) : Vec F S1024x1024 .f32 :=
  sout1_A c (grid1.coords t) (ms1_0 t) (hs1_0 t) (ms1_1 t) (hs1_1 t) (ms1_2 t) (hs1_2 t) scM1 (Memref.isWhole_whole _) (iblk1 V c 0 t) (iblk1 V c 1 t) ((hcond1_0 t).mpr h0) (fun h => h1 ((hcond1_1 t).mp h))

def accB1 (h0 : ¬t.val % 10 = 0) (h1 : ¬t.val % 10 = 9) (xs : Vec F S1024x1024 .f32) : Vec F S1024x1024 .f32 :=
  sout1_B c (grid1.coords t) (ms1_0 t) (hs1_0 t) (ms1_1 t) (hs1_1 t) (ms1_2 t) (hs1_2 t) scM1 (Memref.isWhole_whole _) (iblk1 V c 0 t) (iblk1 V c 1 t) (fun h => h0 ((hcond1_0 t).mp h)) xs (fun h => h1 ((hcond1_1 t).mp h))

def accC1 (h0 : ¬t.val % 10 = 0) (h1 : t.val % 10 = 9) (xs : Vec F S1024x1024 .f32) : Vec F S1024x1024 .f32 :=
  sout1_C c (grid1.coords t) (ms1_0 t) (hs1_0 t) (ms1_1 t) (hs1_1 t) (ms1_2 t) (hs1_2 t) scM1 (Memref.isWhole_whole _) (iblk1 V c 0 t) (iblk1 V c 1 t) (fun h => h0 ((hcond1_0 t).mp h)) xs ((hcond1_1 t).mpr h1)

def resC1 (h0 : ¬t.val % 10 = 0) (h1 : t.val % 10 = 9) (xs : Vec F S1024x1024 .f32) : Vec F S1024x1024 .f32 :=
  out1_C_2 c (grid1.coords t) (ms1_0 t) (hs1_0 t) (ms1_1 t) (hs1_1 t) (ms1_2 t) (hs1_2 t) scM1 (Memref.isWhole_whole _) (iblk1 V c 0 t) (iblk1 V c 1 t) (fun h => h0 ((hcond1_0 t).mp h)) xs ((hcond1_1 t).mpr h1)

end point

def accAt1 (c : Dev nD) : (n : ℕ) → n < cfg1.N → Vec F S1024x1024 .f32
  | 0, hn => accA1 V c ⟨0, hn⟩ (Nat.zero_mod _) (by show ¬(0 % 10 = 9); omega)
  | n + 1, hn =>
    if h0 : (n + 1) % 10 = 0 then accA1 V c ⟨n + 1, hn⟩ h0 (by show ¬((n + 1) % 10 = 9); omega)
    else if h1 : (n + 1) % 10 = 9 then accC1 V c ⟨n + 1, hn⟩ h0 h1 (accAt1 c n (Nat.lt_of_succ_lt hn))
    else accB1 V c ⟨n + 1, hn⟩ h0 h1 (accAt1 c n (Nat.lt_of_succ_lt hn))

variable (c : Dev nD) (t : Fin cfg1.N)

theorem accAt1_A (h0 : t.val % 10 = 0) (h1 : ¬t.val % 10 = 9) : accAt1 V c t.val t.isLt = accA1 V c t h0 h1 := by
  obtain ⟨n, hn⟩ := t
  cases n with
  | zero => exact rfl
  | succ n => exact (dif_pos h0).trans rfl

theorem accAt1_B (h0 : ¬t.val % 10 = 0) (h1 : ¬t.val % 10 = 9) : accAt1 V c t.val t.isLt = accB1 V c t h0 h1 (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt1_C (h0 : ¬t.val % 10 = 0) (h1 : t.val % 10 = 9) : accAt1 V c t.val t.isLt = accC1 V c t h0 h1 (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def resAt1 : Vec F S1024x1024 .f32 :=
  if h1 : t.val % 10 = 9 then resC1 V c t (by omega) h1 (accAt1 V c (t.val - 1) (Nat.lt_of_le_of_lt (Nat.sub_le _ _) t.isLt)) else accAt1 V c t.val t.isLt

def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ RestBut1 c) ∗ (∃ r, prngReg c r))

theorem PhiS1_pos (n : ℕ) (h : n ≤ cfg1.N) (hz : n ≠ 0) :
    PhiS1 V c n h = iprop(iprop(owns (c : Thread nD τ) scM1 fullShare (accAt1 V c (n - 1) (by omega)) ∗ RestBut1 c) ∗ (∃ r, prngReg c r)) := by
  cases n with
  | zero => exact absurd rfl hz
  | succ n => rfl

theorem PhiS1_some (n : ℕ) (h : n ≤ cfg1.N) :
    PhiS1 V c n h ⊢ iprop(iprop((∃ d, owns (c : Thread nD τ) scM1 fullShare d) ∗ RestBut1 c) ∗ (∃ r, prngReg c r)) := by
  cases n with
  | zero => rw [show PhiS1 V c 0 h = Pipeline.ΦA spec1 c from rfl, PhiA1_eq]
  | succ n =>
    rw [show PhiS1 V c (n + 1) h = iprop(iprop(owns (c : Thread nD τ) scM1 fullShare (accAt1 V c n h) ∗ RestBut1 c) ∗ (∃ r, prngReg c r)) from rfl]
    iintro ⟨⟨HS0, HR⟩, Hg⟩
    isplitl [HS0 HR]
    · isplitl [HS0]
      · iexists _; iexact HS0
      iexact HR
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => resAt1 V c t
  Φ t := PhiS1 V c t.val (Nat.le_of_lt_succ t.isLt)
  q _ := fullShare
  owed _ := 0

theorem A_eq1 (w : Fin cfg1.W) : (dat1 V c).A w = V c (Pipeline.arrRef spec1 w) := by
  dsimp only [dat1]

theorem after1_0 : (dat1 V c).after 0 t = iblk1 V c 0 t := by dsimp only [dat1]
theorem after1_1 : (dat1 V c).after 1 t = iblk1 V c 1 t := by dsimp only [dat1]
theorem after1_2 : (dat1 V c).after 2 t = resAt1 V c t := by dsimp only [dat1]

theorem before1_0 (d) : (dat1 V c).before 0 t d = iblk1 V c 0 t :=
  (dat1 V c).before_in_eq_fetched 0 rfl (fun _ => rfl) (fun _ _ _ => rfl) (fun _ => rfl) t d
theorem before1_1 (d) : (dat1 V c).before 1 t d = iblk1 V c 1 t :=
  (dat1 V c).before_in_eq_fetched 1 rfl (fun _ => rfl) (fun _ _ _ => rfl) (fun _ => rfl) t d

def bodyPre1 : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = iprop(iprop(owns (c : Thread nD τ) scM1 fullShare (accAt1 V c t.val t.isLt) ∗ RestBut1 c) ∗ (∃ r, prngReg c r)) from rfl]
  rw [show (dat1 V c).Φ t.castSucc = PhiS1 V c t.val (Nat.le_of_lt t.isLt) from by dsimp only [dat1]; simp only [Fin.coe_castSucc]]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 10 = 9
  · have h0 : ¬t.val % 10 = 0 := by omega
    rw [show (dat1 V c).leavesExact 2 t = owns (c : Thread nD τ) (ms1_2 t) fullShare ((dat1 V c).after 2 t) from by
      unfold Dat.leavesExact; rw [liveAt1_2 t h1], after1_2, show resAt1 V c t = resC1 V c t h0 h1 (accAt1 V c (t.val - 1) (Nat.lt_of_le_of_lt (Nat.sub_le _ _) t.isLt)) from dif_pos h1]
    rw [accAt1_C V c t h0 h1, PhiS1_pos V c _ _ (fun hz => h0 (by rw [hz]))]
    unfold accC1 resC1 out1_C_2 sout1_C
    iintro ⟨⟨⟨HS0, HR⟩, Hg⟩, Ho, ⟨%d0, H0⟩, ⟨%d1, H1⟩, ⟨%d2, H2⟩⟩
    iapply ((kernelRun1_C c (grid1.coords t) _ _ _ _ _ _ _ _ (iblk1 V c 0 t) (iblk1 V c 1 t) (fun h => h0 ((hcond1_0 t).mp h)) _ ((hcond1_1 t).mpr h1)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)
  rw [Dat.leavesExact_idle (dat1 V c) 2 t (idleAt1_2 t h1) (noFlush1_2 t h1)]
  by_cases h0 : t.val % 10 = 0
  · rw [accAt1_A V c t h0 h1]
    unfold accA1 sout1_A
    iintro ⟨HΦ, Ho, ⟨%d0, H0⟩, ⟨%d1, H1⟩, ⟨%d2, H2⟩⟩
    ihave HΦ' := PhiS1_some V c _ _ $$ HΦ
    icases HΦ' with ⟨⟨HS0, HR⟩, Hg⟩
    iapply ((kernelRun1_A c (grid1.coords t) _ _ _ _ _ _ _ _ (iblk1 V c 0 t) (iblk1 V c 1 t) ((hcond1_0 t).mpr h0) (fun h => h1 ((hcond1_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A c _ _ _ _ _ _ _ _ _ _ _ _ _)
        iexact HR
      iexact Hg
    isplitl [Ho]; · iexact Ho
    isplitl [H0]; · iexact H0
    isplitl [H1]; · iexact H1
    iexists _; iexact H2
  · rw [accAt1_B V c t h0 h1, PhiS1_pos V c _ _ (fun hz => h0 (by rw [hz]))]
    unfold accB1 sout1_B
    iintro ⟨⟨⟨HS0, HR⟩, Hg⟩, Ho, ⟨%d0, H0⟩, ⟨%d1, H1⟩, ⟨%d2, H2⟩⟩
    iapply ((kernelRun1_B c (grid1.coords t) _ _ _ _ _ _ _ _ (iblk1 V c 0 t) (iblk1 V c 1 t) (fun h => h0 ((hcond1_0 t).mp h)) _ (fun h => h1 ((hcond1_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_B c _ _ _ _ _ _ _ _ _ _ _ _ _ _)
        iexact HR
      iexact Hg
    isplitl [Ho]; · iexact Ho
    isplitl [H0]; · iexact H0
    isplitl [H1]; · iexact H1
    iexists _; iexact H2

theorem body_obligation1 (c : Dev nD) : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := .rfl

theorem hout1 : (dat1 V c).Φ (Fin.last cfg1.N) ⊢ Pipeline.ΦA spec1 c := by
  rw [PhiA1_eq, show (dat1 V c).Φ (Fin.last cfg1.N) = PhiS1 V c (Fin.last cfg1.N).val (Nat.le_of_lt_succ (Fin.last cfg1.N).isLt) from rfl]
  exact PhiS1_some V c _ _

end Cert.Kernel.Frame

end
-- ==== Proof.K.Runs2.lean ====
/- A product L · Y over a 10 × 10 grid of points (i, k) in blocks of 1024 × 128: the blocks its operands show at a point, and its conditions k = 0 and k = 9 decided over the grid. -/
import proofs.«416138_j67946382623286_1_alg».proof.Proof.Gen.Kernel.Launch
import proofs.«416138_j67946382623286_1_alg».proof.Proof.Gen.Kernel.Skeleton
import proofs.«416138_j67946382623286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin grid2.N, cond2_0 (grid2.coords t) ↔ t.val % 10 = 0 := by decide +kernel

abbrev cond2_1 (i : grid2.Coords) : Prop := k2_cond2 i = 1#1
theorem hcond2_1 : ∀ t : Fin grid2.N, cond2_1 (grid2.coords t) ↔ t.val % 10 = 9 := by decide +kernel

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬t.val % 10 = 9 → cfg2.idle 2 (grid2.coords t) = true := by decide +kernel
theorem noFlush2_2 : ∀ t : Fin cfg2.N, ¬t.val % 10 = 9 → (cfg2.win 2).flush t = false := by decide +kernel
theorem liveAt2_2 : ∀ t : Fin cfg2.N, t.val % 10 = 9 → cfg2.idle 2 (grid2.coords t) = false := by decide +kernel

abbrev VO2_2 : View sig .tc .vmem S1024x128 .f32 := (Memref.whole cc2_stg2_0 : Memref sig .tc .vmem S1024x128 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)

abbrev scM2 : Memref sig .tc .vmem S1024x128 .f32 := Memref.whole cc2_scratch0
abbrev VS2 : View sig .tc .vmem S1024x128 .f32 := scM2.view

abbrev RestBut2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2 fullShare d) ∗ RestBut2 c) ∗ (∃ r, prngReg c r)) := by
  unfold Pipeline.ΦA
  rw [Pipeline.scopedRest_split_of_list spec2 c [cc2_scratch0] (by decide) (by decide)]
  simp only [scM2, owns_whole, bigSepL_singleton]
  try rfl

end Cert.Kernel.Frame

end
-- ==== Proof.K.Run2.lean ====
/- The product body run in its three cases: k = 0 clears the accumulator and adds the block product, 0 < k < 9 adds, k = 9 adds and copies the accumulator into the result block. -/
import proofs.«416138_j67946382623286_1_alg».proof.Proof.K.Runs2

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
  (x0 : Vec F S1024x1024 .f32) (x1 : Vec F S1024x128 .f32)

set_option maxHeartbeats 1000000 in
noncomputable def kernelRun2_A (hc0 : cond2_0 i) (hc1 : ¬cond2_1 i) :
    Σ' (L2 : List (View.Piece (Elt F) S1024x128 .f32)), { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc2__matmul_kernel i arg2 harg2 arg3 harg3 arg4 harg4 arg5 harg5) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

variable (hc0 : ¬cond2_0 i) (xs : Vec F S1024x128 .f32)

set_option maxHeartbeats 1000000 in
noncomputable def kernelRun2_B (hc1 : ¬cond2_1 i) :
    Σ' (L2 : List (View.Piece (Elt F) S1024x128 .f32)), { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc2__matmul_kernel i arg2 harg2 arg3 harg3 arg4 harg4 arg5 harg5) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def kernelRun2_C (hc1 : cond2_1 i) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc2__matmul_kernel i arg2 harg2 arg3 harg3 arg4 harg4 arg5 harg5) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.K.Reg2.lean ====
/- After point t the accumulator holds what the point's case makes of what the point before left; k = 0 starts afresh, and k = 9 also copies it into the result block. -/
import proofs.«416138_j67946382623286_1_alg».proof.Proof.K.Run2

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section pieces

variable (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
  (x0 : Vec F S1024x1024 .f32) (x1 : Vec F S1024x128 .f32)

section
variable (hc0 : cond2_0 i) (hc1 : ¬cond2_1 i)

theorem scover2_A (y : S1024x128.Idx) : ∃ pc ∈ (kernelRun2_A c i arg2 harg2 arg3 harg3 arg4 harg4 arg5 harg5 x0 x1 hc0 hc1).2.1, y ∈ pc.1.set :=
  View.cover_of_tiledL _ S1024x128.size (by sl_kernel_rfl) y

def sout2_A : Vec F S1024x128 .f32 :=
  VS2.read (Elt F) (VS2.writes (Elt F) VS2.junk (kernelRun2_A c i arg2 harg2 arg3 harg3 arg4 harg4 arg5 harg5 x0 x1 hc0 hc1).2.1)

end

variable (hc0 : ¬cond2_0 i) (xs : Vec F S1024x128 .f32)

section
variable (hc1 : ¬cond2_1 i)

theorem scover2_B (y : S1024x128.Idx) : ∃ pc ∈ (kernelRun2_B c i arg2 harg2 arg3 harg3 arg4 harg4 arg5 harg5 x0 x1 hc0 xs hc1).2.1, y ∈ pc.1.set :=
  View.cover_of_tiledL _ S1024x128.size (by sl_kernel_rfl) y

def sout2_B : Vec F S1024x128 .f32 :=
  VS2.read (Elt F) (VS2.writes (Elt F) VS2.junk (kernelRun2_B c i arg2 harg2 arg3 harg3 arg4 harg4 arg5 harg5 x0 x1 hc0 xs hc1).2.1)

end

variable (hc1 : cond2_1 i)

theorem cover2_C_2 (y : S1024x128.Idx) : ∃ pc ∈ (kernelRun2_C c i arg2 harg2 arg3 harg3 arg4 harg4 arg5 harg5 x0 x1 hc0 xs hc1).1, y ∈ pc.1.set :=
  View.cover_of_tiledL _ S1024x128.size (by sl_kernel_rfl) y

def out2_C_2 : Vec F S1024x128 .f32 :=
  VO2_2.read (Elt F) (VO2_2.writes (Elt F) VO2_2.junk (kernelRun2_C c i arg2 harg2 arg3 harg3 arg4 harg4 arg5 harg5 x0 x1 hc0 xs hc1).1)

theorem scover2_C (y : S1024x128.Idx) : ∃ pc ∈ (kernelRun2_C c i arg2 harg2 arg3 harg3 arg4 harg4 arg5 harg5 x0 x1 hc0 xs hc1).2.1, y ∈ pc.1.set :=
  View.cover_of_tiledL _ S1024x128.size (by sl_kernel_rfl) y

def sout2_C : Vec F S1024x128 .f32 :=
  VS2.read (Elt F) (VS2.writes (Elt F) VS2.junk (kernelRun2_C c i arg2 harg2 arg3 harg3 arg4 harg4 arg5 harg5 x0 x1 hc0 xs hc1).2.1)

end pieces

section point

variable (c : Dev nD) (t : Fin cfg2.N)

def accA2 (h0 : t.val % 10 = 0) (h1 : ¬t.val % 10 = 9) : Vec F S1024x128 .f32 :=
  sout2_A c (grid2.coords t) (ms2_0 t) (hs2_0 t) (ms2_1 t) (hs2_1 t) (ms2_2 t) (hs2_2 t) scM2 (Memref.isWhole_whole _) (iblk2 V c 0 t) (iblk2 V c 1 t) ((hcond2_0 t).mpr h0) (fun h => h1 ((hcond2_1 t).mp h))

def accB2 (h0 : ¬t.val % 10 = 0) (h1 : ¬t.val % 10 = 9) (xs : Vec F S1024x128 .f32) : Vec F S1024x128 .f32 :=
  sout2_B c (grid2.coords t) (ms2_0 t) (hs2_0 t) (ms2_1 t) (hs2_1 t) (ms2_2 t) (hs2_2 t) scM2 (Memref.isWhole_whole _) (iblk2 V c 0 t) (iblk2 V c 1 t) (fun h => h0 ((hcond2_0 t).mp h)) xs (fun h => h1 ((hcond2_1 t).mp h))

def accC2 (h0 : ¬t.val % 10 = 0) (h1 : t.val % 10 = 9) (xs : Vec F S1024x128 .f32) : Vec F S1024x128 .f32 :=
  sout2_C c (grid2.coords t) (ms2_0 t) (hs2_0 t) (ms2_1 t) (hs2_1 t) (ms2_2 t) (hs2_2 t) scM2 (Memref.isWhole_whole _) (iblk2 V c 0 t) (iblk2 V c 1 t) (fun h => h0 ((hcond2_0 t).mp h)) xs ((hcond2_1 t).mpr h1)

def resC2 (h0 : ¬t.val % 10 = 0) (h1 : t.val % 10 = 9) (xs : Vec F S1024x128 .f32) : Vec F S1024x128 .f32 :=
  out2_C_2 c (grid2.coords t) (ms2_0 t) (hs2_0 t) (ms2_1 t) (hs2_1 t) (ms2_2 t) (hs2_2 t) scM2 (Memref.isWhole_whole _) (iblk2 V c 0 t) (iblk2 V c 1 t) (fun h => h0 ((hcond2_0 t).mp h)) xs ((hcond2_1 t).mpr h1)

end point

def accAt2 (c : Dev nD) : (n : ℕ) → n < cfg2.N → Vec F S1024x128 .f32
  | 0, hn => accA2 V c ⟨0, hn⟩ (Nat.zero_mod _) (by show ¬(0 % 10 = 9); omega)
  | n + 1, hn =>
    if h0 : (n + 1) % 10 = 0 then accA2 V c ⟨n + 1, hn⟩ h0 (by show ¬((n + 1) % 10 = 9); omega)
    else if h1 : (n + 1) % 10 = 9 then accC2 V c ⟨n + 1, hn⟩ h0 h1 (accAt2 c n (Nat.lt_of_succ_lt hn))
    else accB2 V c ⟨n + 1, hn⟩ h0 h1 (accAt2 c n (Nat.lt_of_succ_lt hn))

variable (c : Dev nD) (t : Fin cfg2.N)

theorem accAt2_A (h0 : t.val % 10 = 0) (h1 : ¬t.val % 10 = 9) : accAt2 V c t.val t.isLt = accA2 V c t h0 h1 := by
  obtain ⟨n, hn⟩ := t
  cases n with
  | zero => exact rfl
  | succ n => exact (dif_pos h0).trans rfl

theorem accAt2_B (h0 : ¬t.val % 10 = 0) (h1 : ¬t.val % 10 = 9) : accAt2 V c t.val t.isLt = accB2 V c t h0 h1 (accAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt2_C (h0 : ¬t.val % 10 = 0) (h1 : t.val % 10 = 9) : accAt2 V c t.val t.isLt = accC2 V c t h0 h1 (accAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def resAt2 : Vec F S1024x128 .f32 :=
  if h1 : t.val % 10 = 9 then resC2 V c t (by omega) h1 (accAt2 V c (t.val - 1) (Nat.lt_of_le_of_lt (Nat.sub_le _ _) t.isLt)) else accAt2 V c t.val t.isLt

def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ RestBut2 c) ∗ (∃ r, prngReg c r))

theorem PhiS2_pos (n : ℕ) (h : n ≤ cfg2.N) (hz : n ≠ 0) :
    PhiS2 V c n h = iprop(iprop(owns (c : Thread nD τ) scM2 fullShare (accAt2 V c (n - 1) (by omega)) ∗ RestBut2 c) ∗ (∃ r, prngReg c r)) := by
  cases n with
  | zero => exact absurd rfl hz
  | succ n => rfl

theorem PhiS2_some (n : ℕ) (h : n ≤ cfg2.N) :
    PhiS2 V c n h ⊢ iprop(iprop((∃ d, owns (c : Thread nD τ) scM2 fullShare d) ∗ RestBut2 c) ∗ (∃ r, prngReg c r)) := by
  cases n with
  | zero => rw [show PhiS2 V c 0 h = Pipeline.ΦA spec2 c from rfl, PhiA2_eq]
  | succ n =>
    rw [show PhiS2 V c (n + 1) h = iprop(iprop(owns (c : Thread nD τ) scM2 fullShare (accAt2 V c n h) ∗ RestBut2 c) ∗ (∃ r, prngReg c r)) from rfl]
    iintro ⟨⟨HS0, HR⟩, Hg⟩
    isplitl [HS0 HR]
    · isplitl [HS0]
      · iexists _; iexact HS0
      iexact HR
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => resAt2 V c t
  Φ t := PhiS2 V c t.val (Nat.le_of_lt_succ t.isLt)
  q _ := fullShare
  owed _ := 0

theorem A_eq2 (w : Fin cfg2.W) : (dat2 V c).A w = V c (Pipeline.arrRef spec2 w) := by
  dsimp only [dat2]

theorem after2_0 : (dat2 V c).after 0 t = iblk2 V c 0 t := by dsimp only [dat2]
theorem after2_1 : (dat2 V c).after 1 t = iblk2 V c 1 t := by dsimp only [dat2]
theorem after2_2 : (dat2 V c).after 2 t = resAt2 V c t := by dsimp only [dat2]

theorem before2_0 (d) : (dat2 V c).before 0 t d = iblk2 V c 0 t :=
  (dat2 V c).before_in_eq_fetched 0 rfl (fun _ => rfl) (fun _ _ _ => rfl) (fun _ => rfl) t d
theorem before2_1 (d) : (dat2 V c).before 1 t d = iblk2 V c 1 t :=
  (dat2 V c).before_in_eq_fetched 1 rfl (fun _ => rfl) (fun _ _ _ => rfl) (fun _ => rfl) t d

def bodyPre2 : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = iprop(iprop(owns (c : Thread nD τ) scM2 fullShare (accAt2 V c t.val t.isLt) ∗ RestBut2 c) ∗ (∃ r, prngReg c r)) from rfl]
  rw [show (dat2 V c).Φ t.castSucc = PhiS2 V c t.val (Nat.le_of_lt t.isLt) from by dsimp only [dat2]; simp only [Fin.coe_castSucc]]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h1 : t.val % 10 = 9
  · have h0 : ¬t.val % 10 = 0 := by omega
    rw [show (dat2 V c).leavesExact 2 t = owns (c : Thread nD τ) (ms2_2 t) fullShare ((dat2 V c).after 2 t) from by
      unfold Dat.leavesExact; rw [liveAt2_2 t h1], after2_2, show resAt2 V c t = resC2 V c t h0 h1 (accAt2 V c (t.val - 1) (Nat.lt_of_le_of_lt (Nat.sub_le _ _) t.isLt)) from dif_pos h1]
    rw [accAt2_C V c t h0 h1, PhiS2_pos V c _ _ (fun hz => h0 (by rw [hz]))]
    unfold accC2 resC2 out2_C_2 sout2_C
    iintro ⟨⟨⟨HS0, HR⟩, Hg⟩, Ho, ⟨%d0, H0⟩, ⟨%d1, H1⟩, ⟨%d2, H2⟩⟩
    iapply ((kernelRun2_C c (grid2.coords t) _ _ _ _ _ _ _ _ (iblk2 V c 0 t) (iblk2 V c 1 t) (fun h => h0 ((hcond2_0 t).mp h)) _ ((hcond2_1 t).mpr h1)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_C_2 c _ _ _ _ _ _ _ _ _ _ _ _ _ _)
  rw [Dat.leavesExact_idle (dat2 V c) 2 t (idleAt2_2 t h1) (noFlush2_2 t h1)]
  by_cases h0 : t.val % 10 = 0
  · rw [accAt2_A V c t h0 h1]
    unfold accA2 sout2_A
    iintro ⟨HΦ, Ho, ⟨%d0, H0⟩, ⟨%d1, H1⟩, ⟨%d2, H2⟩⟩
    ihave HΦ' := PhiS2_some V c _ _ $$ HΦ
    icases HΦ' with ⟨⟨HS0, HR⟩, Hg⟩
    iapply ((kernelRun2_A c (grid2.coords t) _ _ _ _ _ _ _ _ (iblk2 V c 0 t) (iblk2 V c 1 t) ((hcond2_0 t).mpr h0) (fun h => h1 ((hcond2_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_A c _ _ _ _ _ _ _ _ _ _ _ _ _)
        iexact HR
      iexact Hg
    isplitl [Ho]; · iexact Ho
    isplitl [H0]; · iexact H0
    isplitl [H1]; · iexact H1
    iexists _; iexact H2
  · rw [accAt2_B V c t h0 h1, PhiS2_pos V c _ _ (fun hz => h0 (by rw [hz]))]
    unfold accB2 sout2_B
    iintro ⟨⟨⟨HS0, HR⟩, Hg⟩, Ho, ⟨%d0, H0⟩, ⟨%d1, H1⟩, ⟨%d2, H2⟩⟩
    iapply ((kernelRun2_B c (grid2.coords t) _ _ _ _ _ _ _ _ (iblk2 V c 0 t) (iblk2 V c 1 t) (fun h => h0 ((hcond2_0 t).mp h)) _ (fun h => h1 ((hcond2_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_B c _ _ _ _ _ _ _ _ _ _ _ _ _ _)
        iexact HR
      iexact Hg
    isplitl [Ho]; · iexact Ho
    isplitl [H0]; · iexact H0
    isplitl [H1]; · iexact H1
    iexists _; iexact H2

theorem body_obligation2 (c : Dev nD) : BodyObligation (dat2 (F := F) V c) (defs₀ (F := F)) Variants.none () Set.univ := fun t => by
  rw [bigSep_W2, bigSep_W2]
  exact sound_body2 V c t

theorem hin2 : Pipeline.ΦA spec2 c ⊢ (dat2 V c).Φ 0 := .rfl

theorem hout2 : (dat2 V c).Φ (Fin.last cfg2.N) ⊢ Pipeline.ΦA spec2 c := by
  rw [PhiA2_eq, show (dat2 V c).Φ (Fin.last cfg2.N) = PhiS2 V c (Fin.last cfg2.N).val (Nat.le_of_lt_succ (Fin.last cfg2.N).isLt) from rfl]
  exact PhiS2_some V c _ _

end Cert.Kernel.Frame

end
-- ==== Proof.K.Runs3.lean ====
/- A product L · Y over a 10 × 10 grid of points (i, k) in blocks of 1024 × 128: the blocks its operands show at a point, and its conditions k = 0 and k = 9 decided over the grid. -/
import proofs.«416138_j67946382623286_1_alg».proof.Proof.Gen.Kernel.Launch
import proofs.«416138_j67946382623286_1_alg».proof.Proof.Gen.Kernel.Skeleton
import proofs.«416138_j67946382623286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1
theorem hcond3_0 : ∀ t : Fin grid3.N, cond3_0 (grid3.coords t) ↔ t.val % 10 = 0 := by decide +kernel

abbrev cond3_1 (i : grid3.Coords) : Prop := k3_cond2 i = 1#1
theorem hcond3_1 : ∀ t : Fin grid3.N, cond3_1 (grid3.coords t) ↔ t.val % 10 = 9 := by decide +kernel

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬t.val % 10 = 9 → cfg3.idle 2 (grid3.coords t) = true := by decide +kernel
theorem noFlush3_2 : ∀ t : Fin cfg3.N, ¬t.val % 10 = 9 → (cfg3.win 2).flush t = false := by decide +kernel
theorem liveAt3_2 : ∀ t : Fin cfg3.N, t.val % 10 = 9 → cfg3.idle 2 (grid3.coords t) = false := by decide +kernel

abbrev VO3_2 : View sig .tc .vmem S1024x128 .f32 := (Memref.whole cc3_stg2_0 : Memref sig .tc .vmem S1024x128 .f32).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)

abbrev scM3 : Memref sig .tc .vmem S1024x128 .f32 := Memref.whole cc3_scratch0
abbrev VS3 : View sig .tc .vmem S1024x128 .f32 := scM3.view

abbrev RestBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop((∃ d, owns (c : Thread nD τ) scM3 fullShare d) ∗ RestBut3 c) ∗ (∃ r, prngReg c r)) := by
  unfold Pipeline.ΦA
  rw [Pipeline.scopedRest_split_of_list spec3 c [cc3_scratch0] (by decide) (by decide)]
  simp only [scM3, owns_whole, bigSepL_singleton]
  try rfl

end Cert.Kernel.Frame

end
-- ==== Proof.K.Run3.lean ====
/- The product body run in its three cases: k = 0 clears the accumulator and adds the block product, 0 < k < 9 adds, k = 9 adds and copies the accumulator into the result block. -/
import proofs.«416138_j67946382623286_1_alg».proof.Proof.K.Runs3

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
  (x0 : Vec F S1024x1024 .f32) (x1 : Vec F S1024x128 .f32)

set_option maxHeartbeats 1000000 in
noncomputable def kernelRun3_A (hc0 : cond3_0 i) (hc1 : ¬cond3_1 i) :
    Σ' (L2 : List (View.Piece (Elt F) S1024x128 .f32)), { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc3__matmul_kernel i arg2 harg2 arg3 harg3 arg4 harg4 arg5 harg5) K } := by
  refine ⟨[], ?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

variable (hc0 : ¬cond3_0 i) (xs : Vec F S1024x128 .f32)

set_option maxHeartbeats 1000000 in
noncomputable def kernelRun3_B (hc1 : ¬cond3_1 i) :
    Σ' (L2 : List (View.Piece (Elt F) S1024x128 .f32)), { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc3__matmul_kernel i arg2 harg2 arg3 harg3 arg4 harg4 arg5 harg5) K } := by
  refine ⟨[], ?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def kernelRun3_C (hc1 : cond3_1 i) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc3__matmul_kernel i arg2 harg2 arg3 harg3 arg4 harg4 arg5 harg5) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.K.Reg3.lean ====
/- After point t the accumulator holds what the point's case makes of what the point before left; k = 0 starts afresh, and k = 9 also copies it into the result block. -/
import proofs.«416138_j67946382623286_1_alg».proof.Proof.K.Run3

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section pieces

variable (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
  (x0 : Vec F S1024x1024 .f32) (x1 : Vec F S1024x128 .f32)

section
variable (hc0 : cond3_0 i) (hc1 : ¬cond3_1 i)

theorem scover3_A (y : S1024x128.Idx) : ∃ pc ∈ (kernelRun3_A c i arg2 harg2 arg3 harg3 arg4 harg4 arg5 harg5 x0 x1 hc0 hc1).2.1, y ∈ pc.1.set :=
  View.cover_of_tiledL _ S1024x128.size (by sl_kernel_rfl) y

def sout3_A : Vec F S1024x128 .f32 :=
  VS3.read (Elt F) (VS3.writes (Elt F) VS3.junk (kernelRun3_A c i arg2 harg2 arg3 harg3 arg4 harg4 arg5 harg5 x0 x1 hc0 hc1).2.1)

end

variable (hc0 : ¬cond3_0 i) (xs : Vec F S1024x128 .f32)

section
variable (hc1 : ¬cond3_1 i)

theorem scover3_B (y : S1024x128.Idx) : ∃ pc ∈ (kernelRun3_B c i arg2 harg2 arg3 harg3 arg4 harg4 arg5 harg5 x0 x1 hc0 xs hc1).2.1, y ∈ pc.1.set :=
  View.cover_of_tiledL _ S1024x128.size (by sl_kernel_rfl) y

def sout3_B : Vec F S1024x128 .f32 :=
  VS3.read (Elt F) (VS3.writes (Elt F) VS3.junk (kernelRun3_B c i arg2 harg2 arg3 harg3 arg4 harg4 arg5 harg5 x0 x1 hc0 xs hc1).2.1)

end

variable (hc1 : cond3_1 i)

theorem cover3_C_2 (y : S1024x128.Idx) : ∃ pc ∈ (kernelRun3_C c i arg2 harg2 arg3 harg3 arg4 harg4 arg5 harg5 x0 x1 hc0 xs hc1).1, y ∈ pc.1.set :=
  View.cover_of_tiledL _ S1024x128.size (by sl_kernel_rfl) y

def out3_C_2 : Vec F S1024x128 .f32 :=
  VO3_2.read (Elt F) (VO3_2.writes (Elt F) VO3_2.junk (kernelRun3_C c i arg2 harg2 arg3 harg3 arg4 harg4 arg5 harg5 x0 x1 hc0 xs hc1).1)

theorem scover3_C (y : S1024x128.Idx) : ∃ pc ∈ (kernelRun3_C c i arg2 harg2 arg3 harg3 arg4 harg4 arg5 harg5 x0 x1 hc0 xs hc1).2.1, y ∈ pc.1.set :=
  View.cover_of_tiledL _ S1024x128.size (by sl_kernel_rfl) y

def sout3_C : Vec F S1024x128 .f32 :=
  VS3.read (Elt F) (VS3.writes (Elt F) VS3.junk (kernelRun3_C c i arg2 harg2 arg3 harg3 arg4 harg4 arg5 harg5 x0 x1 hc0 xs hc1).2.1)

end pieces

section point

variable (c : Dev nD) (t : Fin cfg3.N)

def accA3 (h0 : t.val % 10 = 0) (h1 : ¬t.val % 10 = 9) : Vec F S1024x128 .f32 :=
  sout3_A c (grid3.coords t) (ms3_0 t) (hs3_0 t) (ms3_1 t) (hs3_1 t) (ms3_2 t) (hs3_2 t) scM3 (Memref.isWhole_whole _) (iblk3 V c 0 t) (iblk3 V c 1 t) ((hcond3_0 t).mpr h0) (fun h => h1 ((hcond3_1 t).mp h))

def accB3 (h0 : ¬t.val % 10 = 0) (h1 : ¬t.val % 10 = 9) (xs : Vec F S1024x128 .f32) : Vec F S1024x128 .f32 :=
  sout3_B c (grid3.coords t) (ms3_0 t) (hs3_0 t) (ms3_1 t) (hs3_1 t) (ms3_2 t) (hs3_2 t) scM3 (Memref.isWhole_whole _) (iblk3 V c 0 t) (iblk3 V c 1 t) (fun h => h0 ((hcond3_0 t).mp h)) xs (fun h => h1 ((hcond3_1 t).mp h))

def accC3 (h0 : ¬t.val % 10 = 0) (h1 : t.val % 10 = 9) (xs : Vec F S1024x128 .f32) : Vec F S1024x128 .f32 :=
  sout3_C c (grid3.coords t) (ms3_0 t) (hs3_0 t) (ms3_1 t) (hs3_1 t) (ms3_2 t) (hs3_2 t) scM3 (Memref.isWhole_whole _) (iblk3 V c 0 t) (iblk3 V c 1 t) (fun h => h0 ((hcond3_0 t).mp h)) xs ((hcond3_1 t).mpr h1)

def resC3 (h0 : ¬t.val % 10 = 0) (h1 : t.val % 10 = 9) (xs : Vec F S1024x128 .f32) : Vec F S1024x128 .f32 :=
  out3_C_2 c (grid3.coords t) (ms3_0 t) (hs3_0 t) (ms3_1 t) (hs3_1 t) (ms3_2 t) (hs3_2 t) scM3 (Memref.isWhole_whole _) (iblk3 V c 0 t) (iblk3 V c 1 t) (fun h => h0 ((hcond3_0 t).mp h)) xs ((hcond3_1 t).mpr h1)

end point

def accAt3 (c : Dev nD) : (n : ℕ) → n < cfg3.N → Vec F S1024x128 .f32
  | 0, hn => accA3 V c ⟨0, hn⟩ (Nat.zero_mod _) (by show ¬(0 % 10 = 9); omega)
  | n + 1, hn =>
    if h0 : (n + 1) % 10 = 0 then accA3 V c ⟨n + 1, hn⟩ h0 (by show ¬((n + 1) % 10 = 9); omega)
    else if h1 : (n + 1) % 10 = 9 then accC3 V c ⟨n + 1, hn⟩ h0 h1 (accAt3 c n (Nat.lt_of_succ_lt hn))
    else accB3 V c ⟨n + 1, hn⟩ h0 h1 (accAt3 c n (Nat.lt_of_succ_lt hn))

variable (c : Dev nD) (t : Fin cfg3.N)

theorem accAt3_A (h0 : t.val % 10 = 0) (h1 : ¬t.val % 10 = 9) : accAt3 V c t.val t.isLt = accA3 V c t h0 h1 := by
  obtain ⟨n, hn⟩ := t
  cases n with
  | zero => exact rfl
  | succ n => exact (dif_pos h0).trans rfl

theorem accAt3_B (h0 : ¬t.val % 10 = 0) (h1 : ¬t.val % 10 = 9) : accAt3 V c t.val t.isLt = accB3 V c t h0 h1 (accAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt3_C (h0 : ¬t.val % 10 = 0) (h1 : t.val % 10 = 9) : accAt3 V c t.val t.isLt = accC3 V c t h0 h1 (accAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def resAt3 : Vec F S1024x128 .f32 :=
  if h1 : t.val % 10 = 9 then resC3 V c t (by omega) h1 (accAt3 V c (t.val - 1) (Nat.lt_of_le_of_lt (Nat.sub_le _ _) t.isLt)) else accAt3 V c t.val t.isLt

def PhiS3 (c : Dev nD) : (n : ℕ) → n ≤ cfg3.N → sProp 𝕄
  | 0, _ => Pipeline.ΦA spec3 c
  | n + 1, hn => iprop(iprop(owns (c : Thread nD τ) scM3 fullShare (accAt3 V c n hn) ∗ RestBut3 c) ∗ (∃ r, prngReg c r))

theorem PhiS3_pos (n : ℕ) (h : n ≤ cfg3.N) (hz : n ≠ 0) :
    PhiS3 V c n h = iprop(iprop(owns (c : Thread nD τ) scM3 fullShare (accAt3 V c (n - 1) (by omega)) ∗ RestBut3 c) ∗ (∃ r, prngReg c r)) := by
  cases n with
  | zero => exact absurd rfl hz
  | succ n => rfl

theorem PhiS3_some (n : ℕ) (h : n ≤ cfg3.N) :
    PhiS3 V c n h ⊢ iprop(iprop((∃ d, owns (c : Thread nD τ) scM3 fullShare d) ∗ RestBut3 c) ∗ (∃ r, prngReg c r)) := by
  cases n with
  | zero => rw [show PhiS3 V c 0 h = Pipeline.ΦA spec3 c from rfl, PhiA3_eq]
  | succ n =>
    rw [show PhiS3 V c (n + 1) h = iprop(iprop(owns (c : Thread nD τ) scM3 fullShare (accAt3 V c n h) ∗ RestBut3 c) ∗ (∃ r, prngReg c r)) from rfl]
    iintro ⟨⟨HS0, HR⟩, Hg⟩
    isplitl [HS0 HR]
    · isplitl [HS0]
      · iexists _; iexact HS0
      iexact HR
    iexact Hg

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => resAt3 V c t
  Φ t := PhiS3 V c t.val (Nat.le_of_lt_succ t.isLt)
  q _ := fullShare
  owed _ := 0

theorem A_eq3 (w : Fin cfg3.W) : (dat3 V c).A w = V c (Pipeline.arrRef spec3 w) := by
  dsimp only [dat3]

theorem after3_0 : (dat3 V c).after 0 t = iblk3 V c 0 t := by dsimp only [dat3]
theorem after3_1 : (dat3 V c).after 1 t = iblk3 V c 1 t := by dsimp only [dat3]
theorem after3_2 : (dat3 V c).after 2 t = resAt3 V c t := by dsimp only [dat3]

theorem before3_0 (d) : (dat3 V c).before 0 t d = iblk3 V c 0 t :=
  (dat3 V c).before_in_eq_fetched 0 rfl (fun _ => rfl) (fun _ _ _ => rfl) (fun _ => rfl) t d
theorem before3_1 (d) : (dat3 V c).before 1 t d = iblk3 V c 1 t :=
  (dat3 V c).before_in_eq_fetched 1 rfl (fun _ => rfl) (fun _ _ _ => rfl) (fun _ => rfl) t d

def bodyPre3 : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
theorem sound_body3 :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = iprop(iprop(owns (c : Thread nD τ) scM3 fullShare (accAt3 V c t.val t.isLt) ∗ RestBut3 c) ∗ (∃ r, prngReg c r)) from rfl]
  rw [show (dat3 V c).Φ t.castSucc = PhiS3 V c t.val (Nat.le_of_lt t.isLt) from by dsimp only [dat3]; simp only [Fin.coe_castSucc]]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h1 : t.val % 10 = 9
  · have h0 : ¬t.val % 10 = 0 := by omega
    rw [show (dat3 V c).leavesExact 2 t = owns (c : Thread nD τ) (ms3_2 t) fullShare ((dat3 V c).after 2 t) from by
      unfold Dat.leavesExact; rw [liveAt3_2 t h1], after3_2, show resAt3 V c t = resC3 V c t h0 h1 (accAt3 V c (t.val - 1) (Nat.lt_of_le_of_lt (Nat.sub_le _ _) t.isLt)) from dif_pos h1]
    rw [accAt3_C V c t h0 h1, PhiS3_pos V c _ _ (fun hz => h0 (by rw [hz]))]
    unfold accC3 resC3 out3_C_2 sout3_C
    iintro ⟨⟨⟨HS0, HR⟩, Hg⟩, Ho, ⟨%d0, H0⟩, ⟨%d1, H1⟩, ⟨%d2, H2⟩⟩
    iapply ((kernelRun3_C c (grid3.coords t) _ _ _ _ _ _ _ _ (iblk3 V c 0 t) (iblk3 V c 1 t) (fun h => h0 ((hcond3_0 t).mp h)) _ ((hcond3_1 t).mpr h1)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover3_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover3_C_2 c _ _ _ _ _ _ _ _ _ _ _ _ _ _)
  rw [Dat.leavesExact_idle (dat3 V c) 2 t (idleAt3_2 t h1) (noFlush3_2 t h1)]
  by_cases h0 : t.val % 10 = 0
  · rw [accAt3_A V c t h0 h1]
    unfold accA3 sout3_A
    iintro ⟨HΦ, Ho, ⟨%d0, H0⟩, ⟨%d1, H1⟩, ⟨%d2, H2⟩⟩
    ihave HΦ' := PhiS3_some V c _ _ $$ HΦ
    icases HΦ' with ⟨⟨HS0, HR⟩, Hg⟩
    iapply ((kernelRun3_A c (grid3.coords t) _ _ _ _ _ _ _ _ (iblk3 V c 0 t) (iblk3 V c 1 t) ((hcond3_0 t).mpr h0) (fun h => h1 ((hcond3_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover3_A c _ _ _ _ _ _ _ _ _ _ _ _ _)
        iexact HR
      iexact Hg
    isplitl [Ho]; · iexact Ho
    isplitl [H0]; · iexact H0
    isplitl [H1]; · iexact H1
    iexists _; iexact H2
  · rw [accAt3_B V c t h0 h1, PhiS3_pos V c _ _ (fun hz => h0 (by rw [hz]))]
    unfold accB3 sout3_B
    iintro ⟨⟨⟨HS0, HR⟩, Hg⟩, Ho, ⟨%d0, H0⟩, ⟨%d1, H1⟩, ⟨%d2, H2⟩⟩
    iapply ((kernelRun3_B c (grid3.coords t) _ _ _ _ _ _ _ _ (iblk3 V c 0 t) (iblk3 V c 1 t) (fun h => h0 ((hcond3_0 t).mp h)) _ (fun h => h1 ((hcond3_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover3_B c _ _ _ _ _ _ _ _ _ _ _ _ _ _)
        iexact HR
      iexact Hg
    isplitl [Ho]; · iexact Ho
    isplitl [H0]; · iexact H0
    isplitl [H1]; · iexact H1
    iexists _; iexact H2

theorem body_obligation3 (c : Dev nD) : BodyObligation (dat3 (F := F) V c) (defs₀ (F := F)) Variants.none () Set.univ := fun t => by
  rw [bigSep_W3, bigSep_W3]
  exact sound_body3 V c t

theorem hin3 : Pipeline.ΦA spec3 c ⊢ (dat3 V c).Φ 0 := .rfl

theorem hout3 : (dat3 V c).Φ (Fin.last cfg3.N) ⊢ Pipeline.ΦA spec3 c := by
  rw [PhiA3_eq, show (dat3 V c).Φ (Fin.last cfg3.N) = PhiS3 V c (Fin.last cfg3.N).val (Nat.le_of_lt_succ (Fin.last cfg3.N).isLt) from rfl]
  exact PhiS3_some V c _ _

end Cert.Kernel.Frame

end
-- ==== Proof.K.Whole.lean ====
/- The four products among the host operations: between two items every array holds a known value, a product's result being what its region leaves, and the run ends at the last of these values. -/
import proofs.«416138_j67946382623286_1_alg».proof.Proof.K.Reg0
import proofs.«416138_j67946382623286_1_alg».proof.Proof.K.Reg1
import proofs.«416138_j67946382623286_1_alg».proof.Proof.K.Reg2
import proofs.«416138_j67946382623286_1_alg».proof.Proof.K.Reg3
import proofs.«416138_j67946382623286_1_alg».proof.Proof.K.RunCond

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

abbrev W3 (c : Dev nD) : Valuation τ sig (Elt F) := V3 m c
abbrev Wr3 := rd (W3 m)

def W4 (c : Dev nD) : Valuation τ sig (Elt F) := Function.update (W3 m c) main_v18 ((dat0 (Wr3 m) c).arrAt 2 cfg0.N)
abbrev Wr4 := rd (W4 m)
def W5 (c : Dev nD) : Valuation τ sig (Elt F) := Function.update (W4 m c) main_v19 ((dat1 (Wr4 m) c).arrAt 2 cfg1.N)
abbrev Wr5 := rd (W5 m)
abbrev W9 (c : Dev nD) : Valuation τ sig (Elt F) :=
  StableHlo.after hostOps2_3 (StableHlo.after hostOps2_2 (StableHlo.after hostOps2_1 (StableHlo.after hostOps2 (W5 m c))))
abbrev Wr9 := rd (W9 m)
def W10 (c : Dev nD) : Valuation τ sig (Elt F) := Function.update (W9 m c) main_v38 ((dat2 (Wr9 m) c).arrAt 2 cfg2.N)
abbrev Wr10 := rd (W10 m)
def W11 (c : Dev nD) : Valuation τ sig (Elt F) := Function.update (W10 m c) main_v39 ((dat3 (Wr10 m) c).arrAt 2 cfg3.N)
abbrev Wr11 := rd (W11 m)

def outsF : Outs (F := F) := fun _ r c =>
  if h : r = main_v18 then h ▸ (W4 m c main_v18)
  else if h : r = main_v19 then h ▸ (W5 m c main_v19)
  else if h : r = main_v38 then h ▸ (W10 m c main_v38)
  else if h : r = main_v39 then h ▸ (W11 m c main_v39)
  else m ((c : Thread nD τ).loc r)

theorem outsF_v18 (J : ℕ) (c : Dev nD) : outsF m J main_v18 c = (dat0 (Wr3 m) c).arrAt 2 cfg0.N := by
  unfold outsF; rw [dif_pos rfl]; exact Function.update_self _ _ _
theorem outsF_v19 (J : ℕ) (c : Dev nD) : outsF m J main_v19 c = (dat1 (Wr4 m) c).arrAt 2 cfg1.N := by
  unfold outsF; rw [dif_neg (by decide), dif_pos rfl]; exact Function.update_self _ _ _
theorem outsF_v38 (J : ℕ) (c : Dev nD) : outsF m J main_v38 c = (dat2 (Wr9 m) c).arrAt 2 cfg2.N := by
  unfold outsF; rw [dif_neg (by decide), dif_neg (by decide), dif_pos rfl]; exact Function.update_self _ _ _
theorem outsF_v39 (J : ℕ) (c : Dev nD) : outsF m J main_v39 c = (dat3 (Wr10 m) c).arrAt 2 cfg3.N := by
  unfold outsF; rw [dif_neg (by decide), dif_neg (by decide), dif_neg (by decide), dif_pos rfl]; exact Function.update_self _ _ _

theorem V4_eq (c : Dev nD) : V4 m (outsF m) c = W4 m c := by
  show Function.update (V3 m c) main_v18 (outsF m 4 main_v18 c) = _; rw [outsF_v18]; rfl
theorem V5_eq (c : Dev nD) : V5 m (outsF m) c = W5 m c := by
  show Function.update (V4 m (outsF m) c) main_v19 (outsF m 5 main_v19 c) = _; rw [outsF_v19, V4_eq]; rfl
theorem V9_eq (c : Dev nD) : V9 m (outsF m) c = W9 m c := by
  show StableHlo.after hostOps2_3 (StableHlo.after hostOps2_2 (StableHlo.after hostOps2_1 (StableHlo.after hostOps2 (V5 m (outsF m) c)))) = _
  rw [V5_eq]
theorem V10_eq (c : Dev nD) : V10 m (outsF m) c = W10 m c := by
  show Function.update (V9 m (outsF m) c) main_v38 (outsF m 10 main_v38 c) = _; rw [outsF_v38, V9_eq]; rfl
theorem V11_eq (c : Dev nD) : V11 m (outsF m) c = W11 m c := by
  show Function.update (V10 m (outsF m) c) main_v39 (outsF m 11 main_v39 c) = _; rw [outsF_v39, V10_eq]; rfl

def pdats : (p : Fin 4) → (c : Dev nD) → Dat τ (Elt F) Unit ℕ (UR sig nD τ) ℕ (cfgs p) c
  | ⟨0, _⟩ => fun c => dat0 (Wr3 m) c
  | ⟨1, _⟩ => fun c => dat1 (Wr4 m) c
  | ⟨2, _⟩ => fun c => dat2 (Wr9 m) c
  | ⟨3, _⟩ => fun c => dat3 (Wr10 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0 (c : Dev nD) (w : Fin cfg0.W) : (dat0 (Wr3 m) c).arrAt w cfg0.N = Wr4 m c (Pipeline.arrRef spec0 w) := by
  match w with
  | ⟨0, _⟩ => exact (((dat0 (Wr3 m) c).arrAt_in 0 rfl _).trans (A_eq0 (Wr3 m) c 0)).trans (Function.update_of_ne (StableHlo.devRef_ne_of_ne (by decide)) _ _).symm
  | ⟨1, _⟩ => exact (((dat0 (Wr3 m) c).arrAt_in 1 rfl _).trans (A_eq0 (Wr3 m) c 1)).trans (Function.update_of_ne (StableHlo.devRef_ne_of_ne (by decide)) _ _).symm
  | ⟨2, _⟩ =>
    show _ = W4 m c main_v18
    unfold W4
    rw [Function.update_self]
    rfl

theorem hrest0 (c : Dev nD) : ∀ b, b ∉ Finset.univ.image (Pipeline.arrRef spec0) → Wr4 m c b = Wr3 m c b :=
  fun b hb => Function.update_of_ne (StableHlo.devRef_ne_of_ne fun e => hb (Finset.mem_image.mpr ⟨2, Finset.mem_univ _, e.symm⟩)) _ _

theorem hF1 (c : Dev nD) (w : Fin cfg1.W) : (dat1 (Wr4 m) c).arrAt w cfg1.N = Wr5 m c (Pipeline.arrRef spec1 w) := by
  match w with
  | ⟨0, _⟩ => exact (((dat1 (Wr4 m) c).arrAt_in 0 rfl _).trans (A_eq1 (Wr4 m) c 0)).trans (Function.update_of_ne (StableHlo.devRef_ne_of_ne (by decide)) _ _).symm
  | ⟨1, _⟩ => exact (((dat1 (Wr4 m) c).arrAt_in 1 rfl _).trans (A_eq1 (Wr4 m) c 1)).trans (Function.update_of_ne (StableHlo.devRef_ne_of_ne (by decide)) _ _).symm
  | ⟨2, _⟩ =>
    show _ = W5 m c main_v19
    unfold W5
    rw [Function.update_self]
    rfl

theorem hrest1 (c : Dev nD) : ∀ b, b ∉ Finset.univ.image (Pipeline.arrRef spec1) → Wr5 m c b = Wr4 m c b :=
  fun b hb => Function.update_of_ne (StableHlo.devRef_ne_of_ne fun e => hb (Finset.mem_image.mpr ⟨2, Finset.mem_univ _, e.symm⟩)) _ _

theorem hF2 (c : Dev nD) (w : Fin cfg2.W) : (dat2 (Wr9 m) c).arrAt w cfg2.N = Wr10 m c (Pipeline.arrRef spec2 w) := by
  match w with
  | ⟨0, _⟩ => exact (((dat2 (Wr9 m) c).arrAt_in 0 rfl _).trans (A_eq2 (Wr9 m) c 0)).trans (Function.update_of_ne (StableHlo.devRef_ne_of_ne (by decide)) _ _).symm
  | ⟨1, _⟩ => exact (((dat2 (Wr9 m) c).arrAt_in 1 rfl _).trans (A_eq2 (Wr9 m) c 1)).trans (Function.update_of_ne (StableHlo.devRef_ne_of_ne (by decide)) _ _).symm
  | ⟨2, _⟩ =>
    show _ = W10 m c main_v38
    unfold W10
    rw [Function.update_self]
    rfl

theorem hrest2 (c : Dev nD) : ∀ b, b ∉ Finset.univ.image (Pipeline.arrRef spec2) → Wr10 m c b = Wr9 m c b :=
  fun b hb => Function.update_of_ne (StableHlo.devRef_ne_of_ne fun e => hb (Finset.mem_image.mpr ⟨2, Finset.mem_univ _, e.symm⟩)) _ _

theorem hF3 (c : Dev nD) (w : Fin cfg3.W) : (dat3 (Wr10 m) c).arrAt w cfg3.N = Wr11 m c (Pipeline.arrRef spec3 w) := by
  match w with
  | ⟨0, _⟩ => exact (((dat3 (Wr10 m) c).arrAt_in 0 rfl _).trans (A_eq3 (Wr10 m) c 0)).trans (Function.update_of_ne (StableHlo.devRef_ne_of_ne (by decide)) _ _).symm
  | ⟨1, _⟩ => exact (((dat3 (Wr10 m) c).arrAt_in 1 rfl _).trans (A_eq3 (Wr10 m) c 1)).trans (Function.update_of_ne (StableHlo.devRef_ne_of_ne (by decide)) _ _).symm
  | ⟨2, _⟩ =>
    show _ = W11 m c main_v39
    unfold W11
    rw [Function.update_self]
    rfl

theorem hrest3 (c : Dev nD) : ∀ b, b ∉ Finset.univ.image (Pipeline.arrRef spec3) → Wr11 m c b = Wr10 m c b :=
  fun b hb => Function.update_of_ne (StableHlo.devRef_ne_of_ne fun e => hb (Finset.mem_image.mpr ⟨2, Finset.mem_univ _, e.symm⟩)) _ _

set_option backward.isDefEq.respectTransparency.types false in
def regSeg (p : Fin 4) (lf : Pipeline.LaunchFacts (nD := nD) (τ := τ) cfgs p) (Wi Wo : Dev nD → Valuation τ sig (Elt F))
    (hbody : ∀ c, BodyObligation (pdats m p c) (defs₀ (F := F)) 𝒱₀ () Set.univ)
    (hq : ∀ c w, (pdats m p c).q w = fullShare) (howed : ∀ c t, (pdats m p c).owed t = 0) (hrec : ∀ c x, x ∈ (pdats m p c).recorded 0)
    (hA : ∀ c w, (pdats m p c).A w = rd Wi c (Pipeline.arrRef (pcfgs (F := F) p).spec w))
    (hin : ∀ c, Pipeline.ΦA (pcfgs (F := F) p).spec c ⊢ (pdats m p c).Φ 0)
    (hout : ∀ c, (pdats m p c).Φ (Fin.last _) ⊢ Pipeline.ΦA (pcfgs (F := F) p).spec c)
    (hF : ∀ c w, (pdats m p c).arrAt w (cfgs p).N = rd Wo c (Pipeline.arrRef (pcfgs (F := F) p).spec w))
    (hrest : ∀ c b, b ∉ Finset.univ.image (Pipeline.arrRef (pcfgs (F := F) p).spec) → rd Wo c b = rd Wi c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (rd Wi c)
  hentry c := by
    rw [Pipeline.ownSems0_none]
    have hsplit := Pipeline.arrays_of_unscopedBufs (p := p) (pcfgs (F := F)) adm (pdats m) lf.win lf.arr_whole c
      ((pdats m p c).share_full (hq c)) (rd Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (hrec c _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd Wi c) (rd Wo c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

set_option backward.isDefEq.respectTransparency.types false in
theorem run_all (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = V14 m (outsF m) c b) :=
  run_cond m emb₁ () 𝒱₀ L lv (fun _ _ => rfl) ρ (outsF m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE4 := fun c => by iintro ⟨-, HO⟩; iexact HO)
    (R0 := regSeg m 0 launch0 (W3 m) (W4 m) (body_obligation0 (Wr3 m)) (fun _ _ => rfl) (fun _ _ => rfl) (fun _ _ => trivial) (fun _ _ => rfl) (hin0 (Wr3 m)) (hout0 (Wr3 m)) (hF0 m) (hrest0 m)) (hpre0 := fun c => .rfl) (hpost0 := fun c => by rw [V4_eq]; exact .rfl)
    (R1 := regSeg m 1 launch1 (W4 m) (W5 m) (body_obligation1 (Wr4 m)) (fun _ _ => rfl) (fun _ _ => rfl) (fun _ _ => trivial) (fun _ _ => rfl) (hin1 (Wr4 m)) (hout1 (Wr4 m)) (hF1 m) (hrest1 m)) (hpre1 := fun c => by rw [V4_eq]; exact .rfl) (hpost1 := fun c => by rw [V5_eq]; exact .rfl)
    (R2 := regSeg m 2 launch2 (W9 m) (W10 m) (body_obligation2 (Wr9 m)) (fun _ _ => rfl) (fun _ _ => rfl) (fun _ _ => trivial) (fun _ _ => rfl) (hin2 (Wr9 m)) (hout2 (Wr9 m)) (hF2 m) (hrest2 m)) (hpre2 := fun c => by rw [V9_eq]; exact .rfl) (hpost2 := fun c => by rw [V10_eq]; exact .rfl)
    (R3 := regSeg m 3 launch3 (W10 m) (W11 m) (body_obligation3 (Wr10 m)) (fun _ _ => rfl) (fun _ _ => rfl) (fun _ _ => trivial) (fun _ _ => rfl) (hin3 (Wr10 m)) (hout3 (Wr10 m)) (hF3 m) (hrest3 m)) (hpre3 := fun c => by rw [V10_eq]; exact .rfl) (hpost3 := fun c => by rw [V11_eq]; exact .rfl)

end Cert.Kernel.Frame

end
-- ==== Proof.KI.Runs0.lean ====
/- A product L · Y over a 10 × 10 grid of points (i, k) in blocks of 1024 × 1024: the blocks its operands show at a point, and its conditions k = 0 and k = 9 decided over the grid. -/
import proofs.«416138_j67946382623286_1_alg».proof.Proof.Gen.KernelIdeal.Launch
import proofs.«416138_j67946382623286_1_alg».proof.Proof.Gen.KernelIdeal.Skeleton
import proofs.«416138_j67946382623286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin grid0.N, cond0_0 (grid0.coords t) ↔ t.val % 10 = 0 := by decide +kernel

abbrev cond0_1 (i : grid0.Coords) : Prop := k0_cond2 i = 1#1
theorem hcond0_1 : ∀ t : Fin grid0.N, cond0_1 (grid0.coords t) ↔ t.val % 10 = 9 := by decide +kernel

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬t.val % 10 = 9 → cfg0.idle 2 (grid0.coords t) = true := by decide +kernel
theorem noFlush0_2 : ∀ t : Fin cfg0.N, ¬t.val % 10 = 9 → (cfg0.win 2).flush t = false := by decide +kernel
theorem liveAt0_2 : ∀ t : Fin cfg0.N, t.val % 10 = 9 → cfg0.idle 2 (grid0.coords t) = false := by decide +kernel

abbrev VO0_2 : View sig .tc .vmem S1024x1024 .f32 := (Memref.whole cc0_stg2_0 : Memref sig .tc .vmem S1024x1024 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)

abbrev scM0 : Memref sig .tc .vmem S1024x1024 .f32 := Memref.whole cc0_scratch0
abbrev VS0 : View sig .tc .vmem S1024x1024 .f32 := scM0.view

abbrev RestBut0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ RestBut0 c) ∗ (∃ r, prngReg c r)) := by
  unfold Pipeline.ΦA
  rw [Pipeline.scopedRest_split_of_list spec0 c [cc0_scratch0] (by decide) (by decide)]
  simp only [scM0, owns_whole, bigSepL_singleton]
  try rfl

end Cert.KernelIdeal.Frame

end
-- ==== Proof.KI.Run0.lean ====
/- The product body run in its three cases: k = 0 clears the accumulator and adds the block product, 0 < k < 9 adds, k = 9 adds and copies the accumulator into the result block. -/
import proofs.«416138_j67946382623286_1_alg».proof.Proof.KI.Runs0

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole)
  (x0 : Vec F S1024x1024 .f32) (x1 : Vec F S1024x1024 .f32)

set_option maxHeartbeats 1000000 in
noncomputable def kernelRun0_A (hc0 : cond0_0 i) (hc1 : ¬cond0_1 i) :
    Σ' (L2 : List (View.Piece (Elt F) S1024x1024 .f32)), { LS : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

variable (hc0 : ¬cond0_0 i) (xs : Vec F S1024x1024 .f32)

set_option maxHeartbeats 1000000 in
noncomputable def kernelRun0_B (hc1 : ¬cond0_1 i) :
    Σ' (L2 : List (View.Piece (Elt F) S1024x1024 .f32)), { LS : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def kernelRun0_C (hc1 : cond0_1 i) :
    Σ' (L2 : List (View.Piece (Elt F) S1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KI.Reg0.lean ====
/- After point t the accumulator holds what the point's case makes of what the point before left; k = 0 starts afresh, and k = 9 also copies it into the result block. -/
import proofs.«416138_j67946382623286_1_alg».proof.Proof.KI.Run0

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section pieces

variable (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole)
  (x0 : Vec F S1024x1024 .f32) (x1 : Vec F S1024x1024 .f32)

section
variable (hc0 : cond0_0 i) (hc1 : ¬cond0_1 i)

theorem scover0_A (y : S1024x1024.Idx) : ∃ pc ∈ (kernelRun0_A c i arg2 harg2 arg3 harg3 arg4 harg4 arg5 harg5 x0 x1 hc0 hc1).2.1, y ∈ pc.1.set :=
  View.cover_of_tiledL _ S1024x1024.size (by sl_kernel_rfl) y

def sout0_A : Vec F S1024x1024 .f32 :=
  VS0.read (Elt F) (VS0.writes (Elt F) VS0.junk (kernelRun0_A c i arg2 harg2 arg3 harg3 arg4 harg4 arg5 harg5 x0 x1 hc0 hc1).2.1)

end

variable (hc0 : ¬cond0_0 i) (xs : Vec F S1024x1024 .f32)

section
variable (hc1 : ¬cond0_1 i)

theorem scover0_B (y : S1024x1024.Idx) : ∃ pc ∈ (kernelRun0_B c i arg2 harg2 arg3 harg3 arg4 harg4 arg5 harg5 x0 x1 hc0 xs hc1).2.1, y ∈ pc.1.set :=
  View.cover_of_tiledL _ S1024x1024.size (by sl_kernel_rfl) y

def sout0_B : Vec F S1024x1024 .f32 :=
  VS0.read (Elt F) (VS0.writes (Elt F) VS0.junk (kernelRun0_B c i arg2 harg2 arg3 harg3 arg4 harg4 arg5 harg5 x0 x1 hc0 xs hc1).2.1)

end

variable (hc1 : cond0_1 i)

theorem cover0_C_2 (y : S1024x1024.Idx) : ∃ pc ∈ (kernelRun0_C c i arg2 harg2 arg3 harg3 arg4 harg4 arg5 harg5 x0 x1 hc0 xs hc1).1, y ∈ pc.1.set :=
  View.cover_of_tiledL _ S1024x1024.size (by sl_kernel_rfl) y

def out0_C_2 : Vec F S1024x1024 .f32 :=
  VO0_2.read (Elt F) (VO0_2.writes (Elt F) VO0_2.junk (kernelRun0_C c i arg2 harg2 arg3 harg3 arg4 harg4 arg5 harg5 x0 x1 hc0 xs hc1).1)

theorem scover0_C (y : S1024x1024.Idx) : ∃ pc ∈ (kernelRun0_C c i arg2 harg2 arg3 harg3 arg4 harg4 arg5 harg5 x0 x1 hc0 xs hc1).2.1, y ∈ pc.1.set :=
  View.cover_of_tiledL _ S1024x1024.size (by sl_kernel_rfl) y

def sout0_C : Vec F S1024x1024 .f32 :=
  VS0.read (Elt F) (VS0.writes (Elt F) VS0.junk (kernelRun0_C c i arg2 harg2 arg3 harg3 arg4 harg4 arg5 harg5 x0 x1 hc0 xs hc1).2.1)

end pieces

section point

variable (c : Dev nD) (t : Fin cfg0.N)

def accA0 (h0 : t.val % 10 = 0) (h1 : ¬t.val % 10 = 9) : Vec F S1024x1024 .f32 :=
  sout0_A c (grid0.coords t) (ms0_0 t) (hs0_0 t) (ms0_1 t) (hs0_1 t) (ms0_2 t) (hs0_2 t) scM0 (Memref.isWhole_whole _) (iblk0 V c 0 t) (iblk0 V c 1 t) ((hcond0_0 t).mpr h0) (fun h => h1 ((hcond0_1 t).mp h))

def accB0 (h0 : ¬t.val % 10 = 0) (h1 : ¬t.val % 10 = 9) (xs : Vec F S1024x1024 .f32) : Vec F S1024x1024 .f32 :=
  sout0_B c (grid0.coords t) (ms0_0 t) (hs0_0 t) (ms0_1 t) (hs0_1 t) (ms0_2 t) (hs0_2 t) scM0 (Memref.isWhole_whole _) (iblk0 V c 0 t) (iblk0 V c 1 t) (fun h => h0 ((hcond0_0 t).mp h)) xs (fun h => h1 ((hcond0_1 t).mp h))

def accC0 (h0 : ¬t.val % 10 = 0) (h1 : t.val % 10 = 9) (xs : Vec F S1024x1024 .f32) : Vec F S1024x1024 .f32 :=
  sout0_C c (grid0.coords t) (ms0_0 t) (hs0_0 t) (ms0_1 t) (hs0_1 t) (ms0_2 t) (hs0_2 t) scM0 (Memref.isWhole_whole _) (iblk0 V c 0 t) (iblk0 V c 1 t) (fun h => h0 ((hcond0_0 t).mp h)) xs ((hcond0_1 t).mpr h1)

def resC0 (h0 : ¬t.val % 10 = 0) (h1 : t.val % 10 = 9) (xs : Vec F S1024x1024 .f32) : Vec F S1024x1024 .f32 :=
  out0_C_2 c (grid0.coords t) (ms0_0 t) (hs0_0 t) (ms0_1 t) (hs0_1 t) (ms0_2 t) (hs0_2 t) scM0 (Memref.isWhole_whole _) (iblk0 V c 0 t) (iblk0 V c 1 t) (fun h => h0 ((hcond0_0 t).mp h)) xs ((hcond0_1 t).mpr h1)

end point

def accAt0 (c : Dev nD) : (n : ℕ) → n < cfg0.N → Vec F S1024x1024 .f32
  | 0, hn => accA0 V c ⟨0, hn⟩ (Nat.zero_mod _) (by show ¬(0 % 10 = 9); omega)
  | n + 1, hn =>
    if h0 : (n + 1) % 10 = 0 then accA0 V c ⟨n + 1, hn⟩ h0 (by show ¬((n + 1) % 10 = 9); omega)
    else if h1 : (n + 1) % 10 = 9 then accC0 V c ⟨n + 1, hn⟩ h0 h1 (accAt0 c n (Nat.lt_of_succ_lt hn))
    else accB0 V c ⟨n + 1, hn⟩ h0 h1 (accAt0 c n (Nat.lt_of_succ_lt hn))

variable (c : Dev nD) (t : Fin cfg0.N)

theorem accAt0_A (h0 : t.val % 10 = 0) (h1 : ¬t.val % 10 = 9) : accAt0 V c t.val t.isLt = accA0 V c t h0 h1 := by
  obtain ⟨n, hn⟩ := t
  cases n with
  | zero => exact rfl
  | succ n => exact (dif_pos h0).trans rfl

theorem accAt0_B (h0 : ¬t.val % 10 = 0) (h1 : ¬t.val % 10 = 9) : accAt0 V c t.val t.isLt = accB0 V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt0_C (h0 : ¬t.val % 10 = 0) (h1 : t.val % 10 = 9) : accAt0 V c t.val t.isLt = accC0 V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def resAt0 : Vec F S1024x1024 .f32 :=
  if h1 : t.val % 10 = 9 then resC0 V c t (by omega) h1 (accAt0 V c (t.val - 1) (Nat.lt_of_le_of_lt (Nat.sub_le _ _) t.isLt)) else accAt0 V c t.val t.isLt

def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ RestBut0 c) ∗ (∃ r, prngReg c r))

theorem PhiS0_pos (n : ℕ) (h : n ≤ cfg0.N) (hz : n ≠ 0) :
    PhiS0 V c n h = iprop(iprop(owns (c : Thread nD τ) scM0 fullShare (accAt0 V c (n - 1) (by omega)) ∗ RestBut0 c) ∗ (∃ r, prngReg c r)) := by
  cases n with
  | zero => exact absurd rfl hz
  | succ n => rfl

theorem PhiS0_some (n : ℕ) (h : n ≤ cfg0.N) :
    PhiS0 V c n h ⊢ iprop(iprop((∃ d, owns (c : Thread nD τ) scM0 fullShare d) ∗ RestBut0 c) ∗ (∃ r, prngReg c r)) := by
  cases n with
  | zero => rw [show PhiS0 V c 0 h = Pipeline.ΦA spec0 c from rfl, PhiA0_eq]
  | succ n =>
    rw [show PhiS0 V c (n + 1) h = iprop(iprop(owns (c : Thread nD τ) scM0 fullShare (accAt0 V c n h) ∗ RestBut0 c) ∗ (∃ r, prngReg c r)) from rfl]
    iintro ⟨⟨HS0, HR⟩, Hg⟩
    isplitl [HS0 HR]
    · isplitl [HS0]
      · iexists _; iexact HS0
      iexact HR
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => resAt0 V c t
  Φ t := PhiS0 V c t.val (Nat.le_of_lt_succ t.isLt)
  q _ := fullShare
  owed _ := 0

theorem A_eq0 (w : Fin cfg0.W) : (dat0 V c).A w = V c (Pipeline.arrRef spec0 w) := by
  dsimp only [dat0]

theorem after0_0 : (dat0 V c).after 0 t = iblk0 V c 0 t := by dsimp only [dat0]
theorem after0_1 : (dat0 V c).after 1 t = iblk0 V c 1 t := by dsimp only [dat0]
theorem after0_2 : (dat0 V c).after 2 t = resAt0 V c t := by dsimp only [dat0]

theorem before0_0 (d) : (dat0 V c).before 0 t d = iblk0 V c 0 t :=
  (dat0 V c).before_in_eq_fetched 0 rfl (fun _ => rfl) (fun _ _ _ => rfl) (fun _ => rfl) t d
theorem before0_1 (d) : (dat0 V c).before 1 t d = iblk0 V c 1 t :=
  (dat0 V c).before_in_eq_fetched 1 rfl (fun _ => rfl) (fun _ _ _ => rfl) (fun _ => rfl) t d

def bodyPre0 : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = iprop(iprop(owns (c : Thread nD τ) scM0 fullShare (accAt0 V c t.val t.isLt) ∗ RestBut0 c) ∗ (∃ r, prngReg c r)) from rfl]
  rw [show (dat0 V c).Φ t.castSucc = PhiS0 V c t.val (Nat.le_of_lt t.isLt) from by dsimp only [dat0]; simp only [Fin.coe_castSucc]]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 10 = 9
  · have h0 : ¬t.val % 10 = 0 := by omega
    rw [show (dat0 V c).leavesExact 2 t = owns (c : Thread nD τ) (ms0_2 t) fullShare ((dat0 V c).after 2 t) from by
      unfold Dat.leavesExact; rw [liveAt0_2 t h1], after0_2, show resAt0 V c t = resC0 V c t h0 h1 (accAt0 V c (t.val - 1) (Nat.lt_of_le_of_lt (Nat.sub_le _ _) t.isLt)) from dif_pos h1]
    rw [accAt0_C V c t h0 h1, PhiS0_pos V c _ _ (fun hz => h0 (by rw [hz]))]
    unfold accC0 resC0 out0_C_2 sout0_C
    iintro ⟨⟨⟨HS0, HR⟩, Hg⟩, Ho, ⟨%d0, H0⟩, ⟨%d1, H1⟩, ⟨%d2, H2⟩⟩
    iapply ((kernelRun0_C c (grid0.coords t) _ _ _ _ _ _ _ _ (iblk0 V c 0 t) (iblk0 V c 1 t) (fun h => h0 ((hcond0_0 t).mp h)) _ ((hcond0_1 t).mpr h1)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _)
  rw [Dat.leavesExact_idle (dat0 V c) 2 t (idleAt0_2 t h1) (noFlush0_2 t h1)]
  by_cases h0 : t.val % 10 = 0
  · rw [accAt0_A V c t h0 h1]
    unfold accA0 sout0_A
    iintro ⟨HΦ, Ho, ⟨%d0, H0⟩, ⟨%d1, H1⟩, ⟨%d2, H2⟩⟩
    ihave HΦ' := PhiS0_some V c _ _ $$ HΦ
    icases HΦ' with ⟨⟨HS0, HR⟩, Hg⟩
    iapply ((kernelRun0_A c (grid0.coords t) _ _ _ _ _ _ _ _ (iblk0 V c 0 t) (iblk0 V c 1 t) ((hcond0_0 t).mpr h0) (fun h => h1 ((hcond0_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A c _ _ _ _ _ _ _ _ _ _ _ _ _)
        iexact HR
      iexact Hg
    isplitl [Ho]; · iexact Ho
    isplitl [H0]; · iexact H0
    isplitl [H1]; · iexact H1
    iexists _; iexact H2
  · rw [accAt0_B V c t h0 h1, PhiS0_pos V c _ _ (fun hz => h0 (by rw [hz]))]
    unfold accB0 sout0_B
    iintro ⟨⟨⟨HS0, HR⟩, Hg⟩, Ho, ⟨%d0, H0⟩, ⟨%d1, H1⟩, ⟨%d2, H2⟩⟩
    iapply ((kernelRun0_B c (grid0.coords t) _ _ _ _ _ _ _ _ (iblk0 V c 0 t) (iblk0 V c 1 t) (fun h => h0 ((hcond0_0 t).mp h)) _ (fun h => h1 ((hcond0_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B c _ _ _ _ _ _ _ _ _ _ _ _ _ _)
        iexact HR
      iexact Hg
    isplitl [Ho]; · iexact Ho
    isplitl [H0]; · iexact H0
    isplitl [H1]; · iexact H1
    iexists _; iexact H2

theorem body_obligation0 (c : Dev nD) : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := .rfl

theorem hout0 : (dat0 V c).Φ (Fin.last cfg0.N) ⊢ Pipeline.ΦA spec0 c := by
  rw [PhiA0_eq, show (dat0 V c).Φ (Fin.last cfg0.N) = PhiS0 V c (Fin.last cfg0.N).val (Nat.le_of_lt_succ (Fin.last cfg0.N).isLt) from rfl]
  exact PhiS0_some V c _ _

end Cert.KernelIdeal.Frame

end
-- ==== Proof.KI.Runs1.lean ====
/- A product L · Y over a 10 × 10 grid of points (i, k) in blocks of 1024 × 1024: the blocks its operands show at a point, and its conditions k = 0 and k = 9 decided over the grid. -/
import proofs.«416138_j67946382623286_1_alg».proof.Proof.Gen.KernelIdeal.Launch
import proofs.«416138_j67946382623286_1_alg».proof.Proof.Gen.KernelIdeal.Skeleton
import proofs.«416138_j67946382623286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin grid1.N, cond1_0 (grid1.coords t) ↔ t.val % 10 = 0 := by decide +kernel

abbrev cond1_1 (i : grid1.Coords) : Prop := k1_cond2 i = 1#1
theorem hcond1_1 : ∀ t : Fin grid1.N, cond1_1 (grid1.coords t) ↔ t.val % 10 = 9 := by decide +kernel

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬t.val % 10 = 9 → cfg1.idle 2 (grid1.coords t) = true := by decide +kernel
theorem noFlush1_2 : ∀ t : Fin cfg1.N, ¬t.val % 10 = 9 → (cfg1.win 2).flush t = false := by decide +kernel
theorem liveAt1_2 : ∀ t : Fin cfg1.N, t.val % 10 = 9 → cfg1.idle 2 (grid1.coords t) = false := by decide +kernel

abbrev VO1_2 : View sig .tc .vmem S1024x1024 .f32 := (Memref.whole cc1_stg2_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)

abbrev scM1 : Memref sig .tc .vmem S1024x1024 .f32 := Memref.whole cc1_scratch0
abbrev VS1 : View sig .tc .vmem S1024x1024 .f32 := scM1.view

abbrev RestBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ RestBut1 c) ∗ (∃ r, prngReg c r)) := by
  unfold Pipeline.ΦA
  rw [Pipeline.scopedRest_split_of_list spec1 c [cc1_scratch0] (by decide) (by decide)]
  simp only [scM1, owns_whole, bigSepL_singleton]
  try rfl

end Cert.KernelIdeal.Frame

end
-- ==== Proof.KI.Run1.lean ====
/- The product body run in its three cases: k = 0 clears the accumulator and adds the block product, 0 < k < 9 adds, k = 9 adds and copies the accumulator into the result block. -/
import proofs.«416138_j67946382623286_1_alg».proof.Proof.KI.Runs1

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole)
  (x0 : Vec F S1024x1024 .f32) (x1 : Vec F S1024x1024 .f32)

set_option maxHeartbeats 1000000 in
noncomputable def kernelRun1_A (hc0 : cond1_0 i) (hc1 : ¬cond1_1 i) :
    Σ' (L2 : List (View.Piece (Elt F) S1024x1024 .f32)), { LS : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

variable (hc0 : ¬cond1_0 i) (xs : Vec F S1024x1024 .f32)

set_option maxHeartbeats 1000000 in
noncomputable def kernelRun1_B (hc1 : ¬cond1_1 i) :
    Σ' (L2 : List (View.Piece (Elt F) S1024x1024 .f32)), { LS : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def kernelRun1_C (hc1 : cond1_1 i) :
    Σ' (L2 : List (View.Piece (Elt F) S1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KI.Reg1.lean ====
/- After point t the accumulator holds what the point's case makes of what the point before left; k = 0 starts afresh, and k = 9 also copies it into the result block. -/
import proofs.«416138_j67946382623286_1_alg».proof.Proof.KI.Run1

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section pieces

variable (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole)
  (x0 : Vec F S1024x1024 .f32) (x1 : Vec F S1024x1024 .f32)

section
variable (hc0 : cond1_0 i) (hc1 : ¬cond1_1 i)

theorem scover1_A (y : S1024x1024.Idx) : ∃ pc ∈ (kernelRun1_A c i arg2 harg2 arg3 harg3 arg4 harg4 arg5 harg5 x0 x1 hc0 hc1).2.1, y ∈ pc.1.set :=
  View.cover_of_tiledL _ S1024x1024.size (by sl_kernel_rfl) y

def sout1_A : Vec F S1024x1024 .f32 :=
  VS1.read (Elt F) (VS1.writes (Elt F) VS1.junk (kernelRun1_A c i arg2 harg2 arg3 harg3 arg4 harg4 arg5 harg5 x0 x1 hc0 hc1).2.1)

end

variable (hc0 : ¬cond1_0 i) (xs : Vec F S1024x1024 .f32)

section
variable (hc1 : ¬cond1_1 i)

theorem scover1_B (y : S1024x1024.Idx) : ∃ pc ∈ (kernelRun1_B c i arg2 harg2 arg3 harg3 arg4 harg4 arg5 harg5 x0 x1 hc0 xs hc1).2.1, y ∈ pc.1.set :=
  View.cover_of_tiledL _ S1024x1024.size (by sl_kernel_rfl) y

def sout1_B : Vec F S1024x1024 .f32 :=
  VS1.read (Elt F) (VS1.writes (Elt F) VS1.junk (kernelRun1_B c i arg2 harg2 arg3 harg3 arg4 harg4 arg5 harg5 x0 x1 hc0 xs hc1).2.1)

end

variable (hc1 : cond1_1 i)

theorem cover1_C_2 (y : S1024x1024.Idx) : ∃ pc ∈ (kernelRun1_C c i arg2 harg2 arg3 harg3 arg4 harg4 arg5 harg5 x0 x1 hc0 xs hc1).1, y ∈ pc.1.set :=
  View.cover_of_tiledL _ S1024x1024.size (by sl_kernel_rfl) y

def out1_C_2 : Vec F S1024x1024 .f32 :=
  VO1_2.read (Elt F) (VO1_2.writes (Elt F) VO1_2.junk (kernelRun1_C c i arg2 harg2 arg3 harg3 arg4 harg4 arg5 harg5 x0 x1 hc0 xs hc1).1)

theorem scover1_C (y : S1024x1024.Idx) : ∃ pc ∈ (kernelRun1_C c i arg2 harg2 arg3 harg3 arg4 harg4 arg5 harg5 x0 x1 hc0 xs hc1).2.1, y ∈ pc.1.set :=
  View.cover_of_tiledL _ S1024x1024.size (by sl_kernel_rfl) y

def sout1_C : Vec F S1024x1024 .f32 :=
  VS1.read (Elt F) (VS1.writes (Elt F) VS1.junk (kernelRun1_C c i arg2 harg2 arg3 harg3 arg4 harg4 arg5 harg5 x0 x1 hc0 xs hc1).2.1)

end pieces

section point

variable (c : Dev nD) (t : Fin cfg1.N)

def accA1 (h0 : t.val % 10 = 0) (h1 : ¬t.val % 10 = 9) : Vec F S1024x1024 .f32 :=
  sout1_A c (grid1.coords t) (ms1_0 t) (hs1_0 t) (ms1_1 t) (hs1_1 t) (ms1_2 t) (hs1_2 t) scM1 (Memref.isWhole_whole _) (iblk1 V c 0 t) (iblk1 V c 1 t) ((hcond1_0 t).mpr h0) (fun h => h1 ((hcond1_1 t).mp h))

def accB1 (h0 : ¬t.val % 10 = 0) (h1 : ¬t.val % 10 = 9) (xs : Vec F S1024x1024 .f32) : Vec F S1024x1024 .f32 :=
  sout1_B c (grid1.coords t) (ms1_0 t) (hs1_0 t) (ms1_1 t) (hs1_1 t) (ms1_2 t) (hs1_2 t) scM1 (Memref.isWhole_whole _) (iblk1 V c 0 t) (iblk1 V c 1 t) (fun h => h0 ((hcond1_0 t).mp h)) xs (fun h => h1 ((hcond1_1 t).mp h))

def accC1 (h0 : ¬t.val % 10 = 0) (h1 : t.val % 10 = 9) (xs : Vec F S1024x1024 .f32) : Vec F S1024x1024 .f32 :=
  sout1_C c (grid1.coords t) (ms1_0 t) (hs1_0 t) (ms1_1 t) (hs1_1 t) (ms1_2 t) (hs1_2 t) scM1 (Memref.isWhole_whole _) (iblk1 V c 0 t) (iblk1 V c 1 t) (fun h => h0 ((hcond1_0 t).mp h)) xs ((hcond1_1 t).mpr h1)

def resC1 (h0 : ¬t.val % 10 = 0) (h1 : t.val % 10 = 9) (xs : Vec F S1024x1024 .f32) : Vec F S1024x1024 .f32 :=
  out1_C_2 c (grid1.coords t) (ms1_0 t) (hs1_0 t) (ms1_1 t) (hs1_1 t) (ms1_2 t) (hs1_2 t) scM1 (Memref.isWhole_whole _) (iblk1 V c 0 t) (iblk1 V c 1 t) (fun h => h0 ((hcond1_0 t).mp h)) xs ((hcond1_1 t).mpr h1)

end point

def accAt1 (c : Dev nD) : (n : ℕ) → n < cfg1.N → Vec F S1024x1024 .f32
  | 0, hn => accA1 V c ⟨0, hn⟩ (Nat.zero_mod _) (by show ¬(0 % 10 = 9); omega)
  | n + 1, hn =>
    if h0 : (n + 1) % 10 = 0 then accA1 V c ⟨n + 1, hn⟩ h0 (by show ¬((n + 1) % 10 = 9); omega)
    else if h1 : (n + 1) % 10 = 9 then accC1 V c ⟨n + 1, hn⟩ h0 h1 (accAt1 c n (Nat.lt_of_succ_lt hn))
    else accB1 V c ⟨n + 1, hn⟩ h0 h1 (accAt1 c n (Nat.lt_of_succ_lt hn))

variable (c : Dev nD) (t : Fin cfg1.N)

theorem accAt1_A (h0 : t.val % 10 = 0) (h1 : ¬t.val % 10 = 9) : accAt1 V c t.val t.isLt = accA1 V c t h0 h1 := by
  obtain ⟨n, hn⟩ := t
  cases n with
  | zero => exact rfl
  | succ n => exact (dif_pos h0).trans rfl

theorem accAt1_B (h0 : ¬t.val % 10 = 0) (h1 : ¬t.val % 10 = 9) : accAt1 V c t.val t.isLt = accB1 V c t h0 h1 (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt1_C (h0 : ¬t.val % 10 = 0) (h1 : t.val % 10 = 9) : accAt1 V c t.val t.isLt = accC1 V c t h0 h1 (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def resAt1 : Vec F S1024x1024 .f32 :=
  if h1 : t.val % 10 = 9 then resC1 V c t (by omega) h1 (accAt1 V c (t.val - 1) (Nat.lt_of_le_of_lt (Nat.sub_le _ _) t.isLt)) else accAt1 V c t.val t.isLt

def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ RestBut1 c) ∗ (∃ r, prngReg c r))

theorem PhiS1_pos (n : ℕ) (h : n ≤ cfg1.N) (hz : n ≠ 0) :
    PhiS1 V c n h = iprop(iprop(owns (c : Thread nD τ) scM1 fullShare (accAt1 V c (n - 1) (by omega)) ∗ RestBut1 c) ∗ (∃ r, prngReg c r)) := by
  cases n with
  | zero => exact absurd rfl hz
  | succ n => rfl

theorem PhiS1_some (n : ℕ) (h : n ≤ cfg1.N) :
    PhiS1 V c n h ⊢ iprop(iprop((∃ d, owns (c : Thread nD τ) scM1 fullShare d) ∗ RestBut1 c) ∗ (∃ r, prngReg c r)) := by
  cases n with
  | zero => rw [show PhiS1 V c 0 h = Pipeline.ΦA spec1 c from rfl, PhiA1_eq]
  | succ n =>
    rw [show PhiS1 V c (n + 1) h = iprop(iprop(owns (c : Thread nD τ) scM1 fullShare (accAt1 V c n h) ∗ RestBut1 c) ∗ (∃ r, prngReg c r)) from rfl]
    iintro ⟨⟨HS0, HR⟩, Hg⟩
    isplitl [HS0 HR]
    · isplitl [HS0]
      · iexists _; iexact HS0
      iexact HR
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => resAt1 V c t
  Φ t := PhiS1 V c t.val (Nat.le_of_lt_succ t.isLt)
  q _ := fullShare
  owed _ := 0

theorem A_eq1 (w : Fin cfg1.W) : (dat1 V c).A w = V c (Pipeline.arrRef spec1 w) := by
  dsimp only [dat1]

theorem after1_0 : (dat1 V c).after 0 t = iblk1 V c 0 t := by dsimp only [dat1]
theorem after1_1 : (dat1 V c).after 1 t = iblk1 V c 1 t := by dsimp only [dat1]
theorem after1_2 : (dat1 V c).after 2 t = resAt1 V c t := by dsimp only [dat1]

theorem before1_0 (d) : (dat1 V c).before 0 t d = iblk1 V c 0 t :=
  (dat1 V c).before_in_eq_fetched 0 rfl (fun _ => rfl) (fun _ _ _ => rfl) (fun _ => rfl) t d
theorem before1_1 (d) : (dat1 V c).before 1 t d = iblk1 V c 1 t :=
  (dat1 V c).before_in_eq_fetched 1 rfl (fun _ => rfl) (fun _ _ _ => rfl) (fun _ => rfl) t d

def bodyPre1 : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = iprop(iprop(owns (c : Thread nD τ) scM1 fullShare (accAt1 V c t.val t.isLt) ∗ RestBut1 c) ∗ (∃ r, prngReg c r)) from rfl]
  rw [show (dat1 V c).Φ t.castSucc = PhiS1 V c t.val (Nat.le_of_lt t.isLt) from by dsimp only [dat1]; simp only [Fin.coe_castSucc]]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 10 = 9
  · have h0 : ¬t.val % 10 = 0 := by omega
    rw [show (dat1 V c).leavesExact 2 t = owns (c : Thread nD τ) (ms1_2 t) fullShare ((dat1 V c).after 2 t) from by
      unfold Dat.leavesExact; rw [liveAt1_2 t h1], after1_2, show resAt1 V c t = resC1 V c t h0 h1 (accAt1 V c (t.val - 1) (Nat.lt_of_le_of_lt (Nat.sub_le _ _) t.isLt)) from dif_pos h1]
    rw [accAt1_C V c t h0 h1, PhiS1_pos V c _ _ (fun hz => h0 (by rw [hz]))]
    unfold accC1 resC1 out1_C_2 sout1_C
    iintro ⟨⟨⟨HS0, HR⟩, Hg⟩, Ho, ⟨%d0, H0⟩, ⟨%d1, H1⟩, ⟨%d2, H2⟩⟩
    iapply ((kernelRun1_C c (grid1.coords t) _ _ _ _ _ _ _ _ (iblk1 V c 0 t) (iblk1 V c 1 t) (fun h => h0 ((hcond1_0 t).mp h)) _ ((hcond1_1 t).mpr h1)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)
  rw [Dat.leavesExact_idle (dat1 V c) 2 t (idleAt1_2 t h1) (noFlush1_2 t h1)]
  by_cases h0 : t.val % 10 = 0
  · rw [accAt1_A V c t h0 h1]
    unfold accA1 sout1_A
    iintro ⟨HΦ, Ho, ⟨%d0, H0⟩, ⟨%d1, H1⟩, ⟨%d2, H2⟩⟩
    ihave HΦ' := PhiS1_some V c _ _ $$ HΦ
    icases HΦ' with ⟨⟨HS0, HR⟩, Hg⟩
    iapply ((kernelRun1_A c (grid1.coords t) _ _ _ _ _ _ _ _ (iblk1 V c 0 t) (iblk1 V c 1 t) ((hcond1_0 t).mpr h0) (fun h => h1 ((hcond1_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A c _ _ _ _ _ _ _ _ _ _ _ _ _)
        iexact HR
      iexact Hg
    isplitl [Ho]; · iexact Ho
    isplitl [H0]; · iexact H0
    isplitl [H1]; · iexact H1
    iexists _; iexact H2
  · rw [accAt1_B V c t h0 h1, PhiS1_pos V c _ _ (fun hz => h0 (by rw [hz]))]
    unfold accB1 sout1_B
    iintro ⟨⟨⟨HS0, HR⟩, Hg⟩, Ho, ⟨%d0, H0⟩, ⟨%d1, H1⟩, ⟨%d2, H2⟩⟩
    iapply ((kernelRun1_B c (grid1.coords t) _ _ _ _ _ _ _ _ (iblk1 V c 0 t) (iblk1 V c 1 t) (fun h => h0 ((hcond1_0 t).mp h)) _ (fun h => h1 ((hcond1_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_B c _ _ _ _ _ _ _ _ _ _ _ _ _ _)
        iexact HR
      iexact Hg
    isplitl [Ho]; · iexact Ho
    isplitl [H0]; · iexact H0
    isplitl [H1]; · iexact H1
    iexists _; iexact H2

theorem body_obligation1 (c : Dev nD) : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := .rfl

theorem hout1 : (dat1 V c).Φ (Fin.last cfg1.N) ⊢ Pipeline.ΦA spec1 c := by
  rw [PhiA1_eq, show (dat1 V c).Φ (Fin.last cfg1.N) = PhiS1 V c (Fin.last cfg1.N).val (Nat.le_of_lt_succ (Fin.last cfg1.N).isLt) from rfl]
  exact PhiS1_some V c _ _

end Cert.KernelIdeal.Frame

end
-- ==== Proof.KI.Runs2.lean ====
/- A product L · Y over a 10 × 10 grid of points (i, k) in blocks of 1024 × 128: the blocks its operands show at a point, and its conditions k = 0 and k = 9 decided over the grid. -/
import proofs.«416138_j67946382623286_1_alg».proof.Proof.Gen.KernelIdeal.Launch
import proofs.«416138_j67946382623286_1_alg».proof.Proof.Gen.KernelIdeal.Skeleton
import proofs.«416138_j67946382623286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin grid2.N, cond2_0 (grid2.coords t) ↔ t.val % 10 = 0 := by decide +kernel

abbrev cond2_1 (i : grid2.Coords) : Prop := k2_cond2 i = 1#1
theorem hcond2_1 : ∀ t : Fin grid2.N, cond2_1 (grid2.coords t) ↔ t.val % 10 = 9 := by decide +kernel

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬t.val % 10 = 9 → cfg2.idle 2 (grid2.coords t) = true := by decide +kernel
theorem noFlush2_2 : ∀ t : Fin cfg2.N, ¬t.val % 10 = 9 → (cfg2.win 2).flush t = false := by decide +kernel
theorem liveAt2_2 : ∀ t : Fin cfg2.N, t.val % 10 = 9 → cfg2.idle 2 (grid2.coords t) = false := by decide +kernel

abbrev VO2_2 : View sig .tc .vmem S1024x128 .f32 := (Memref.whole cc2_stg2_0 : Memref sig .tc .vmem S1024x128 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)

abbrev scM2 : Memref sig .tc .vmem S1024x128 .f32 := Memref.whole cc2_scratch0
abbrev VS2 : View sig .tc .vmem S1024x128 .f32 := scM2.view

abbrev RestBut2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2 fullShare d) ∗ RestBut2 c) ∗ (∃ r, prngReg c r)) := by
  unfold Pipeline.ΦA
  rw [Pipeline.scopedRest_split_of_list spec2 c [cc2_scratch0] (by decide) (by decide)]
  simp only [scM2, owns_whole, bigSepL_singleton]
  try rfl

end Cert.KernelIdeal.Frame

end
-- ==== Proof.KI.Run2.lean ====
/- The product body run in its three cases: k = 0 clears the accumulator and adds the block product, 0 < k < 9 adds, k = 9 adds and copies the accumulator into the result block. -/
import proofs.«416138_j67946382623286_1_alg».proof.Proof.KI.Runs2

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
  (x0 : Vec F S1024x1024 .f32) (x1 : Vec F S1024x128 .f32)

set_option maxHeartbeats 1000000 in
noncomputable def kernelRun2_A (hc0 : cond2_0 i) (hc1 : ¬cond2_1 i) :
    Σ' (L2 : List (View.Piece (Elt F) S1024x128 .f32)), { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc2__matmul_kernel i arg2 harg2 arg3 harg3 arg4 harg4 arg5 harg5) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

variable (hc0 : ¬cond2_0 i) (xs : Vec F S1024x128 .f32)

set_option maxHeartbeats 1000000 in
noncomputable def kernelRun2_B (hc1 : ¬cond2_1 i) :
    Σ' (L2 : List (View.Piece (Elt F) S1024x128 .f32)), { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc2__matmul_kernel i arg2 harg2 arg3 harg3 arg4 harg4 arg5 harg5) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def kernelRun2_C (hc1 : cond2_1 i) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc2__matmul_kernel i arg2 harg2 arg3 harg3 arg4 harg4 arg5 harg5) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KI.Reg2.lean ====
/- After point t the accumulator holds what the point's case makes of what the point before left; k = 0 starts afresh, and k = 9 also copies it into the result block. -/
import proofs.«416138_j67946382623286_1_alg».proof.Proof.KI.Run2

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section pieces

variable (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
  (x0 : Vec F S1024x1024 .f32) (x1 : Vec F S1024x128 .f32)

section
variable (hc0 : cond2_0 i) (hc1 : ¬cond2_1 i)

theorem scover2_A (y : S1024x128.Idx) : ∃ pc ∈ (kernelRun2_A c i arg2 harg2 arg3 harg3 arg4 harg4 arg5 harg5 x0 x1 hc0 hc1).2.1, y ∈ pc.1.set :=
  View.cover_of_tiledL _ S1024x128.size (by sl_kernel_rfl) y

def sout2_A : Vec F S1024x128 .f32 :=
  VS2.read (Elt F) (VS2.writes (Elt F) VS2.junk (kernelRun2_A c i arg2 harg2 arg3 harg3 arg4 harg4 arg5 harg5 x0 x1 hc0 hc1).2.1)

end

variable (hc0 : ¬cond2_0 i) (xs : Vec F S1024x128 .f32)

section
variable (hc1 : ¬cond2_1 i)

theorem scover2_B (y : S1024x128.Idx) : ∃ pc ∈ (kernelRun2_B c i arg2 harg2 arg3 harg3 arg4 harg4 arg5 harg5 x0 x1 hc0 xs hc1).2.1, y ∈ pc.1.set :=
  View.cover_of_tiledL _ S1024x128.size (by sl_kernel_rfl) y

def sout2_B : Vec F S1024x128 .f32 :=
  VS2.read (Elt F) (VS2.writes (Elt F) VS2.junk (kernelRun2_B c i arg2 harg2 arg3 harg3 arg4 harg4 arg5 harg5 x0 x1 hc0 xs hc1).2.1)

end

variable (hc1 : cond2_1 i)

theorem cover2_C_2 (y : S1024x128.Idx) : ∃ pc ∈ (kernelRun2_C c i arg2 harg2 arg3 harg3 arg4 harg4 arg5 harg5 x0 x1 hc0 xs hc1).1, y ∈ pc.1.set :=
  View.cover_of_tiledL _ S1024x128.size (by sl_kernel_rfl) y

def out2_C_2 : Vec F S1024x128 .f32 :=
  VO2_2.read (Elt F) (VO2_2.writes (Elt F) VO2_2.junk (kernelRun2_C c i arg2 harg2 arg3 harg3 arg4 harg4 arg5 harg5 x0 x1 hc0 xs hc1).1)

theorem scover2_C (y : S1024x128.Idx) : ∃ pc ∈ (kernelRun2_C c i arg2 harg2 arg3 harg3 arg4 harg4 arg5 harg5 x0 x1 hc0 xs hc1).2.1, y ∈ pc.1.set :=
  View.cover_of_tiledL _ S1024x128.size (by sl_kernel_rfl) y

def sout2_C : Vec F S1024x128 .f32 :=
  VS2.read (Elt F) (VS2.writes (Elt F) VS2.junk (kernelRun2_C c i arg2 harg2 arg3 harg3 arg4 harg4 arg5 harg5 x0 x1 hc0 xs hc1).2.1)

end pieces

section point

variable (c : Dev nD) (t : Fin cfg2.N)

def accA2 (h0 : t.val % 10 = 0) (h1 : ¬t.val % 10 = 9) : Vec F S1024x128 .f32 :=
  sout2_A c (grid2.coords t) (ms2_0 t) (hs2_0 t) (ms2_1 t) (hs2_1 t) (ms2_2 t) (hs2_2 t) scM2 (Memref.isWhole_whole _) (iblk2 V c 0 t) (iblk2 V c 1 t) ((hcond2_0 t).mpr h0) (fun h => h1 ((hcond2_1 t).mp h))

def accB2 (h0 : ¬t.val % 10 = 0) (h1 : ¬t.val % 10 = 9) (xs : Vec F S1024x128 .f32) : Vec F S1024x128 .f32 :=
  sout2_B c (grid2.coords t) (ms2_0 t) (hs2_0 t) (ms2_1 t) (hs2_1 t) (ms2_2 t) (hs2_2 t) scM2 (Memref.isWhole_whole _) (iblk2 V c 0 t) (iblk2 V c 1 t) (fun h => h0 ((hcond2_0 t).mp h)) xs (fun h => h1 ((hcond2_1 t).mp h))

def accC2 (h0 : ¬t.val % 10 = 0) (h1 : t.val % 10 = 9) (xs : Vec F S1024x128 .f32) : Vec F S1024x128 .f32 :=
  sout2_C c (grid2.coords t) (ms2_0 t) (hs2_0 t) (ms2_1 t) (hs2_1 t) (ms2_2 t) (hs2_2 t) scM2 (Memref.isWhole_whole _) (iblk2 V c 0 t) (iblk2 V c 1 t) (fun h => h0 ((hcond2_0 t).mp h)) xs ((hcond2_1 t).mpr h1)

def resC2 (h0 : ¬t.val % 10 = 0) (h1 : t.val % 10 = 9) (xs : Vec F S1024x128 .f32) : Vec F S1024x128 .f32 :=
  out2_C_2 c (grid2.coords t) (ms2_0 t) (hs2_0 t) (ms2_1 t) (hs2_1 t) (ms2_2 t) (hs2_2 t) scM2 (Memref.isWhole_whole _) (iblk2 V c 0 t) (iblk2 V c 1 t) (fun h => h0 ((hcond2_0 t).mp h)) xs ((hcond2_1 t).mpr h1)

end point

def accAt2 (c : Dev nD) : (n : ℕ) → n < cfg2.N → Vec F S1024x128 .f32
  | 0, hn => accA2 V c ⟨0, hn⟩ (Nat.zero_mod _) (by show ¬(0 % 10 = 9); omega)
  | n + 1, hn =>
    if h0 : (n + 1) % 10 = 0 then accA2 V c ⟨n + 1, hn⟩ h0 (by show ¬((n + 1) % 10 = 9); omega)
    else if h1 : (n + 1) % 10 = 9 then accC2 V c ⟨n + 1, hn⟩ h0 h1 (accAt2 c n (Nat.lt_of_succ_lt hn))
    else accB2 V c ⟨n + 1, hn⟩ h0 h1 (accAt2 c n (Nat.lt_of_succ_lt hn))

variable (c : Dev nD) (t : Fin cfg2.N)

theorem accAt2_A (h0 : t.val % 10 = 0) (h1 : ¬t.val % 10 = 9) : accAt2 V c t.val t.isLt = accA2 V c t h0 h1 := by
  obtain ⟨n, hn⟩ := t
  cases n with
  | zero => exact rfl
  | succ n => exact (dif_pos h0).trans rfl

theorem accAt2_B (h0 : ¬t.val % 10 = 0) (h1 : ¬t.val % 10 = 9) : accAt2 V c t.val t.isLt = accB2 V c t h0 h1 (accAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt2_C (h0 : ¬t.val % 10 = 0) (h1 : t.val % 10 = 9) : accAt2 V c t.val t.isLt = accC2 V c t h0 h1 (accAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def resAt2 : Vec F S1024x128 .f32 :=
  if h1 : t.val % 10 = 9 then resC2 V c t (by omega) h1 (accAt2 V c (t.val - 1) (Nat.lt_of_le_of_lt (Nat.sub_le _ _) t.isLt)) else accAt2 V c t.val t.isLt

def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ RestBut2 c) ∗ (∃ r, prngReg c r))

theorem PhiS2_pos (n : ℕ) (h : n ≤ cfg2.N) (hz : n ≠ 0) :
    PhiS2 V c n h = iprop(iprop(owns (c : Thread nD τ) scM2 fullShare (accAt2 V c (n - 1) (by omega)) ∗ RestBut2 c) ∗ (∃ r, prngReg c r)) := by
  cases n with
  | zero => exact absurd rfl hz
  | succ n => rfl

theorem PhiS2_some (n : ℕ) (h : n ≤ cfg2.N) :
    PhiS2 V c n h ⊢ iprop(iprop((∃ d, owns (c : Thread nD τ) scM2 fullShare d) ∗ RestBut2 c) ∗ (∃ r, prngReg c r)) := by
  cases n with
  | zero => rw [show PhiS2 V c 0 h = Pipeline.ΦA spec2 c from rfl, PhiA2_eq]
  | succ n =>
    rw [show PhiS2 V c (n + 1) h = iprop(iprop(owns (c : Thread nD τ) scM2 fullShare (accAt2 V c n h) ∗ RestBut2 c) ∗ (∃ r, prngReg c r)) from rfl]
    iintro ⟨⟨HS0, HR⟩, Hg⟩
    isplitl [HS0 HR]
    · isplitl [HS0]
      · iexists _; iexact HS0
      iexact HR
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => resAt2 V c t
  Φ t := PhiS2 V c t.val (Nat.le_of_lt_succ t.isLt)
  q _ := fullShare
  owed _ := 0

theorem A_eq2 (w : Fin cfg2.W) : (dat2 V c).A w = V c (Pipeline.arrRef spec2 w) := by
  dsimp only [dat2]

theorem after2_0 : (dat2 V c).after 0 t = iblk2 V c 0 t := by dsimp only [dat2]
theorem after2_1 : (dat2 V c).after 1 t = iblk2 V c 1 t := by dsimp only [dat2]
theorem after2_2 : (dat2 V c).after 2 t = resAt2 V c t := by dsimp only [dat2]

theorem before2_0 (d) : (dat2 V c).before 0 t d = iblk2 V c 0 t :=
  (dat2 V c).before_in_eq_fetched 0 rfl (fun _ => rfl) (fun _ _ _ => rfl) (fun _ => rfl) t d
theorem before2_1 (d) : (dat2 V c).before 1 t d = iblk2 V c 1 t :=
  (dat2 V c).before_in_eq_fetched 1 rfl (fun _ => rfl) (fun _ _ _ => rfl) (fun _ => rfl) t d

def bodyPre2 : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = iprop(iprop(owns (c : Thread nD τ) scM2 fullShare (accAt2 V c t.val t.isLt) ∗ RestBut2 c) ∗ (∃ r, prngReg c r)) from rfl]
  rw [show (dat2 V c).Φ t.castSucc = PhiS2 V c t.val (Nat.le_of_lt t.isLt) from by dsimp only [dat2]; simp only [Fin.coe_castSucc]]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h1 : t.val % 10 = 9
  · have h0 : ¬t.val % 10 = 0 := by omega
    rw [show (dat2 V c).leavesExact 2 t = owns (c : Thread nD τ) (ms2_2 t) fullShare ((dat2 V c).after 2 t) from by
      unfold Dat.leavesExact; rw [liveAt2_2 t h1], after2_2, show resAt2 V c t = resC2 V c t h0 h1 (accAt2 V c (t.val - 1) (Nat.lt_of_le_of_lt (Nat.sub_le _ _) t.isLt)) from dif_pos h1]
    rw [accAt2_C V c t h0 h1, PhiS2_pos V c _ _ (fun hz => h0 (by rw [hz]))]
    unfold accC2 resC2 out2_C_2 sout2_C
    iintro ⟨⟨⟨HS0, HR⟩, Hg⟩, Ho, ⟨%d0, H0⟩, ⟨%d1, H1⟩, ⟨%d2, H2⟩⟩
    iapply ((kernelRun2_C c (grid2.coords t) _ _ _ _ _ _ _ _ (iblk2 V c 0 t) (iblk2 V c 1 t) (fun h => h0 ((hcond2_0 t).mp h)) _ ((hcond2_1 t).mpr h1)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_C_2 c _ _ _ _ _ _ _ _ _ _ _ _ _ _)
  rw [Dat.leavesExact_idle (dat2 V c) 2 t (idleAt2_2 t h1) (noFlush2_2 t h1)]
  by_cases h0 : t.val % 10 = 0
  · rw [accAt2_A V c t h0 h1]
    unfold accA2 sout2_A
    iintro ⟨HΦ, Ho, ⟨%d0, H0⟩, ⟨%d1, H1⟩, ⟨%d2, H2⟩⟩
    ihave HΦ' := PhiS2_some V c _ _ $$ HΦ
    icases HΦ' with ⟨⟨HS0, HR⟩, Hg⟩
    iapply ((kernelRun2_A c (grid2.coords t) _ _ _ _ _ _ _ _ (iblk2 V c 0 t) (iblk2 V c 1 t) ((hcond2_0 t).mpr h0) (fun h => h1 ((hcond2_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_A c _ _ _ _ _ _ _ _ _ _ _ _ _)
        iexact HR
      iexact Hg
    isplitl [Ho]; · iexact Ho
    isplitl [H0]; · iexact H0
    isplitl [H1]; · iexact H1
    iexists _; iexact H2
  · rw [accAt2_B V c t h0 h1, PhiS2_pos V c _ _ (fun hz => h0 (by rw [hz]))]
    unfold accB2 sout2_B
    iintro ⟨⟨⟨HS0, HR⟩, Hg⟩, Ho, ⟨%d0, H0⟩, ⟨%d1, H1⟩, ⟨%d2, H2⟩⟩
    iapply ((kernelRun2_B c (grid2.coords t) _ _ _ _ _ _ _ _ (iblk2 V c 0 t) (iblk2 V c 1 t) (fun h => h0 ((hcond2_0 t).mp h)) _ (fun h => h1 ((hcond2_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_B c _ _ _ _ _ _ _ _ _ _ _ _ _ _)
        iexact HR
      iexact Hg
    isplitl [Ho]; · iexact Ho
    isplitl [H0]; · iexact H0
    isplitl [H1]; · iexact H1
    iexists _; iexact H2

theorem body_obligation2 (c : Dev nD) : BodyObligation (dat2 (F := F) V c) (defs₀ (F := F)) Variants.none () Set.univ := fun t => by
  rw [bigSep_W2, bigSep_W2]
  exact sound_body2 V c t

theorem hin2 : Pipeline.ΦA spec2 c ⊢ (dat2 V c).Φ 0 := .rfl

theorem hout2 : (dat2 V c).Φ (Fin.last cfg2.N) ⊢ Pipeline.ΦA spec2 c := by
  rw [PhiA2_eq, show (dat2 V c).Φ (Fin.last cfg2.N) = PhiS2 V c (Fin.last cfg2.N).val (Nat.le_of_lt_succ (Fin.last cfg2.N).isLt) from rfl]
  exact PhiS2_some V c _ _

end Cert.KernelIdeal.Frame

end
-- ==== Proof.KI.Runs3.lean ====
/- A product L · Y over a 10 × 10 grid of points (i, k) in blocks of 1024 × 128: the blocks its operands show at a point, and its conditions k = 0 and k = 9 decided over the grid. -/
import proofs.«416138_j67946382623286_1_alg».proof.Proof.Gen.KernelIdeal.Launch
import proofs.«416138_j67946382623286_1_alg».proof.Proof.Gen.KernelIdeal.Skeleton
import proofs.«416138_j67946382623286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1
theorem hcond3_0 : ∀ t : Fin grid3.N, cond3_0 (grid3.coords t) ↔ t.val % 10 = 0 := by decide +kernel

abbrev cond3_1 (i : grid3.Coords) : Prop := k3_cond2 i = 1#1
theorem hcond3_1 : ∀ t : Fin grid3.N, cond3_1 (grid3.coords t) ↔ t.val % 10 = 9 := by decide +kernel

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬t.val % 10 = 9 → cfg3.idle 2 (grid3.coords t) = true := by decide +kernel
theorem noFlush3_2 : ∀ t : Fin cfg3.N, ¬t.val % 10 = 9 → (cfg3.win 2).flush t = false := by decide +kernel
theorem liveAt3_2 : ∀ t : Fin cfg3.N, t.val % 10 = 9 → cfg3.idle 2 (grid3.coords t) = false := by decide +kernel

abbrev VO3_2 : View sig .tc .vmem S1024x128 .f32 := (Memref.whole cc3_stg2_0 : Memref sig .tc .vmem S1024x128 .f32).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)

abbrev scM3 : Memref sig .tc .vmem S1024x128 .f32 := Memref.whole cc3_scratch0
abbrev VS3 : View sig .tc .vmem S1024x128 .f32 := scM3.view

abbrev RestBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop((∃ d, owns (c : Thread nD τ) scM3 fullShare d) ∗ RestBut3 c) ∗ (∃ r, prngReg c r)) := by
  unfold Pipeline.ΦA
  rw [Pipeline.scopedRest_split_of_list spec3 c [cc3_scratch0] (by decide) (by decide)]
  simp only [scM3, owns_whole, bigSepL_singleton]
  try rfl

end Cert.KernelIdeal.Frame

end
-- ==== Proof.KI.Run3.lean ====
/- The product body run in its three cases: k = 0 clears the accumulator and adds the block product, 0 < k < 9 adds, k = 9 adds and copies the accumulator into the result block. -/
import proofs.«416138_j67946382623286_1_alg».proof.Proof.KI.Runs3

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
  (x0 : Vec F S1024x1024 .f32) (x1 : Vec F S1024x128 .f32)

set_option maxHeartbeats 1000000 in
noncomputable def kernelRun3_A (hc0 : cond3_0 i) (hc1 : ¬cond3_1 i) :
    Σ' (L2 : List (View.Piece (Elt F) S1024x128 .f32)), { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc3__matmul_kernel i arg2 harg2 arg3 harg3 arg4 harg4 arg5 harg5) K } := by
  refine ⟨[], ?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

variable (hc0 : ¬cond3_0 i) (xs : Vec F S1024x128 .f32)

set_option maxHeartbeats 1000000 in
noncomputable def kernelRun3_B (hc1 : ¬cond3_1 i) :
    Σ' (L2 : List (View.Piece (Elt F) S1024x128 .f32)), { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc3__matmul_kernel i arg2 harg2 arg3 harg3 arg4 harg4 arg5 harg5) K } := by
  refine ⟨[], ?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def kernelRun3_C (hc1 : cond3_1 i) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc3__matmul_kernel i arg2 harg2 arg3 harg3 arg4 harg4 arg5 harg5) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KI.Reg3.lean ====
/- After point t the accumulator holds what the point's case makes of what the point before left; k = 0 starts afresh, and k = 9 also copies it into the result block. -/
import proofs.«416138_j67946382623286_1_alg».proof.Proof.KI.Run3

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section pieces

variable (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
  (x0 : Vec F S1024x1024 .f32) (x1 : Vec F S1024x128 .f32)

section
variable (hc0 : cond3_0 i) (hc1 : ¬cond3_1 i)

theorem scover3_A (y : S1024x128.Idx) : ∃ pc ∈ (kernelRun3_A c i arg2 harg2 arg3 harg3 arg4 harg4 arg5 harg5 x0 x1 hc0 hc1).2.1, y ∈ pc.1.set :=
  View.cover_of_tiledL _ S1024x128.size (by sl_kernel_rfl) y

def sout3_A : Vec F S1024x128 .f32 :=
  VS3.read (Elt F) (VS3.writes (Elt F) VS3.junk (kernelRun3_A c i arg2 harg2 arg3 harg3 arg4 harg4 arg5 harg5 x0 x1 hc0 hc1).2.1)

end

variable (hc0 : ¬cond3_0 i) (xs : Vec F S1024x128 .f32)

section
variable (hc1 : ¬cond3_1 i)

theorem scover3_B (y : S1024x128.Idx) : ∃ pc ∈ (kernelRun3_B c i arg2 harg2 arg3 harg3 arg4 harg4 arg5 harg5 x0 x1 hc0 xs hc1).2.1, y ∈ pc.1.set :=
  View.cover_of_tiledL _ S1024x128.size (by sl_kernel_rfl) y

def sout3_B : Vec F S1024x128 .f32 :=
  VS3.read (Elt F) (VS3.writes (Elt F) VS3.junk (kernelRun3_B c i arg2 harg2 arg3 harg3 arg4 harg4 arg5 harg5 x0 x1 hc0 xs hc1).2.1)

end

variable (hc1 : cond3_1 i)

theorem cover3_C_2 (y : S1024x128.Idx) : ∃ pc ∈ (kernelRun3_C c i arg2 harg2 arg3 harg3 arg4 harg4 arg5 harg5 x0 x1 hc0 xs hc1).1, y ∈ pc.1.set :=
  View.cover_of_tiledL _ S1024x128.size (by sl_kernel_rfl) y

def out3_C_2 : Vec F S1024x128 .f32 :=
  VO3_2.read (Elt F) (VO3_2.writes (Elt F) VO3_2.junk (kernelRun3_C c i arg2 harg2 arg3 harg3 arg4 harg4 arg5 harg5 x0 x1 hc0 xs hc1).1)

theorem scover3_C (y : S1024x128.Idx) : ∃ pc ∈ (kernelRun3_C c i arg2 harg2 arg3 harg3 arg4 harg4 arg5 harg5 x0 x1 hc0 xs hc1).2.1, y ∈ pc.1.set :=
  View.cover_of_tiledL _ S1024x128.size (by sl_kernel_rfl) y

def sout3_C : Vec F S1024x128 .f32 :=
  VS3.read (Elt F) (VS3.writes (Elt F) VS3.junk (kernelRun3_C c i arg2 harg2 arg3 harg3 arg4 harg4 arg5 harg5 x0 x1 hc0 xs hc1).2.1)

end pieces

section point

variable (c : Dev nD) (t : Fin cfg3.N)

def accA3 (h0 : t.val % 10 = 0) (h1 : ¬t.val % 10 = 9) : Vec F S1024x128 .f32 :=
  sout3_A c (grid3.coords t) (ms3_0 t) (hs3_0 t) (ms3_1 t) (hs3_1 t) (ms3_2 t) (hs3_2 t) scM3 (Memref.isWhole_whole _) (iblk3 V c 0 t) (iblk3 V c 1 t) ((hcond3_0 t).mpr h0) (fun h => h1 ((hcond3_1 t).mp h))

def accB3 (h0 : ¬t.val % 10 = 0) (h1 : ¬t.val % 10 = 9) (xs : Vec F S1024x128 .f32) : Vec F S1024x128 .f32 :=
  sout3_B c (grid3.coords t) (ms3_0 t) (hs3_0 t) (ms3_1 t) (hs3_1 t) (ms3_2 t) (hs3_2 t) scM3 (Memref.isWhole_whole _) (iblk3 V c 0 t) (iblk3 V c 1 t) (fun h => h0 ((hcond3_0 t).mp h)) xs (fun h => h1 ((hcond3_1 t).mp h))

def accC3 (h0 : ¬t.val % 10 = 0) (h1 : t.val % 10 = 9) (xs : Vec F S1024x128 .f32) : Vec F S1024x128 .f32 :=
  sout3_C c (grid3.coords t) (ms3_0 t) (hs3_0 t) (ms3_1 t) (hs3_1 t) (ms3_2 t) (hs3_2 t) scM3 (Memref.isWhole_whole _) (iblk3 V c 0 t) (iblk3 V c 1 t) (fun h => h0 ((hcond3_0 t).mp h)) xs ((hcond3_1 t).mpr h1)

def resC3 (h0 : ¬t.val % 10 = 0) (h1 : t.val % 10 = 9) (xs : Vec F S1024x128 .f32) : Vec F S1024x128 .f32 :=
  out3_C_2 c (grid3.coords t) (ms3_0 t) (hs3_0 t) (ms3_1 t) (hs3_1 t) (ms3_2 t) (hs3_2 t) scM3 (Memref.isWhole_whole _) (iblk3 V c 0 t) (iblk3 V c 1 t) (fun h => h0 ((hcond3_0 t).mp h)) xs ((hcond3_1 t).mpr h1)

end point

def accAt3 (c : Dev nD) : (n : ℕ) → n < cfg3.N → Vec F S1024x128 .f32
  | 0, hn => accA3 V c ⟨0, hn⟩ (Nat.zero_mod _) (by show ¬(0 % 10 = 9); omega)
  | n + 1, hn =>
    if h0 : (n + 1) % 10 = 0 then accA3 V c ⟨n + 1, hn⟩ h0 (by show ¬((n + 1) % 10 = 9); omega)
    else if h1 : (n + 1) % 10 = 9 then accC3 V c ⟨n + 1, hn⟩ h0 h1 (accAt3 c n (Nat.lt_of_succ_lt hn))
    else accB3 V c ⟨n + 1, hn⟩ h0 h1 (accAt3 c n (Nat.lt_of_succ_lt hn))

variable (c : Dev nD) (t : Fin cfg3.N)

theorem accAt3_A (h0 : t.val % 10 = 0) (h1 : ¬t.val % 10 = 9) : accAt3 V c t.val t.isLt = accA3 V c t h0 h1 := by
  obtain ⟨n, hn⟩ := t
  cases n with
  | zero => exact rfl
  | succ n => exact (dif_pos h0).trans rfl

theorem accAt3_B (h0 : ¬t.val % 10 = 0) (h1 : ¬t.val % 10 = 9) : accAt3 V c t.val t.isLt = accB3 V c t h0 h1 (accAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt3_C (h0 : ¬t.val % 10 = 0) (h1 : t.val % 10 = 9) : accAt3 V c t.val t.isLt = accC3 V c t h0 h1 (accAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def resAt3 : Vec F S1024x128 .f32 :=
  if h1 : t.val % 10 = 9 then resC3 V c t (by omega) h1 (accAt3 V c (t.val - 1) (Nat.lt_of_le_of_lt (Nat.sub_le _ _) t.isLt)) else accAt3 V c t.val t.isLt

def PhiS3 (c : Dev nD) : (n : ℕ) → n ≤ cfg3.N → sProp 𝕄
  | 0, _ => Pipeline.ΦA spec3 c
  | n + 1, hn => iprop(iprop(owns (c : Thread nD τ) scM3 fullShare (accAt3 V c n hn) ∗ RestBut3 c) ∗ (∃ r, prngReg c r))

theorem PhiS3_pos (n : ℕ) (h : n ≤ cfg3.N) (hz : n ≠ 0) :
    PhiS3 V c n h = iprop(iprop(owns (c : Thread nD τ) scM3 fullShare (accAt3 V c (n - 1) (by omega)) ∗ RestBut3 c) ∗ (∃ r, prngReg c r)) := by
  cases n with
  | zero => exact absurd rfl hz
  | succ n => rfl

theorem PhiS3_some (n : ℕ) (h : n ≤ cfg3.N) :
    PhiS3 V c n h ⊢ iprop(iprop((∃ d, owns (c : Thread nD τ) scM3 fullShare d) ∗ RestBut3 c) ∗ (∃ r, prngReg c r)) := by
  cases n with
  | zero => rw [show PhiS3 V c 0 h = Pipeline.ΦA spec3 c from rfl, PhiA3_eq]
  | succ n =>
    rw [show PhiS3 V c (n + 1) h = iprop(iprop(owns (c : Thread nD τ) scM3 fullShare (accAt3 V c n h) ∗ RestBut3 c) ∗ (∃ r, prngReg c r)) from rfl]
    iintro ⟨⟨HS0, HR⟩, Hg⟩
    isplitl [HS0 HR]
    · isplitl [HS0]
      · iexists _; iexact HS0
      iexact HR
    iexact Hg

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => resAt3 V c t
  Φ t := PhiS3 V c t.val (Nat.le_of_lt_succ t.isLt)
  q _ := fullShare
  owed _ := 0

theorem A_eq3 (w : Fin cfg3.W) : (dat3 V c).A w = V c (Pipeline.arrRef spec3 w) := by
  dsimp only [dat3]

theorem after3_0 : (dat3 V c).after 0 t = iblk3 V c 0 t := by dsimp only [dat3]
theorem after3_1 : (dat3 V c).after 1 t = iblk3 V c 1 t := by dsimp only [dat3]
theorem after3_2 : (dat3 V c).after 2 t = resAt3 V c t := by dsimp only [dat3]

theorem before3_0 (d) : (dat3 V c).before 0 t d = iblk3 V c 0 t :=
  (dat3 V c).before_in_eq_fetched 0 rfl (fun _ => rfl) (fun _ _ _ => rfl) (fun _ => rfl) t d
theorem before3_1 (d) : (dat3 V c).before 1 t d = iblk3 V c 1 t :=
  (dat3 V c).before_in_eq_fetched 1 rfl (fun _ => rfl) (fun _ _ _ => rfl) (fun _ => rfl) t d

def bodyPre3 : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
theorem sound_body3 :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = iprop(iprop(owns (c : Thread nD τ) scM3 fullShare (accAt3 V c t.val t.isLt) ∗ RestBut3 c) ∗ (∃ r, prngReg c r)) from rfl]
  rw [show (dat3 V c).Φ t.castSucc = PhiS3 V c t.val (Nat.le_of_lt t.isLt) from by dsimp only [dat3]; simp only [Fin.coe_castSucc]]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h1 : t.val % 10 = 9
  · have h0 : ¬t.val % 10 = 0 := by omega
    rw [show (dat3 V c).leavesExact 2 t = owns (c : Thread nD τ) (ms3_2 t) fullShare ((dat3 V c).after 2 t) from by
      unfold Dat.leavesExact; rw [liveAt3_2 t h1], after3_2, show resAt3 V c t = resC3 V c t h0 h1 (accAt3 V c (t.val - 1) (Nat.lt_of_le_of_lt (Nat.sub_le _ _) t.isLt)) from dif_pos h1]
    rw [accAt3_C V c t h0 h1, PhiS3_pos V c _ _ (fun hz => h0 (by rw [hz]))]
    unfold accC3 resC3 out3_C_2 sout3_C
    iintro ⟨⟨⟨HS0, HR⟩, Hg⟩, Ho, ⟨%d0, H0⟩, ⟨%d1, H1⟩, ⟨%d2, H2⟩⟩
    iapply ((kernelRun3_C c (grid3.coords t) _ _ _ _ _ _ _ _ (iblk3 V c 0 t) (iblk3 V c 1 t) (fun h => h0 ((hcond3_0 t).mp h)) _ ((hcond3_1 t).mpr h1)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover3_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover3_C_2 c _ _ _ _ _ _ _ _ _ _ _ _ _ _)
  rw [Dat.leavesExact_idle (dat3 V c) 2 t (idleAt3_2 t h1) (noFlush3_2 t h1)]
  by_cases h0 : t.val % 10 = 0
  · rw [accAt3_A V c t h0 h1]
    unfold accA3 sout3_A
    iintro ⟨HΦ, Ho, ⟨%d0, H0⟩, ⟨%d1, H1⟩, ⟨%d2, H2⟩⟩
    ihave HΦ' := PhiS3_some V c _ _ $$ HΦ
    icases HΦ' with ⟨⟨HS0, HR⟩, Hg⟩
    iapply ((kernelRun3_A c (grid3.coords t) _ _ _ _ _ _ _ _ (iblk3 V c 0 t) (iblk3 V c 1 t) ((hcond3_0 t).mpr h0) (fun h => h1 ((hcond3_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover3_A c _ _ _ _ _ _ _ _ _ _ _ _ _)
        iexact HR
      iexact Hg
    isplitl [Ho]; · iexact Ho
    isplitl [H0]; · iexact H0
    isplitl [H1]; · iexact H1
    iexists _; iexact H2
  · rw [accAt3_B V c t h0 h1, PhiS3_pos V c _ _ (fun hz => h0 (by rw [hz]))]
    unfold accB3 sout3_B
    iintro ⟨⟨⟨HS0, HR⟩, Hg⟩, Ho, ⟨%d0, H0⟩, ⟨%d1, H1⟩, ⟨%d2, H2⟩⟩
    iapply ((kernelRun3_B c (grid3.coords t) _ _ _ _ _ _ _ _ (iblk3 V c 0 t) (iblk3 V c 1 t) (fun h => h0 ((hcond3_0 t).mp h)) _ (fun h => h1 ((hcond3_1 t).mp h))).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover3_B c _ _ _ _ _ _ _ _ _ _ _ _ _ _)
        iexact HR
      iexact Hg
    isplitl [Ho]; · iexact Ho
    isplitl [H0]; · iexact H0
    isplitl [H1]; · iexact H1
    iexists _; iexact H2

theorem body_obligation3 (c : Dev nD) : BodyObligation (dat3 (F := F) V c) (defs₀ (F := F)) Variants.none () Set.univ := fun t => by
  rw [bigSep_W3, bigSep_W3]
  exact sound_body3 V c t

theorem hin3 : Pipeline.ΦA spec3 c ⊢ (dat3 V c).Φ 0 := .rfl

theorem hout3 : (dat3 V c).Φ (Fin.last cfg3.N) ⊢ Pipeline.ΦA spec3 c := by
  rw [PhiA3_eq, show (dat3 V c).Φ (Fin.last cfg3.N) = PhiS3 V c (Fin.last cfg3.N).val (Nat.le_of_lt_succ (Fin.last cfg3.N).isLt) from rfl]
  exact PhiS3_some V c _ _

end Cert.KernelIdeal.Frame

end
-- ==== Proof.KI.Whole.lean ====
/- The four products among the host operations: between two items every array holds a known value, a product's result being what its region leaves, and the run ends at the last of these values. -/
import proofs.«416138_j67946382623286_1_alg».proof.Proof.KI.Reg0
import proofs.«416138_j67946382623286_1_alg».proof.Proof.KI.Reg1
import proofs.«416138_j67946382623286_1_alg».proof.Proof.KI.Reg2
import proofs.«416138_j67946382623286_1_alg».proof.Proof.KI.Reg3
import proofs.«416138_j67946382623286_1_alg».proof.Proof.KI.RunCond

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

abbrev W3 (c : Dev nD) : Valuation τ sig (Elt F) := V3 m c
abbrev Wr3 := rd (W3 m)

def W4 (c : Dev nD) : Valuation τ sig (Elt F) := Function.update (W3 m c) main_v18 ((dat0 (Wr3 m) c).arrAt 2 cfg0.N)
abbrev Wr4 := rd (W4 m)
def W5 (c : Dev nD) : Valuation τ sig (Elt F) := Function.update (W4 m c) main_v19 ((dat1 (Wr4 m) c).arrAt 2 cfg1.N)
abbrev Wr5 := rd (W5 m)
abbrev W9 (c : Dev nD) : Valuation τ sig (Elt F) :=
  StableHlo.after hostOps2_3 (StableHlo.after hostOps2_2 (StableHlo.after hostOps2_1 (StableHlo.after hostOps2 (W5 m c))))
abbrev Wr9 := rd (W9 m)
def W10 (c : Dev nD) : Valuation τ sig (Elt F) := Function.update (W9 m c) main_v38 ((dat2 (Wr9 m) c).arrAt 2 cfg2.N)
abbrev Wr10 := rd (W10 m)
def W11 (c : Dev nD) : Valuation τ sig (Elt F) := Function.update (W10 m c) main_v39 ((dat3 (Wr10 m) c).arrAt 2 cfg3.N)
abbrev Wr11 := rd (W11 m)

def outsF : Outs (F := F) := fun _ r c =>
  if h : r = main_v18 then h ▸ (W4 m c main_v18)
  else if h : r = main_v19 then h ▸ (W5 m c main_v19)
  else if h : r = main_v38 then h ▸ (W10 m c main_v38)
  else if h : r = main_v39 then h ▸ (W11 m c main_v39)
  else m ((c : Thread nD τ).loc r)

theorem outsF_v18 (J : ℕ) (c : Dev nD) : outsF m J main_v18 c = (dat0 (Wr3 m) c).arrAt 2 cfg0.N := by
  unfold outsF; rw [dif_pos rfl]; exact Function.update_self _ _ _
theorem outsF_v19 (J : ℕ) (c : Dev nD) : outsF m J main_v19 c = (dat1 (Wr4 m) c).arrAt 2 cfg1.N := by
  unfold outsF; rw [dif_neg (by decide), dif_pos rfl]; exact Function.update_self _ _ _
theorem outsF_v38 (J : ℕ) (c : Dev nD) : outsF m J main_v38 c = (dat2 (Wr9 m) c).arrAt 2 cfg2.N := by
  unfold outsF; rw [dif_neg (by decide), dif_neg (by decide), dif_pos rfl]; exact Function.update_self _ _ _
theorem outsF_v39 (J : ℕ) (c : Dev nD) : outsF m J main_v39 c = (dat3 (Wr10 m) c).arrAt 2 cfg3.N := by
  unfold outsF; rw [dif_neg (by decide), dif_neg (by decide), dif_neg (by decide), dif_pos rfl]; exact Function.update_self _ _ _

theorem V4_eq (c : Dev nD) : V4 m (outsF m) c = W4 m c := by
  show Function.update (V3 m c) main_v18 (outsF m 4 main_v18 c) = _; rw [outsF_v18]; rfl
theorem V5_eq (c : Dev nD) : V5 m (outsF m) c = W5 m c := by
  show Function.update (V4 m (outsF m) c) main_v19 (outsF m 5 main_v19 c) = _; rw [outsF_v19, V4_eq]; rfl
theorem V9_eq (c : Dev nD) : V9 m (outsF m) c = W9 m c := by
  show StableHlo.after hostOps2_3 (StableHlo.after hostOps2_2 (StableHlo.after hostOps2_1 (StableHlo.after hostOps2 (V5 m (outsF m) c)))) = _
  rw [V5_eq]
theorem V10_eq (c : Dev nD) : V10 m (outsF m) c = W10 m c := by
  show Function.update (V9 m (outsF m) c) main_v38 (outsF m 10 main_v38 c) = _; rw [outsF_v38, V9_eq]; rfl
theorem V11_eq (c : Dev nD) : V11 m (outsF m) c = W11 m c := by
  show Function.update (V10 m (outsF m) c) main_v39 (outsF m 11 main_v39 c) = _; rw [outsF_v39, V10_eq]; rfl

def pdats : (p : Fin 4) → (c : Dev nD) → Dat τ (Elt F) Unit ℕ (UR sig nD τ) ℕ (cfgs p) c
  | ⟨0, _⟩ => fun c => dat0 (Wr3 m) c
  | ⟨1, _⟩ => fun c => dat1 (Wr4 m) c
  | ⟨2, _⟩ => fun c => dat2 (Wr9 m) c
  | ⟨3, _⟩ => fun c => dat3 (Wr10 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0 (c : Dev nD) (w : Fin cfg0.W) : (dat0 (Wr3 m) c).arrAt w cfg0.N = Wr4 m c (Pipeline.arrRef spec0 w) := by
  match w with
  | ⟨0, _⟩ => exact (((dat0 (Wr3 m) c).arrAt_in 0 rfl _).trans (A_eq0 (Wr3 m) c 0)).trans (Function.update_of_ne (StableHlo.devRef_ne_of_ne (by decide)) _ _).symm
  | ⟨1, _⟩ => exact (((dat0 (Wr3 m) c).arrAt_in 1 rfl _).trans (A_eq0 (Wr3 m) c 1)).trans (Function.update_of_ne (StableHlo.devRef_ne_of_ne (by decide)) _ _).symm
  | ⟨2, _⟩ =>
    show _ = W4 m c main_v18
    unfold W4
    rw [Function.update_self]
    rfl

theorem hrest0 (c : Dev nD) : ∀ b, b ∉ Finset.univ.image (Pipeline.arrRef spec0) → Wr4 m c b = Wr3 m c b :=
  fun b hb => Function.update_of_ne (StableHlo.devRef_ne_of_ne fun e => hb (Finset.mem_image.mpr ⟨2, Finset.mem_univ _, e.symm⟩)) _ _

theorem hF1 (c : Dev nD) (w : Fin cfg1.W) : (dat1 (Wr4 m) c).arrAt w cfg1.N = Wr5 m c (Pipeline.arrRef spec1 w) := by
  match w with
  | ⟨0, _⟩ => exact (((dat1 (Wr4 m) c).arrAt_in 0 rfl _).trans (A_eq1 (Wr4 m) c 0)).trans (Function.update_of_ne (StableHlo.devRef_ne_of_ne (by decide)) _ _).symm
  | ⟨1, _⟩ => exact (((dat1 (Wr4 m) c).arrAt_in 1 rfl _).trans (A_eq1 (Wr4 m) c 1)).trans (Function.update_of_ne (StableHlo.devRef_ne_of_ne (by decide)) _ _).symm
  | ⟨2, _⟩ =>
    show _ = W5 m c main_v19
    unfold W5
    rw [Function.update_self]
    rfl

theorem hrest1 (c : Dev nD) : ∀ b, b ∉ Finset.univ.image (Pipeline.arrRef spec1) → Wr5 m c b = Wr4 m c b :=
  fun b hb => Function.update_of_ne (StableHlo.devRef_ne_of_ne fun e => hb (Finset.mem_image.mpr ⟨2, Finset.mem_univ _, e.symm⟩)) _ _

theorem hF2 (c : Dev nD) (w : Fin cfg2.W) : (dat2 (Wr9 m) c).arrAt w cfg2.N = Wr10 m c (Pipeline.arrRef spec2 w) := by
  match w with
  | ⟨0, _⟩ => exact (((dat2 (Wr9 m) c).arrAt_in 0 rfl _).trans (A_eq2 (Wr9 m) c 0)).trans (Function.update_of_ne (StableHlo.devRef_ne_of_ne (by decide)) _ _).symm
  | ⟨1, _⟩ => exact (((dat2 (Wr9 m) c).arrAt_in 1 rfl _).trans (A_eq2 (Wr9 m) c 1)).trans (Function.update_of_ne (StableHlo.devRef_ne_of_ne (by decide)) _ _).symm
  | ⟨2, _⟩ =>
    show _ = W10 m c main_v38
    unfold W10
    rw [Function.update_self]
    rfl

theorem hrest2 (c : Dev nD) : ∀ b, b ∉ Finset.univ.image (Pipeline.arrRef spec2) → Wr10 m c b = Wr9 m c b :=
  fun b hb => Function.update_of_ne (StableHlo.devRef_ne_of_ne fun e => hb (Finset.mem_image.mpr ⟨2, Finset.mem_univ _, e.symm⟩)) _ _

theorem hF3 (c : Dev nD) (w : Fin cfg3.W) : (dat3 (Wr10 m) c).arrAt w cfg3.N = Wr11 m c (Pipeline.arrRef spec3 w) := by
  match w with
  | ⟨0, _⟩ => exact (((dat3 (Wr10 m) c).arrAt_in 0 rfl _).trans (A_eq3 (Wr10 m) c 0)).trans (Function.update_of_ne (StableHlo.devRef_ne_of_ne (by decide)) _ _).symm
  | ⟨1, _⟩ => exact (((dat3 (Wr10 m) c).arrAt_in 1 rfl _).trans (A_eq3 (Wr10 m) c 1)).trans (Function.update_of_ne (StableHlo.devRef_ne_of_ne (by decide)) _ _).symm
  | ⟨2, _⟩ =>
    show _ = W11 m c main_v39
    unfold W11
    rw [Function.update_self]
    rfl

theorem hrest3 (c : Dev nD) : ∀ b, b ∉ Finset.univ.image (Pipeline.arrRef spec3) → Wr11 m c b = Wr10 m c b :=
  fun b hb => Function.update_of_ne (StableHlo.devRef_ne_of_ne fun e => hb (Finset.mem_image.mpr ⟨2, Finset.mem_univ _, e.symm⟩)) _ _

set_option backward.isDefEq.respectTransparency.types false in
def regSeg (p : Fin 4) (lf : Pipeline.LaunchFacts (nD := nD) (τ := τ) cfgs p) (Wi Wo : Dev nD → Valuation τ sig (Elt F))
    (hbody : ∀ c, BodyObligation (pdats m p c) (defs₀ (F := F)) 𝒱₀ () Set.univ)
    (hq : ∀ c w, (pdats m p c).q w = fullShare) (howed : ∀ c t, (pdats m p c).owed t = 0) (hrec : ∀ c x, x ∈ (pdats m p c).recorded 0)
    (hA : ∀ c w, (pdats m p c).A w = rd Wi c (Pipeline.arrRef (pcfgs (F := F) p).spec w))
    (hin : ∀ c, Pipeline.ΦA (pcfgs (F := F) p).spec c ⊢ (pdats m p c).Φ 0)
    (hout : ∀ c, (pdats m p c).Φ (Fin.last _) ⊢ Pipeline.ΦA (pcfgs (F := F) p).spec c)
    (hF : ∀ c w, (pdats m p c).arrAt w (cfgs p).N = rd Wo c (Pipeline.arrRef (pcfgs (F := F) p).spec w))
    (hrest : ∀ c b, b ∉ Finset.univ.image (Pipeline.arrRef (pcfgs (F := F) p).spec) → rd Wo c b = rd Wi c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (rd Wi c)
  hentry c := by
    rw [Pipeline.ownSems0_none]
    have hsplit := Pipeline.arrays_of_unscopedBufs (p := p) (pcfgs (F := F)) adm (pdats m) lf.win lf.arr_whole c
      ((pdats m p c).share_full (hq c)) (rd Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (hrec c _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd Wi c) (rd Wo c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

set_option backward.isDefEq.respectTransparency.types false in
theorem run_all (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = V14 m (outsF m) c b) :=
  run_cond m emb₁ () 𝒱₀ L lv (fun _ _ => rfl) ρ (outsF m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE4 := fun c => by iintro ⟨-, HO⟩; iexact HO)
    (R0 := regSeg m 0 launch0 (W3 m) (W4 m) (body_obligation0 (Wr3 m)) (fun _ _ => rfl) (fun _ _ => rfl) (fun _ _ => trivial) (fun _ _ => rfl) (hin0 (Wr3 m)) (hout0 (Wr3 m)) (hF0 m) (hrest0 m)) (hpre0 := fun c => .rfl) (hpost0 := fun c => by rw [V4_eq]; exact .rfl)
    (R1 := regSeg m 1 launch1 (W4 m) (W5 m) (body_obligation1 (Wr4 m)) (fun _ _ => rfl) (fun _ _ => rfl) (fun _ _ => trivial) (fun _ _ => rfl) (hin1 (Wr4 m)) (hout1 (Wr4 m)) (hF1 m) (hrest1 m)) (hpre1 := fun c => by rw [V4_eq]; exact .rfl) (hpost1 := fun c => by rw [V5_eq]; exact .rfl)
    (R2 := regSeg m 2 launch2 (W9 m) (W10 m) (body_obligation2 (Wr9 m)) (fun _ _ => rfl) (fun _ _ => rfl) (fun _ _ => trivial) (fun _ _ => rfl) (hin2 (Wr9 m)) (hout2 (Wr9 m)) (hF2 m) (hrest2 m)) (hpre2 := fun c => by rw [V9_eq]; exact .rfl) (hpost2 := fun c => by rw [V10_eq]; exact .rfl)
    (R3 := regSeg m 3 launch3 (W10 m) (W11 m) (body_obligation3 (Wr10 m)) (fun _ _ => rfl) (fun _ _ => rfl) (fun _ _ => trivial) (fun _ _ => rfl) (hin3 (Wr10 m)) (hout3 (Wr10 m)) (hF3 m) (hrest3 m)) (hpre3 := fun c => by rw [V10_eq]; exact .rfl) (hpost3 := fun c => by rw [V11_eq]; exact .rfl)

end Cert.KernelIdeal.Frame

end
-- ==== Proof.Spec.lean ====
/- The common form of both programs' result: two Chebyshev layers over the graph's matrix, as one function of the argument arrays. -/
import Idealize.ShloMosaic.PureOps.Ideal
import Idealize.ShloMosaic.Lib.ValueIdx

noncomputable section

open scoped BigOperators

namespace Cert.Spec

open Idealize.ShloMosaic Idealize.ShloMosaic.ValueIdx

structure Graph where
  row : Fin 160000 → Fin 10000
  col : Fin 160000 → Fin 10000
  w : Fin 160000 → ℝ

def spmm (g : Graph) {C : Nat} (Y : Fin 10000 → Fin C → ℝ) (n : Fin 10000) (j : Fin C) : ℝ :=
  ∑ e : Fin 160000, if g.row e = n then g.w e * Y (g.col e) j else 0

def cheb (g : Graph) {C : Nat} (Y : Fin 10000 → Fin C → ℝ) (k : Fin 3) (n : Fin 10000) (j : Fin C) : ℝ :=
  match k with
  | ⟨0, _⟩ => Y n j
  | ⟨1, _⟩ => spmm g Y n j
  | ⟨2, _⟩ => 2 * spmm g (spmm g Y) n j - Y n j

def feat1 (x : Fin 8 → Fin 10000 → Fin 128 → ℝ) (n : Fin 10000) (j : Fin 1024) : ℝ :=
  x ⟨j.val % 8, Nat.mod_lt _ (by norm_num)⟩ n ⟨j.val / 8, by have := j.isLt; omega⟩

def layer1 (g : Graph) (X : Fin 10000 → Fin 1024 → ℝ) (w1 : Fin 384 → ℝ) (b : ℝ) (bb : Fin 8) (n : Fin 10000) : ℝ :=
  max ((∑ j : Fin 384, cheb g X ⟨j.val % 3, Nat.mod_lt _ (by norm_num)⟩ n
      ⟨(j.val / 3) * 8 + bb.val, by have := j.isLt; have := bb.isLt; omega⟩ * w1 j) + b) 0

def feat2 (h : Fin 8 → Fin 10000 → ℝ) (n : Fin 10000) (bb : Fin 8) : ℝ := h bb n

def layer2 (g : Graph) (Y : Fin 10000 → Fin 8 → ℝ) (w2 : Fin 3 → ℝ) (b : ℝ) (bb : Fin 8) (n : Fin 10000) : ℝ :=
  max ((∑ k : Fin 3, cheb g Y k n bb * w2 k) + b) 0

def net (g : Graph) (x : Fin 8 → Fin 10000 → Fin 128 → ℝ) (w1 : Fin 384 → ℝ) (w2 : Fin 3 → ℝ) (b : ℝ)
    (bb : Fin 8) (n : Fin 10000) : ℝ :=
  layer2 g (feat2 (layer1 g (feat1 x) w1 b)) w2 b bb n

def node (v : BitVec 32) : Fin 10000 := ⟨min v.toInt.toNat 9999, by omega⟩

def graphOf (rows cols : (⟨1, ![160000]⟩ : Shape).Idx → BitVec 32) (vals : (⟨1, ![160000]⟩ : Shape).Idx → EReal) : Graph where
  row e := node (rows (ix1 e))
  col e := node (cols (ix1 e))
  w e := (vals (ix1 e)).toReal

def G (x : (⟨3, ![8, 10000, 128]⟩ : Shape).Idx → EReal) (rows cols : (⟨1, ![160000]⟩ : Shape).Idx → BitVec 32)
    (vals : (⟨1, ![160000]⟩ : Shape).Idx → EReal) (w1 : (⟨2, ![384, 1]⟩ : Shape).Idx → EReal)
    (w2 : (⟨2, ![3, 1]⟩ : Shape).Idx → EReal) (b : (⟨3, ![1, 1, 1]⟩ : Shape).Idx → EReal) :
    (⟨2, ![8, 10000]⟩ : Shape).Idx → EReal :=
  fun i => ((net (graphOf rows cols vals) (fun bb n f => (x (ix3 bb n f)).toReal)
    (fun j => (w1 (ix2 j (0 : Fin 1))).toReal) (fun k => (w2 (ix2 k (0 : Fin 1))).toReal)
    (b (ix3 (0 : Fin 1) (0 : Fin 1) (0 : Fin 1))).toReal (i 0) (i 1) : ℝ) : EReal)

structure Ok (x : (⟨3, ![8, 10000, 128]⟩ : Shape).Idx → EReal) (rows cols : (⟨1, ![160000]⟩ : Shape).Idx → BitVec 32)
    (vals : (⟨1, ![160000]⟩ : Shape).Idx → EReal) (w1 : (⟨2, ![384, 1]⟩ : Shape).Idx → EReal)
    (w2 : (⟨2, ![3, 1]⟩ : Shape).Idx → EReal) (b : (⟨3, ![1, 1, 1]⟩ : Shape).Idx → EReal) : Prop where
  x_real : ∀ i, x i = ((x i).toReal : EReal)
  vals_real : ∀ i, vals i = ((vals i).toReal : EReal)
  w1_real : ∀ i, w1 i = ((w1 i).toReal : EReal)
  w2_real : ∀ i, w2 i = ((w2 i).toReal : EReal)
  b_real : ∀ i, b i = ((b i).toReal : EReal)
  rows_range : ∀ i, 0 ≤ (rows i).toInt ∧ (rows i).toInt < 10000
  cols_range : ∀ i, 0 ≤ (cols i).toInt ∧ (cols i).toInt < 10000

end Cert.Spec

end
-- ==== Proof.Math.lean ====
/- Over the reals: a dense matrix applied in ten blocks of columns is the full sum, and the scattered matrix applied to a vector is the segment sum of the gathered, weighted rows. -/
import proofs.«416138_j67946382623286_1_alg».proof.Proof.Spec

noncomputable section

open scoped BigOperators

namespace Cert.Math

open Cert.Spec

def Lmat (g : Graph) (r c : Fin 10240) : ℝ :=
  ∑ e : Fin 160000, if (g.row e).val = r.val ∧ (g.col e).val = c.val then g.w e else 0

def mm (L : Fin 10240 → Fin 10240 → ℝ) {C : Nat} (Y : Fin 10240 → Fin C → ℝ) (r : Fin 10240) (j : Fin C) : ℝ :=
  ∑ c : Fin 10240, L r c * Y c j

abbrev up (n : Fin 10000) : Fin 10240 := ⟨n.val, by omega⟩

theorem mm_Lmat (g : Graph) {C : Nat} (Yp : Fin 10240 → Fin C → ℝ) (Y : Fin 10000 → Fin C → ℝ)
    (hY : ∀ (n : Fin 10000) (j : Fin C), Yp (up n) j = Y n j) (n : Fin 10000) (j : Fin C) :
    mm (Lmat g) Yp (up n) j = spmm g Y n j := by
  unfold mm Lmat spmm

  simp only [Finset.sum_mul]
  rw [Finset.sum_comm]
  refine Finset.sum_congr rfl (fun e _ => ?_)

  rw [Finset.sum_eq_single (up (g.col e))]
  · by_cases h : g.row e = n
    · have h' : (g.row e).val = n.val := congrArg Fin.val h
      simp only [h', true_and, if_true, hY]
      rw [if_pos h]
    · have h' : ¬ (g.row e).val = n.val := fun h'' => h (Fin.ext h'')
      simp only [h', false_and, if_false, zero_mul]
      rw [if_neg h]
  · intro c _ hc
    have h' : ¬ (g.col e).val = c.val := fun h'' => hc (Fin.ext h''.symm)
    simp only [h', and_false, if_false, zero_mul]
  · intro h
    exact absurd (Finset.mem_univ _) h

theorem sum_blocks {M : Type*} [AddCommMonoid M] (f : Fin 10240 → M) :
    ∑ k : Fin 10, ∑ c : Fin 1024, f ⟨k.val * 1024 + c.val, by omega⟩ = ∑ c : Fin 10240, f c := by

  have h := Fintype.sum_prod_type' (fun (k : Fin 10) (c : Fin 1024) => f ⟨k.val * 1024 + c.val, by omega⟩)
  refine h.symm.trans ?_
  refine Fintype.sum_equiv (finProdFinEquiv.trans (finCongr (by norm_num))) _ _ ?_
  rintro ⟨k, c⟩
  refine congrArg f (Fin.ext ?_)
  simp only [Equiv.trans_apply, finProdFinEquiv_apply_val, finCongr_apply, Fin.coe_cast]
  omega

theorem coe_sum {ι : Type*} (s : Finset ι) (f : ι → ℝ) : ((∑ i ∈ s, f i : ℝ) : EReal) = ∑ i ∈ s, (f i : EReal) := by
  classical

  refine Finset.induction_on s (by simp) ?_
  intro a s ha ih
  rw [Finset.sum_insert ha, Finset.sum_insert ha, EReal.coe_add, ih]

theorem coe_max (a b : ℝ) : ((max a b : ℝ) : EReal) = max (a : EReal) (b : EReal) := by

  rcases le_total a b with h | h
  · rw [max_eq_right h, max_eq_right (EReal.coe_le_coe_iff.mpr h)]
  · rw [max_eq_left h, max_eq_left (EReal.coe_le_coe_iff.mpr h)]

theorem coe_sub' (a b : ℝ) : ((a - b : ℝ) : EReal) = (a : EReal) - (b : EReal) := EReal.coe_sub a b

theorem coe_mul' (a b : ℝ) : ((a * b : ℝ) : EReal) = (a : EReal) * (b : EReal) := EReal.coe_mul a b

theorem coe_add' (a b : ℝ) : ((a + b : ℝ) : EReal) = (a : EReal) + (b : EReal) := EReal.coe_add a b

end Cert.Math

end
-- ==== Proof.KI.Pay.lean ====
/- The body's update at an entry: the accumulator's entry plus the sum over q of x0[r', q] · x1[q, j]; the two products of a layer apply the same function, so each width is read once. -/
import proofs.«416138_j67946382623286_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Frame

open Cert.KernelIdeal Cert.KernelIdeal.Gen
open Idealize.ShloMosaic Idealize.ShloMosaic.TcCoe Idealize.ShloMosaic.ValueIdx

theorem lhs0_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs0_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs0_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs0_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem k0_pay1_apply (r' : Fin 1024) (j : Fin 1024) : (k0_pay1 (F := Ideal) : S1024x1024.Idx → EReal) (ix2 r' j) = 0 := by
  unfold k0_pay1
  exact Ideal.ofBits_zero_f32

theorem k0_pay2_apply (x0 : Vec Ideal S1024x1024 .f32) (x1 : Vec Ideal S1024x1024 .f32) (xs : Vec Ideal S1024x1024 .f32) (r' : Fin 1024) (j : Fin 1024) :
    (k0_pay2 x0 x1 xs : S1024x1024.Idx → EReal) (ix2 r' j)
      = (xs : S1024x1024.Idx → EReal) (ix2 r' j) + ∑ q : Fin 1024, (x0 : S1024x1024.Idx → EReal) (ix2 r' q) * (x1 : S1024x1024.Idx → EReal) (ix2 q j) := by
  unfold k0_pay2
  simp only [shapeCast_self]
  refine (addf_apply _ _ _).trans ?_
  refine congrArg (_ + ·) ?_
  refine (Ideal.matmul_constant_zero_apply dot_S1024x1024_S1024x1024_S1024x1024_1_0_0_1_n_n none _ _ (ix2 r' j)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r' j) ((contrEquiv1 dot_S1024x1024_S1024x1024_S1024x1024_1_0_0_1_n_n 1024 rfl rfl).symm k) = ix2 r' k := funext fun a => Fin.ext (by
    match a with
    | ⟨0, _⟩ => exact lhs0_0 _ _
    | ⟨1, _⟩ => exact (lhs0_1 _ _).trans hk)
  have er : dot_S1024x1024_S1024x1024_S1024x1024_1_0_0_1_n_n.rhsIdx (ix2 r' j) ((contrEquiv1 dot_S1024x1024_S1024x1024_S1024x1024_1_0_0_1_n_n 1024 rfl rfl).symm k) = ix2 k j := funext fun a => Fin.ext (by
    match a with
    | ⟨0, _⟩ => exact (rhs0_0 _ _).trans hk
    | ⟨1, _⟩ => exact rhs0_1 _ _)
  rw [el, er]
  rfl

theorem k1_pay1_apply (r' : Fin 1024) (j : Fin 1024) : (k1_pay1 (F := Ideal) : S1024x1024.Idx → EReal) (ix2 r' j) = 0 := k0_pay1_apply r' j
theorem k1_pay2_apply (x0 : Vec Ideal S1024x1024 .f32) (x1 : Vec Ideal S1024x1024 .f32) (xs : Vec Ideal S1024x1024 .f32) (r' : Fin 1024) (j : Fin 1024) :
    (k1_pay2 x0 x1 xs : S1024x1024.Idx → EReal) (ix2 r' j)
      = (xs : S1024x1024.Idx → EReal) (ix2 r' j) + ∑ q : Fin 1024, (x0 : S1024x1024.Idx → EReal) (ix2 r' q) * (x1 : S1024x1024.Idx → EReal) (ix2 q j) :=
  k0_pay2_apply x0 x1 xs r' j

theorem lhs2_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs2_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs2_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs2_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

theorem k2_pay1_apply (r' : Fin 1024) (j : Fin 128) : (k2_pay1 (F := Ideal) : S1024x128.Idx → EReal) (ix2 r' j) = 0 := by
  unfold k2_pay1
  exact Ideal.ofBits_zero_f32

theorem k2_pay2_apply (x0 : Vec Ideal S1024x1024 .f32) (x1 : Vec Ideal S1024x128 .f32) (xs : Vec Ideal S1024x128 .f32) (r' : Fin 1024) (j : Fin 128) :
    (k2_pay2 x0 x1 xs : S1024x128.Idx → EReal) (ix2 r' j)
      = (xs : S1024x128.Idx → EReal) (ix2 r' j) + ∑ q : Fin 1024, (x0 : S1024x1024.Idx → EReal) (ix2 r' q) * (x1 : S1024x128.Idx → EReal) (ix2 q j) := by
  unfold k2_pay2
  simp only [shapeCast_self]
  refine (addf_apply _ _ _).trans ?_
  refine congrArg (_ + ·) ?_
  refine (Ideal.matmul_constant_zero_apply dot_S1024x1024_S1024x128_S1024x128_1_0_0_1_n_n none _ _ (ix2 r' j)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 r' j) ((contrEquiv1 dot_S1024x1024_S1024x128_S1024x128_1_0_0_1_n_n 1024 rfl rfl).symm k) = ix2 r' k := funext fun a => Fin.ext (by
    match a with
    | ⟨0, _⟩ => exact lhs2_0 _ _
    | ⟨1, _⟩ => exact (lhs2_1 _ _).trans hk)
  have er : dot_S1024x1024_S1024x128_S1024x128_1_0_0_1_n_n.rhsIdx (ix2 r' j) ((contrEquiv1 dot_S1024x1024_S1024x128_S1024x128_1_0_0_1_n_n 1024 rfl rfl).symm k) = ix2 k j := funext fun a => Fin.ext (by
    match a with
    | ⟨0, _⟩ => exact (rhs2_0 _ _).trans hk
    | ⟨1, _⟩ => exact rhs2_1 _ _)
  rw [el, er]
  rfl

theorem k3_pay1_apply (r' : Fin 1024) (j : Fin 128) : (k3_pay1 (F := Ideal) : S1024x128.Idx → EReal) (ix2 r' j) = 0 := k2_pay1_apply r' j
theorem k3_pay2_apply (x0 : Vec Ideal S1024x1024 .f32) (x1 : Vec Ideal S1024x128 .f32) (xs : Vec Ideal S1024x128 .f32) (r' : Fin 1024) (j : Fin 128) :
    (k3_pay2 x0 x1 xs : S1024x128.Idx → EReal) (ix2 r' j)
      = (xs : S1024x128.Idx → EReal) (ix2 r' j) + ∑ q : Fin 1024, (x0 : S1024x1024.Idx → EReal) (ix2 r' q) * (x1 : S1024x128.Idx → EReal) (ix2 q j) :=
  k2_pay2_apply x0 x1 xs r' j

end Cert.KernelIdeal.Frame

end
-- ==== Proof.KI.Val0.lean ====
/- Over the extended reals the accumulator after point (i, k) is the sum of the first k + 1 block products of row block i, so the region leaves the matrix product of its two operand arrays. -/
import proofs.«416138_j67946382623286_1_alg».proof.Proof.KI.Reg0
import proofs.«416138_j67946382623286_1_alg».proof.Proof.Math
import proofs.«416138_j67946382623286_1_alg».proof.Proof.KI.Pay
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.KernelIdeal.Frame

open Cert.KernelIdeal Cert.KernelIdeal.Gen Cert.Math
open Idealize.ShloMosaic Idealize.ShloMosaic.TcCoe Idealize.ShloMosaic.ValueIdx Idealize.SL.Sem Idealize.ShloMosaic.Tactic
open Idealize.ShloMosaic.Pipeline (Dat)

variable (V : (c : Dev nD) → (b : Ref sig .tc) → Buf (Elt Ideal) ((c : Thread nD τ).loc b))

section pieces
variable {F : FTy → Type} [FloatOps F]

theorem zoff0 : (![0, 0] : Fin 2 → Nat) = fun _ => 0 := funext fun a => by fin_cases a <;> rfl

variable (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole)
  (x0 : Vec F S1024x1024 .f32) (x1 : Vec F S1024x1024 .f32)

theorem sout0_A_eq (hc0 : cond0_0 i) (hc1 : ¬cond0_1 i) : sout0_A c i arg2 harg2 arg3 harg3 arg4 harg4 arg5 harg5 x0 x1 hc0 hc1 = k0_pay2 x0 x1 k0_pay1 := by
  unfold sout0_A
  rw [View.read_writes_eq_canon _ _ _ (scover0_A c i arg2 harg2 arg3 harg3 arg4 harg4 arg5 harg5 x0 x1 hc0 hc1)]
  unfold kernelRun0_A
  dsimp only
  sl_unfold_words
  rw [View.canon_cons_unit_zero (S := S1024x1024) zoff0, View.readCov_unit_zero (S := S1024x1024) _ zoff0]
  simp only [View.readAt_eq_ld, harg2.read_unread, harg3.read_unread, View.ld_unit_zero (S := S1024x1024) zoff0, View.ld_unit_zero (S := S1024x1024) zoff0]

variable (hc0 : ¬cond0_0 i) (xs : Vec F S1024x1024 .f32)

theorem sout0_B_eq (hc1 : ¬cond0_1 i) : sout0_B c i arg2 harg2 arg3 harg3 arg4 harg4 arg5 harg5 x0 x1 hc0 xs hc1 = k0_pay2 x0 x1 xs := by
  unfold sout0_B
  rw [View.read_writes_eq_canon _ _ _ (scover0_B c i arg2 harg2 arg3 harg3 arg4 harg4 arg5 harg5 x0 x1 hc0 xs hc1)]
  unfold kernelRun0_B
  dsimp only
  sl_unfold_words
  rw [View.canon_unit_zero (S := S1024x1024) zoff0]
  simp only [View.readAt_eq_ld, harg2.read_unread, harg3.read_unread, harg5.read_unread, View.ld_unit_zero (S := S1024x1024) zoff0, View.ld_unit_zero (S := S1024x1024) zoff0]

variable (hc1 : cond0_1 i)

theorem sout0_C_eq : sout0_C c i arg2 harg2 arg3 harg3 arg4 harg4 arg5 harg5 x0 x1 hc0 xs hc1 = k0_pay2 x0 x1 xs := by
  unfold sout0_C
  rw [View.read_writes_eq_canon _ _ _ (scover0_C c i arg2 harg2 arg3 harg3 arg4 harg4 arg5 harg5 x0 x1 hc0 xs hc1)]
  unfold kernelRun0_C
  dsimp only
  sl_unfold_words
  rw [View.canon_unit_zero (S := S1024x1024) zoff0]
  simp only [View.readAt_eq_ld, harg2.read_unread, harg3.read_unread, harg5.read_unread, View.ld_unit_zero (S := S1024x1024) zoff0, View.ld_unit_zero (S := S1024x1024) zoff0]

theorem out0_C_2_eq : out0_C_2 c i arg2 harg2 arg3 harg3 arg4 harg4 arg5 harg5 x0 x1 hc0 xs hc1 = k0_pay2 x0 x1 xs := by
  unfold out0_C_2
  rw [View.read_writes_eq_canon _ _ _ (cover0_C_2 c i arg2 harg2 arg3 harg3 arg4 harg4 arg5 harg5 x0 x1 hc0 xs hc1)]
  unfold kernelRun0_C
  dsimp only
  sl_unfold_words
  rw [View.canon_unit_zero (S := S1024x1024) zoff0, View.readCov_unit_zero (S := S1024x1024) _ zoff0]
  simp only [View.readAt_eq_ld, harg2.read_unread, harg3.read_unread, harg5.read_unread, View.ld_unit_zero (S := S1024x1024) zoff0, View.ld_unit_zero (S := S1024x1024) zoff0]

end pieces

theorem idx_facts0 : ∀ t : Fin grid0.N,
    win0_0.index t (0 : Fin 2) = t.val / 10 ∧ win0_0.index t (1 : Fin 2) = t.val % 10
    ∧ win0_1.index t (0 : Fin 2) = t.val % 10 ∧ win0_1.index t (1 : Fin 2) = 0
    ∧ win0_2.index t (0 : Fin 2) = t.val / 10 ∧ win0_2.index t (1 : Fin 2) = 0 := by decide +kernel

def Lent0 (c : Dev nD) (a b : ℕ) : EReal :=
  if h : a < 10240 ∧ b < 10240 then (V c main_v14 : S10240x10240.Idx → EReal) (ix2 ⟨a, h.1⟩ ⟨b, h.2⟩) else 0

def Yent0 (c : Dev nD) (a b : ℕ) : EReal :=
  if h : a < 10240 ∧ b < 1024 then (V c main_v17 : S10240x1024.Idx → EReal) (ix2 ⟨a, h.1⟩ ⟨b, h.2⟩) else 0

def psum0 (c : Dev nD) (a b m : ℕ) : EReal :=
  ∑ k' ∈ Finset.range m, ∑ q : Fin 1024, Lent0 V c a (k' * 1024 + q.val) * Yent0 V c (k' * 1024 + q.val) b

abbrev Lblk0 (c : Dev nD) (t : Fin cfg0.N) : Vec Ideal S1024x1024 .f32 := iblk0 V c 0 t
abbrev Yblk0 (c : Dev nD) (t : Fin cfg0.N) : Vec Ideal S1024x1024 .f32 := iblk0 V c 1 t

theorem Lblk0_apply (c : Dev nD) (t : Fin cfg0.N) (r' q : Fin 1024) :
    (Lblk0 V c t : S1024x1024.Idx → EReal) (ix2 r' q) = Lent0 V c (t.val / 10 * 1024 + r'.val) (t.val % 10 * 1024 + q.val) := by
  obtain ⟨e0, e1, e2, e3, e4, e5⟩ := idx_facts0 t
  have hN : t.val < 100 := lt_of_lt_of_eq t.isLt (show cfg0.N = 100 from N_0)
  have hr := r'.isLt
  have hq := q.isLt
  unfold Lent0
  rw [dif_pos ⟨by omega, by omega⟩]
  show V c main_v14 (((cfg0.win 0).blk t).view.emb (ix2 r' q)) = V c main_v14 _
  refine congrArg _ ?_
  funext a; apply Fin.ext
  match a with
  | ⟨0, _⟩ => show win0_0.index t (0 : Fin 2) * 1024 + 1 * r'.val = t.val / 10 * 1024 + r'.val; rw [e0]; omega
  | ⟨1, _⟩ => show win0_0.index t (1 : Fin 2) * 1024 + 1 * q.val = t.val % 10 * 1024 + q.val; rw [e1]; omega

theorem Yblk0_apply (c : Dev nD) (t : Fin cfg0.N) (q : Fin 1024) (j : Fin 1024) :
    (Yblk0 V c t : S1024x1024.Idx → EReal) (ix2 q j) = Yent0 V c (t.val % 10 * 1024 + q.val) j.val := by
  obtain ⟨e0, e1, e2, e3, e4, e5⟩ := idx_facts0 t
  have hN : t.val < 100 := lt_of_lt_of_eq t.isLt (show cfg0.N = 100 from N_0)
  have hq := q.isLt
  have hj := j.isLt
  unfold Yent0
  rw [dif_pos ⟨by omega, by omega⟩]
  show V c main_v17 (((cfg0.win 1).blk t).view.emb (ix2 q j)) = V c main_v17 _
  refine congrArg _ ?_
  funext a; apply Fin.ext
  match a with
  | ⟨0, _⟩ => show win0_1.index t (0 : Fin 2) * 1024 + 1 * q.val = t.val % 10 * 1024 + q.val; rw [e2]; omega
  | ⟨1, _⟩ => show win0_1.index t (1 : Fin 2) * 1024 + 1 * j.val = j.val; rw [e3]; omega

theorem blockprod0 (c : Dev nD) (t : Fin cfg0.N) (r' : Fin 1024) (j : Fin 1024) :
    ∑ q : Fin 1024, (Lblk0 V c t : S1024x1024.Idx → EReal) (ix2 r' q) * (Yblk0 V c t : S1024x1024.Idx → EReal) (ix2 q j)
      = ∑ q : Fin 1024, Lent0 V c (t.val / 10 * 1024 + r'.val) (t.val % 10 * 1024 + q.val) * Yent0 V c (t.val % 10 * 1024 + q.val) j.val :=
  Finset.sum_congr rfl fun q _ => by rw [Lblk0_apply, Yblk0_apply]

theorem acc0_first (c : Dev nD) (t : Fin cfg0.N) (h0 : t.val % 10 = 0) (r' : Fin 1024) (j : Fin 1024) :
    (accAt0 V c t.val t.isLt : S1024x1024.Idx → EReal) (ix2 r' j)
      = ∑ q : Fin 1024, (Lblk0 V c t : S1024x1024.Idx → EReal) (ix2 r' q) * (Yblk0 V c t : S1024x1024.Idx → EReal) (ix2 q j) := by
  have h1 : ¬t.val % 10 = 9 := by omega
  rw [accAt0_A V c t h0 h1]
  unfold accA0
  rw [sout0_A_eq, k0_pay2_apply, k0_pay1_apply, zero_add]

theorem acc0_step (c : Dev nD) (t : Fin cfg0.N) (h0 : ¬t.val % 10 = 0) (r' : Fin 1024) (j : Fin 1024) :
    (accAt0 V c t.val t.isLt : S1024x1024.Idx → EReal) (ix2 r' j)
      = ((accAt0 V c (t.val - 1) (Nat.lt_of_le_of_lt (Nat.sub_le _ _) t.isLt)) : S1024x1024.Idx → EReal) (ix2 r' j)
        + ∑ q : Fin 1024, (Lblk0 V c t : S1024x1024.Idx → EReal) (ix2 r' q) * (Yblk0 V c t : S1024x1024.Idx → EReal) (ix2 q j) := by
  by_cases h1 : t.val % 10 = 9
  · rw [accAt0_C V c t h0 h1]; unfold accC0; rw [sout0_C_eq, k0_pay2_apply]
  · rw [accAt0_B V c t h0 h1]; unfold accB0; rw [sout0_B_eq, k0_pay2_apply]

theorem res0_eq_acc (c : Dev nD) (t : Fin cfg0.N) (h1 : t.val % 10 = 9) : resAt0 V c t = accAt0 V c t.val t.isLt := by
  have h0 : ¬t.val % 10 = 0 := by omega
  rw [accAt0_C V c t h0 h1, show resAt0 V c t = resC0 V c t h0 h1 (accAt0 V c (t.val - 1) (Nat.lt_of_le_of_lt (Nat.sub_le _ _) t.isLt)) from dif_pos h1]
  unfold accC0 resC0
  rw [sout0_C_eq, out0_C_2_eq]

theorem acc0_eq (c : Dev nD) (r' : Fin 1024) (j : Fin 1024) : ∀ (n : ℕ) (hn : n < cfg0.N),
    (accAt0 V c n hn : S1024x1024.Idx → EReal) (ix2 r' j) = psum0 V c (n / 10 * 1024 + r'.val) j.val (n % 10 + 1) := by
  intro n
  induction n using Nat.strong_induction_on with
  | _ n ih =>
    intro hn
    by_cases h0 : n % 10 = 0
    · rw [acc0_first V c ⟨n, hn⟩ h0 r' j, blockprod0]
      unfold psum0
      rw [h0, Finset.sum_range_one]
    · have hm : n - 1 < cfg0.N := Nat.lt_of_le_of_lt (Nat.sub_le _ _) hn
      rw [acc0_step V c ⟨n, hn⟩ h0 r' j, blockprod0]
      have e := ih (n - 1) (by omega) hm
      rw [show (n - 1) / 10 = n / 10 from by omega, show (n - 1) % 10 + 1 = n % 10 from by omega] at e
      refine (congrArg (· + _) e).trans ?_
      unfold psum0
      rw [Finset.sum_range_succ]

abbrev G0 (c : Dev nD) : S10240x1024.Idx → EReal := fun i => psum0 V c (i 0).val (i 1).val 10

theorem mem_blk0 (t : Fin cfg0.N) (i : S10240x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole (Pipeline.arrRef spec0 2)).slice (win0_2.rect t)).set ↔ _
  rw [View.set_slice_whole, Rect.mem_set_unit]
  exact Iff.rfl

theorem flushed0_eq (c : Dev nD) (t : Fin cfg0.N) (hf : (cfg0.win 2).flush t = true) :
    (dat0 V c).flushed 2 t = ((cfg0.win 2).blk t).view.read (Elt Ideal) (G0 V c) := by
  have h9 : t.val % 10 = 9 := (flush0_2 t).mp hf
  have h0 : ¬t.val % 10 = 0 := by omega
  obtain ⟨e0, e1, e2, e3, e4, e5⟩ := idx_facts0 t
  show (dat0 V c).after 2 t = _
  rw [after0_2, res0_eq_acc V c t h9]
  funext y
  obtain ⟨r', j, rfl⟩ : ∃ (r' : Fin 1024) (j : Fin 1024), y = ix2 r' j := ⟨y 0, y 1, eq_ix2 y⟩
  rw [acc0_eq V c r' j t.val t.isLt, View.read_apply]
  show _ = psum0 V c (win0_2.index t (0 : Fin 2) * 1024 + 1 * r'.val) (win0_2.index t (1 : Fin 2) * 1024 + 1 * j.val) 10
  rw [e4, e5, h9, Nat.one_mul, Nat.one_mul, Nat.zero_mul, Nat.zero_add]

theorem arrAt0_apply (c : Dev nD) (r : Fin 10240) (j : Fin 1024) :
    let Lv : S10240x10240.Idx → EReal := V c main_v14
    let Yv : S10240x1024.Idx → EReal := V c main_v17
    ((dat0 V c).arrAt 2 cfg0.N : S10240x1024.Idx → EReal) (ix2 r j)
      = ∑ k : Fin 10, ∑ q : Fin 1024,
          Lv (ix2 r ⟨k.val * 1024 + q.val, by omega⟩) * Yv (ix2 ⟨k.val * 1024 + q.val, by omega⟩ j) := by
  intro Lv Yv
  have hr := r.isLt
  have hN : cfg0.N = 100 := N_0
  have ht : r.val / 1024 * 10 + 9 < cfg0.N := by rw [hN]; omega
  obtain ⟨e0, e1, e2, e3, e4, e5⟩ := idx_facts0 ⟨r.val / 1024 * 10 + 9, ht⟩
  have hmem : (ix2 r j : S10240x1024.Idx) ∈ ((cfg0.win 2).blk ⟨r.val / 1024 * 10 + 9, ht⟩).view.set := by
    rw [mem_blk0]
    intro a
    have hj := j.isLt
    match a with
    | ⟨0, _⟩ => show win0_2.index _ (0 : Fin 2) * 1024 ≤ r.val ∧ r.val < win0_2.index _ (0 : Fin 2) * 1024 + 1024; rw [e4]; dsimp only; omega
    | ⟨1, _⟩ => show win0_2.index _ (1 : Fin 2) * 1024 ≤ j.val ∧ j.val < win0_2.index _ (1 : Fin 2) * 1024 + 1024; rw [e5]; omega
  refine ((dat0 V c).arrAt_apply_of_mem 2 (G0 V c) (flushed0_eq V c) cfg0.N ⟨r.val / 1024 * 10 + 9, ht⟩ (ix2 r j) ht
    ((flush0_2 _).mpr (by dsimp only; omega)) hmem).trans ?_
  show psum0 V c r.val j.val 10 = _
  unfold psum0
  rw [Finset.sum_range]
  refine Finset.sum_congr rfl fun k _ => Finset.sum_congr rfl fun q _ => ?_
  have hk := k.isLt
  have hq := q.isLt
  unfold Lent0 Yent0
  rw [dif_pos ⟨hr, by omega⟩, dif_pos ⟨by omega, j.isLt⟩]

theorem reg0_value (c : Dev nD) (Lr : Fin 10240 → Fin 10240 → ℝ) (Yr : Fin 10240 → Fin 1024 → ℝ)
    (hL : ∀ r q : Fin 10240, (V c main_v14 : S10240x10240.Idx → EReal) (ix2 r q) = ((Lr r q : ℝ) : EReal))
    (hY : ∀ (n : Fin 10240) (j : Fin 1024), (V c main_v17 : S10240x1024.Idx → EReal) (ix2 n j) = ((Yr n j : ℝ) : EReal))
    (r : Fin 10240) (j : Fin 1024) :
    ((dat0 V c).arrAt 2 cfg0.N : S10240x1024.Idx → EReal) (ix2 r j) = ((mm Lr Yr r j : ℝ) : EReal) := by
  rw [arrAt0_apply]
  simp only [hL, hY, ← EReal.coe_mul, ← coe_sum]
  unfold mm
  exact congrArg _ (sum_blocks (fun q => Lr r q * Yr q j))

end Cert.KernelIdeal.Frame

end
-- ==== Proof.KI.Val1.lean ====
/- Over the extended reals the accumulator after point (i, k) is the sum of the first k + 1 block products of row block i, so the region leaves the matrix product of its two operand arrays. -/
import proofs.«416138_j67946382623286_1_alg».proof.Proof.KI.Reg1
import proofs.«416138_j67946382623286_1_alg».proof.Proof.Math
import proofs.«416138_j67946382623286_1_alg».proof.Proof.KI.Pay
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.KernelIdeal.Frame

open Cert.KernelIdeal Cert.KernelIdeal.Gen Cert.Math
open Idealize.ShloMosaic Idealize.ShloMosaic.TcCoe Idealize.ShloMosaic.ValueIdx Idealize.SL.Sem Idealize.ShloMosaic.Tactic
open Idealize.ShloMosaic.Pipeline (Dat)

variable (V : (c : Dev nD) → (b : Ref sig .tc) → Buf (Elt Ideal) ((c : Thread nD τ).loc b))

section pieces
variable {F : FTy → Type} [FloatOps F]

theorem zoff1 : (![0, 0] : Fin 2 → Nat) = fun _ => 0 := funext fun a => by fin_cases a <;> rfl

variable (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole)
  (x0 : Vec F S1024x1024 .f32) (x1 : Vec F S1024x1024 .f32)

theorem sout1_A_eq (hc0 : cond1_0 i) (hc1 : ¬cond1_1 i) : sout1_A c i arg2 harg2 arg3 harg3 arg4 harg4 arg5 harg5 x0 x1 hc0 hc1 = k1_pay2 x0 x1 k1_pay1 := by
  unfold sout1_A
  rw [View.read_writes_eq_canon _ _ _ (scover1_A c i arg2 harg2 arg3 harg3 arg4 harg4 arg5 harg5 x0 x1 hc0 hc1)]
  unfold kernelRun1_A
  dsimp only
  sl_unfold_words
  rw [View.canon_cons_unit_zero (S := S1024x1024) zoff1, View.readCov_unit_zero (S := S1024x1024) _ zoff1]
  simp only [View.readAt_eq_ld, harg2.read_unread, harg3.read_unread, View.ld_unit_zero (S := S1024x1024) zoff1, View.ld_unit_zero (S := S1024x1024) zoff1]

variable (hc0 : ¬cond1_0 i) (xs : Vec F S1024x1024 .f32)

theorem sout1_B_eq (hc1 : ¬cond1_1 i) : sout1_B c i arg2 harg2 arg3 harg3 arg4 harg4 arg5 harg5 x0 x1 hc0 xs hc1 = k1_pay2 x0 x1 xs := by
  unfold sout1_B
  rw [View.read_writes_eq_canon _ _ _ (scover1_B c i arg2 harg2 arg3 harg3 arg4 harg4 arg5 harg5 x0 x1 hc0 xs hc1)]
  unfold kernelRun1_B
  dsimp only
  sl_unfold_words
  rw [View.canon_unit_zero (S := S1024x1024) zoff1]
  simp only [View.readAt_eq_ld, harg2.read_unread, harg3.read_unread, harg5.read_unread, View.ld_unit_zero (S := S1024x1024) zoff1, View.ld_unit_zero (S := S1024x1024) zoff1]

variable (hc1 : cond1_1 i)

theorem sout1_C_eq : sout1_C c i arg2 harg2 arg3 harg3 arg4 harg4 arg5 harg5 x0 x1 hc0 xs hc1 = k1_pay2 x0 x1 xs := by
  unfold sout1_C
  rw [View.read_writes_eq_canon _ _ _ (scover1_C c i arg2 harg2 arg3 harg3 arg4 harg4 arg5 harg5 x0 x1 hc0 xs hc1)]
  unfold kernelRun1_C
  dsimp only
  sl_unfold_words
  rw [View.canon_unit_zero (S := S1024x1024) zoff1]
  simp only [View.readAt_eq_ld, harg2.read_unread, harg3.read_unread, harg5.read_unread, View.ld_unit_zero (S := S1024x1024) zoff1, View.ld_unit_zero (S := S1024x1024) zoff1]

theorem out1_C_2_eq : out1_C_2 c i arg2 harg2 arg3 harg3 arg4 harg4 arg5 harg5 x0 x1 hc0 xs hc1 = k1_pay2 x0 x1 xs := by
  unfold out1_C_2
  rw [View.read_writes_eq_canon _ _ _ (cover1_C_2 c i arg2 harg2 arg3 harg3 arg4 harg4 arg5 harg5 x0 x1 hc0 xs hc1)]
  unfold kernelRun1_C
  dsimp only
  sl_unfold_words
  rw [View.canon_unit_zero (S := S1024x1024) zoff1, View.readCov_unit_zero (S := S1024x1024) _ zoff1]
  simp only [View.readAt_eq_ld, harg2.read_unread, harg3.read_unread, harg5.read_unread, View.ld_unit_zero (S := S1024x1024) zoff1, View.ld_unit_zero (S := S1024x1024) zoff1]

end pieces

theorem idx_facts1 : ∀ t : Fin grid1.N,
    win1_0.index t (0 : Fin 2) = t.val / 10 ∧ win1_0.index t (1 : Fin 2) = t.val % 10
    ∧ win1_1.index t (0 : Fin 2) = t.val % 10 ∧ win1_1.index t (1 : Fin 2) = 0
    ∧ win1_2.index t (0 : Fin 2) = t.val / 10 ∧ win1_2.index t (1 : Fin 2) = 0 := by decide +kernel

def Lent1 (c : Dev nD) (a b : ℕ) : EReal :=
  if h : a < 10240 ∧ b < 10240 then (V c main_v14 : S10240x10240.Idx → EReal) (ix2 ⟨a, h.1⟩ ⟨b, h.2⟩) else 0

def Yent1 (c : Dev nD) (a b : ℕ) : EReal :=
  if h : a < 10240 ∧ b < 1024 then (V c main_v18 : S10240x1024.Idx → EReal) (ix2 ⟨a, h.1⟩ ⟨b, h.2⟩) else 0

def psum1 (c : Dev nD) (a b m : ℕ) : EReal :=
  ∑ k' ∈ Finset.range m, ∑ q : Fin 1024, Lent1 V c a (k' * 1024 + q.val) * Yent1 V c (k' * 1024 + q.val) b

abbrev Lblk1 (c : Dev nD) (t : Fin cfg1.N) : Vec Ideal S1024x1024 .f32 := iblk1 V c 0 t
abbrev Yblk1 (c : Dev nD) (t : Fin cfg1.N) : Vec Ideal S1024x1024 .f32 := iblk1 V c 1 t

theorem Lblk1_apply (c : Dev nD) (t : Fin cfg1.N) (r' q : Fin 1024) :
    (Lblk1 V c t : S1024x1024.Idx → EReal) (ix2 r' q) = Lent1 V c (t.val / 10 * 1024 + r'.val) (t.val % 10 * 1024 + q.val) := by
  obtain ⟨e0, e1, e2, e3, e4, e5⟩ := idx_facts1 t
  have hN : t.val < 100 := lt_of_lt_of_eq t.isLt (show cfg1.N = 100 from N_1)
  have hr := r'.isLt
  have hq := q.isLt
  unfold Lent1
  rw [dif_pos ⟨by omega, by omega⟩]
  show V c main_v14 (((cfg1.win 0).blk t).view.emb (ix2 r' q)) = V c main_v14 _
  refine congrArg _ ?_
  funext a; apply Fin.ext
  match a with
  | ⟨0, _⟩ => show win1_0.index t (0 : Fin 2) * 1024 + 1 * r'.val = t.val / 10 * 1024 + r'.val; rw [e0]; omega
  | ⟨1, _⟩ => show win1_0.index t (1 : Fin 2) * 1024 + 1 * q.val = t.val % 10 * 1024 + q.val; rw [e1]; omega

theorem Yblk1_apply (c : Dev nD) (t : Fin cfg1.N) (q : Fin 1024) (j : Fin 1024) :
    (Yblk1 V c t : S1024x1024.Idx → EReal) (ix2 q j) = Yent1 V c (t.val % 10 * 1024 + q.val) j.val := by
  obtain ⟨e0, e1, e2, e3, e4, e5⟩ := idx_facts1 t
  have hN : t.val < 100 := lt_of_lt_of_eq t.isLt (show cfg1.N = 100 from N_1)
  have hq := q.isLt
  have hj := j.isLt
  unfold Yent1
  rw [dif_pos ⟨by omega, by omega⟩]
  show V c main_v18 (((cfg1.win 1).blk t).view.emb (ix2 q j)) = V c main_v18 _
  refine congrArg _ ?_
  funext a; apply Fin.ext
  match a with
  | ⟨0, _⟩ => show win1_1.index t (0 : Fin 2) * 1024 + 1 * q.val = t.val % 10 * 1024 + q.val; rw [e2]; omega
  | ⟨1, _⟩ => show win1_1.index t (1 : Fin 2) * 1024 + 1 * j.val = j.val; rw [e3]; omega

theorem blockprod1 (c : Dev nD) (t : Fin cfg1.N) (r' : Fin 1024) (j : Fin 1024) :
    ∑ q : Fin 1024, (Lblk1 V c t : S1024x1024.Idx → EReal) (ix2 r' q) * (Yblk1 V c t : S1024x1024.Idx → EReal) (ix2 q j)
      = ∑ q : Fin 1024, Lent1 V c (t.val / 10 * 1024 + r'.val) (t.val % 10 * 1024 + q.val) * Yent1 V c (t.val % 10 * 1024 + q.val) j.val :=
  Finset.sum_congr rfl fun q _ => by rw [Lblk1_apply, Yblk1_apply]

theorem acc1_first (c : Dev nD) (t : Fin cfg1.N) (h0 : t.val % 10 = 0) (r' : Fin 1024) (j : Fin 1024) :
    (accAt1 V c t.val t.isLt : S1024x1024.Idx → EReal) (ix2 r' j)
      = ∑ q : Fin 1024, (Lblk1 V c t : S1024x1024.Idx → EReal) (ix2 r' q) * (Yblk1 V c t : S1024x1024.Idx → EReal) (ix2 q j) := by
  have h1 : ¬t.val % 10 = 9 := by omega
  rw [accAt1_A V c t h0 h1]
  unfold accA1
  rw [sout1_A_eq, k1_pay2_apply, k1_pay1_apply, zero_add]

theorem acc1_step (c : Dev nD) (t : Fin cfg1.N) (h0 : ¬t.val % 10 = 0) (r' : Fin 1024) (j : Fin 1024) :
    (accAt1 V c t.val t.isLt : S1024x1024.Idx → EReal) (ix2 r' j)
      = ((accAt1 V c (t.val - 1) (Nat.lt_of_le_of_lt (Nat.sub_le _ _) t.isLt)) : S1024x1024.Idx → EReal) (ix2 r' j)
        + ∑ q : Fin 1024, (Lblk1 V c t : S1024x1024.Idx → EReal) (ix2 r' q) * (Yblk1 V c t : S1024x1024.Idx → EReal) (ix2 q j) := by
  by_cases h1 : t.val % 10 = 9
  · rw [accAt1_C V c t h0 h1]; unfold accC1; rw [sout1_C_eq, k1_pay2_apply]
  · rw [accAt1_B V c t h0 h1]; unfold accB1; rw [sout1_B_eq, k1_pay2_apply]

theorem res1_eq_acc (c : Dev nD) (t : Fin cfg1.N) (h1 : t.val % 10 = 9) : resAt1 V c t = accAt1 V c t.val t.isLt := by
  have h0 : ¬t.val % 10 = 0 := by omega
  rw [accAt1_C V c t h0 h1, show resAt1 V c t = resC1 V c t h0 h1 (accAt1 V c (t.val - 1) (Nat.lt_of_le_of_lt (Nat.sub_le _ _) t.isLt)) from dif_pos h1]
  unfold accC1 resC1
  rw [sout1_C_eq, out1_C_2_eq]

theorem acc1_eq (c : Dev nD) (r' : Fin 1024) (j : Fin 1024) : ∀ (n : ℕ) (hn : n < cfg1.N),
    (accAt1 V c n hn : S1024x1024.Idx → EReal) (ix2 r' j) = psum1 V c (n / 10 * 1024 + r'.val) j.val (n % 10 + 1) := by
  intro n
  induction n using Nat.strong_induction_on with
  | _ n ih =>
    intro hn
    by_cases h0 : n % 10 = 0
    · rw [acc1_first V c ⟨n, hn⟩ h0 r' j, blockprod1]
      unfold psum1
      rw [h0, Finset.sum_range_one]
    · have hm : n - 1 < cfg1.N := Nat.lt_of_le_of_lt (Nat.sub_le _ _) hn
      rw [acc1_step V c ⟨n, hn⟩ h0 r' j, blockprod1]
      have e := ih (n - 1) (by omega) hm
      rw [show (n - 1) / 10 = n / 10 from by omega, show (n - 1) % 10 + 1 = n % 10 from by omega] at e
      refine (congrArg (· + _) e).trans ?_
      unfold psum1
      rw [Finset.sum_range_succ]

abbrev G1 (c : Dev nD) : S10240x1024.Idx → EReal := fun i => psum1 V c (i 0).val (i 1).val 10

theorem mem_blk1 (t : Fin cfg1.N) (i : S10240x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole (Pipeline.arrRef spec1 2)).slice (win1_2.rect t)).set ↔ _
  rw [View.set_slice_whole, Rect.mem_set_unit]
  exact Iff.rfl

theorem flushed1_eq (c : Dev nD) (t : Fin cfg1.N) (hf : (cfg1.win 2).flush t = true) :
    (dat1 V c).flushed 2 t = ((cfg1.win 2).blk t).view.read (Elt Ideal) (G1 V c) := by
  have h9 : t.val % 10 = 9 := (flush1_2 t).mp hf
  have h0 : ¬t.val % 10 = 0 := by omega
  obtain ⟨e0, e1, e2, e3, e4, e5⟩ := idx_facts1 t
  show (dat1 V c).after 2 t = _
  rw [after1_2, res1_eq_acc V c t h9]
  funext y
  obtain ⟨r', j, rfl⟩ : ∃ (r' : Fin 1024) (j : Fin 1024), y = ix2 r' j := ⟨y 0, y 1, eq_ix2 y⟩
  rw [acc1_eq V c r' j t.val t.isLt, View.read_apply]
  show _ = psum1 V c (win1_2.index t (0 : Fin 2) * 1024 + 1 * r'.val) (win1_2.index t (1 : Fin 2) * 1024 + 1 * j.val) 10
  rw [e4, e5, h9, Nat.one_mul, Nat.one_mul, Nat.zero_mul, Nat.zero_add]

theorem arrAt1_apply (c : Dev nD) (r : Fin 10240) (j : Fin 1024) :
    let Lv : S10240x10240.Idx → EReal := V c main_v14
    let Yv : S10240x1024.Idx → EReal := V c main_v18
    ((dat1 V c).arrAt 2 cfg1.N : S10240x1024.Idx → EReal) (ix2 r j)
      = ∑ k : Fin 10, ∑ q : Fin 1024,
          Lv (ix2 r ⟨k.val * 1024 + q.val, by omega⟩) * Yv (ix2 ⟨k.val * 1024 + q.val, by omega⟩ j) := by
  intro Lv Yv
  have hr := r.isLt
  have hN : cfg1.N = 100 := N_1
  have ht : r.val / 1024 * 10 + 9 < cfg1.N := by rw [hN]; omega
  obtain ⟨e0, e1, e2, e3, e4, e5⟩ := idx_facts1 ⟨r.val / 1024 * 10 + 9, ht⟩
  have hmem : (ix2 r j : S10240x1024.Idx) ∈ ((cfg1.win 2).blk ⟨r.val / 1024 * 10 + 9, ht⟩).view.set := by
    rw [mem_blk1]
    intro a
    have hj := j.isLt
    match a with
    | ⟨0, _⟩ => show win1_2.index _ (0 : Fin 2) * 1024 ≤ r.val ∧ r.val < win1_2.index _ (0 : Fin 2) * 1024 + 1024; rw [e4]; dsimp only; omega
    | ⟨1, _⟩ => show win1_2.index _ (1 : Fin 2) * 1024 ≤ j.val ∧ j.val < win1_2.index _ (1 : Fin 2) * 1024 + 1024; rw [e5]; omega
  refine ((dat1 V c).arrAt_apply_of_mem 2 (G1 V c) (flushed1_eq V c) cfg1.N ⟨r.val / 1024 * 10 + 9, ht⟩ (ix2 r j) ht
    ((flush1_2 _).mpr (by dsimp only; omega)) hmem).trans ?_
  show psum1 V c r.val j.val 10 = _
  unfold psum1
  rw [Finset.sum_range]
  refine Finset.sum_congr rfl fun k _ => Finset.sum_congr rfl fun q _ => ?_
  have hk := k.isLt
  have hq := q.isLt
  unfold Lent1 Yent1
  rw [dif_pos ⟨hr, by omega⟩, dif_pos ⟨by omega, j.isLt⟩]

theorem reg1_value (c : Dev nD) (Lr : Fin 10240 → Fin 10240 → ℝ) (Yr : Fin 10240 → Fin 1024 → ℝ)
    (hL : ∀ r q : Fin 10240, (V c main_v14 : S10240x10240.Idx → EReal) (ix2 r q) = ((Lr r q : ℝ) : EReal))
    (hY : ∀ (n : Fin 10240) (j : Fin 1024), (V c main_v18 : S10240x1024.Idx → EReal) (ix2 n j) = ((Yr n j : ℝ) : EReal))
    (r : Fin 10240) (j : Fin 1024) :
    ((dat1 V c).arrAt 2 cfg1.N : S10240x1024.Idx → EReal) (ix2 r j) = ((mm Lr Yr r j : ℝ) : EReal) := by
  rw [arrAt1_apply]
  simp only [hL, hY, ← EReal.coe_mul, ← coe_sum]
  unfold mm
  exact congrArg _ (sum_blocks (fun q => Lr r q * Yr q j))

end Cert.KernelIdeal.Frame

end
-- ==== Proof.KI.Val2.lean ====
/- Over the extended reals the accumulator after point (i, k) is the sum of the first k + 1 block products of row block i, so the region leaves the matrix product of its two operand arrays. -/
import proofs.«416138_j67946382623286_1_alg».proof.Proof.KI.Reg2
import proofs.«416138_j67946382623286_1_alg».proof.Proof.Math
import proofs.«416138_j67946382623286_1_alg».proof.Proof.KI.Pay
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.KernelIdeal.Frame

open Cert.KernelIdeal Cert.KernelIdeal.Gen Cert.Math
open Idealize.ShloMosaic Idealize.ShloMosaic.TcCoe Idealize.ShloMosaic.ValueIdx Idealize.SL.Sem Idealize.ShloMosaic.Tactic
open Idealize.ShloMosaic.Pipeline (Dat)

variable (V : (c : Dev nD) → (b : Ref sig .tc) → Buf (Elt Ideal) ((c : Thread nD τ).loc b))

section pieces
variable {F : FTy → Type} [FloatOps F]

theorem zoff2 : (![0, 0] : Fin 2 → Nat) = fun _ => 0 := funext fun a => by fin_cases a <;> rfl

variable (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
  (x0 : Vec F S1024x1024 .f32) (x1 : Vec F S1024x128 .f32)

theorem sout2_A_eq (hc0 : cond2_0 i) (hc1 : ¬cond2_1 i) : sout2_A c i arg2 harg2 arg3 harg3 arg4 harg4 arg5 harg5 x0 x1 hc0 hc1 = k2_pay2 x0 x1 k2_pay1 := by
  unfold sout2_A
  rw [View.read_writes_eq_canon _ _ _ (scover2_A c i arg2 harg2 arg3 harg3 arg4 harg4 arg5 harg5 x0 x1 hc0 hc1)]
  unfold kernelRun2_A
  dsimp only
  sl_unfold_words
  rw [View.canon_cons_unit_zero (S := S1024x128) zoff2, View.readCov_unit_zero (S := S1024x128) _ zoff2]
  simp only [View.readAt_eq_ld, harg2.read_unread, harg3.read_unread, View.ld_unit_zero (S := S1024x1024) zoff2, View.ld_unit_zero (S := S1024x128) zoff2]

variable (hc0 : ¬cond2_0 i) (xs : Vec F S1024x128 .f32)

theorem sout2_B_eq (hc1 : ¬cond2_1 i) : sout2_B c i arg2 harg2 arg3 harg3 arg4 harg4 arg5 harg5 x0 x1 hc0 xs hc1 = k2_pay2 x0 x1 xs := by
  unfold sout2_B
  rw [View.read_writes_eq_canon _ _ _ (scover2_B c i arg2 harg2 arg3 harg3 arg4 harg4 arg5 harg5 x0 x1 hc0 xs hc1)]
  unfold kernelRun2_B
  dsimp only
  sl_unfold_words
  rw [View.canon_unit_zero (S := S1024x128) zoff2]
  simp only [View.readAt_eq_ld, harg2.read_unread, harg3.read_unread, harg5.read_unread, View.ld_unit_zero (S := S1024x1024) zoff2, View.ld_unit_zero (S := S1024x128) zoff2]

variable (hc1 : cond2_1 i)

theorem sout2_C_eq : sout2_C c i arg2 harg2 arg3 harg3 arg4 harg4 arg5 harg5 x0 x1 hc0 xs hc1 = k2_pay2 x0 x1 xs := by
  unfold sout2_C
  rw [View.read_writes_eq_canon _ _ _ (scover2_C c i arg2 harg2 arg3 harg3 arg4 harg4 arg5 harg5 x0 x1 hc0 xs hc1)]
  unfold kernelRun2_C
  dsimp only
  sl_unfold_words
  rw [View.canon_unit_zero (S := S1024x128) zoff2]
  simp only [View.readAt_eq_ld, harg2.read_unread, harg3.read_unread, harg5.read_unread, View.ld_unit_zero (S := S1024x1024) zoff2, View.ld_unit_zero (S := S1024x128) zoff2]

theorem out2_C_2_eq : out2_C_2 c i arg2 harg2 arg3 harg3 arg4 harg4 arg5 harg5 x0 x1 hc0 xs hc1 = k2_pay2 x0 x1 xs := by
  unfold out2_C_2
  rw [View.read_writes_eq_canon _ _ _ (cover2_C_2 c i arg2 harg2 arg3 harg3 arg4 harg4 arg5 harg5 x0 x1 hc0 xs hc1)]
  unfold kernelRun2_C
  dsimp only
  sl_unfold_words
  rw [View.canon_unit_zero (S := S1024x128) zoff2, View.readCov_unit_zero (S := S1024x128) _ zoff2]
  simp only [View.readAt_eq_ld, harg2.read_unread, harg3.read_unread, harg5.read_unread, View.ld_unit_zero (S := S1024x1024) zoff2, View.ld_unit_zero (S := S1024x128) zoff2]

end pieces

theorem idx_facts2 : ∀ t : Fin grid2.N,
    win2_0.index t (0 : Fin 2) = t.val / 10 ∧ win2_0.index t (1 : Fin 2) = t.val % 10
    ∧ win2_1.index t (0 : Fin 2) = t.val % 10 ∧ win2_1.index t (1 : Fin 2) = 0
    ∧ win2_2.index t (0 : Fin 2) = t.val / 10 ∧ win2_2.index t (1 : Fin 2) = 0 := by decide +kernel

def Lent2 (c : Dev nD) (a b : ℕ) : EReal :=
  if h : a < 10240 ∧ b < 10240 then (V c main_v14 : S10240x10240.Idx → EReal) (ix2 ⟨a, h.1⟩ ⟨b, h.2⟩) else 0

def Yent2 (c : Dev nD) (a b : ℕ) : EReal :=
  if h : a < 10240 ∧ b < 128 then (V c main_v37 : S10240x128.Idx → EReal) (ix2 ⟨a, h.1⟩ ⟨b, h.2⟩) else 0

def psum2 (c : Dev nD) (a b m : ℕ) : EReal :=
  ∑ k' ∈ Finset.range m, ∑ q : Fin 1024, Lent2 V c a (k' * 1024 + q.val) * Yent2 V c (k' * 1024 + q.val) b

abbrev Lblk2 (c : Dev nD) (t : Fin cfg2.N) : Vec Ideal S1024x1024 .f32 := iblk2 V c 0 t
abbrev Yblk2 (c : Dev nD) (t : Fin cfg2.N) : Vec Ideal S1024x128 .f32 := iblk2 V c 1 t

theorem Lblk2_apply (c : Dev nD) (t : Fin cfg2.N) (r' q : Fin 1024) :
    (Lblk2 V c t : S1024x1024.Idx → EReal) (ix2 r' q) = Lent2 V c (t.val / 10 * 1024 + r'.val) (t.val % 10 * 1024 + q.val) := by
  obtain ⟨e0, e1, e2, e3, e4, e5⟩ := idx_facts2 t
  have hN : t.val < 100 := lt_of_lt_of_eq t.isLt (show cfg2.N = 100 from N_2)
  have hr := r'.isLt
  have hq := q.isLt
  unfold Lent2
  rw [dif_pos ⟨by omega, by omega⟩]
  show V c main_v14 (((cfg2.win 0).blk t).view.emb (ix2 r' q)) = V c main_v14 _
  refine congrArg _ ?_
  funext a; apply Fin.ext
  match a with
  | ⟨0, _⟩ => show win2_0.index t (0 : Fin 2) * 1024 + 1 * r'.val = t.val / 10 * 1024 + r'.val; rw [e0]; omega
  | ⟨1, _⟩ => show win2_0.index t (1 : Fin 2) * 1024 + 1 * q.val = t.val % 10 * 1024 + q.val; rw [e1]; omega

theorem Yblk2_apply (c : Dev nD) (t : Fin cfg2.N) (q : Fin 1024) (j : Fin 128) :
    (Yblk2 V c t : S1024x128.Idx → EReal) (ix2 q j) = Yent2 V c (t.val % 10 * 1024 + q.val) j.val := by
  obtain ⟨e0, e1, e2, e3, e4, e5⟩ := idx_facts2 t
  have hN : t.val < 100 := lt_of_lt_of_eq t.isLt (show cfg2.N = 100 from N_2)
  have hq := q.isLt
  have hj := j.isLt
  unfold Yent2
  rw [dif_pos ⟨by omega, by omega⟩]
  show V c main_v37 (((cfg2.win 1).blk t).view.emb (ix2 q j)) = V c main_v37 _
  refine congrArg _ ?_
  funext a; apply Fin.ext
  match a with
  | ⟨0, _⟩ => show win2_1.index t (0 : Fin 2) * 1024 + 1 * q.val = t.val % 10 * 1024 + q.val; rw [e2]; omega
  | ⟨1, _⟩ => show win2_1.index t (1 : Fin 2) * 128 + 1 * j.val = j.val; rw [e3]; omega

theorem blockprod2 (c : Dev nD) (t : Fin cfg2.N) (r' : Fin 1024) (j : Fin 128) :
    ∑ q : Fin 1024, (Lblk2 V c t : S1024x1024.Idx → EReal) (ix2 r' q) * (Yblk2 V c t : S1024x128.Idx → EReal) (ix2 q j)
      = ∑ q : Fin 1024, Lent2 V c (t.val / 10 * 1024 + r'.val) (t.val % 10 * 1024 + q.val) * Yent2 V c (t.val % 10 * 1024 + q.val) j.val :=
  Finset.sum_congr rfl fun q _ => by rw [Lblk2_apply, Yblk2_apply]

theorem acc2_first (c : Dev nD) (t : Fin cfg2.N) (h0 : t.val % 10 = 0) (r' : Fin 1024) (j : Fin 128) :
    (accAt2 V c t.val t.isLt : S1024x128.Idx → EReal) (ix2 r' j)
      = ∑ q : Fin 1024, (Lblk2 V c t : S1024x1024.Idx → EReal) (ix2 r' q) * (Yblk2 V c t : S1024x128.Idx → EReal) (ix2 q j) := by
  have h1 : ¬t.val % 10 = 9 := by omega
  rw [accAt2_A V c t h0 h1]
  unfold accA2
  rw [sout2_A_eq, k2_pay2_apply, k2_pay1_apply, zero_add]

theorem acc2_step (c : Dev nD) (t : Fin cfg2.N) (h0 : ¬t.val % 10 = 0) (r' : Fin 1024) (j : Fin 128) :
    (accAt2 V c t.val t.isLt : S1024x128.Idx → EReal) (ix2 r' j)
      = ((accAt2 V c (t.val - 1) (Nat.lt_of_le_of_lt (Nat.sub_le _ _) t.isLt)) : S1024x128.Idx → EReal) (ix2 r' j)
        + ∑ q : Fin 1024, (Lblk2 V c t : S1024x1024.Idx → EReal) (ix2 r' q) * (Yblk2 V c t : S1024x128.Idx → EReal) (ix2 q j) := by
  by_cases h1 : t.val % 10 = 9
  · rw [accAt2_C V c t h0 h1]; unfold accC2; rw [sout2_C_eq, k2_pay2_apply]
  · rw [accAt2_B V c t h0 h1]; unfold accB2; rw [sout2_B_eq, k2_pay2_apply]

theorem res2_eq_acc (c : Dev nD) (t : Fin cfg2.N) (h1 : t.val % 10 = 9) : resAt2 V c t = accAt2 V c t.val t.isLt := by
  have h0 : ¬t.val % 10 = 0 := by omega
  rw [accAt2_C V c t h0 h1, show resAt2 V c t = resC2 V c t h0 h1 (accAt2 V c (t.val - 1) (Nat.lt_of_le_of_lt (Nat.sub_le _ _) t.isLt)) from dif_pos h1]
  unfold accC2 resC2
  rw [sout2_C_eq, out2_C_2_eq]

theorem acc2_eq (c : Dev nD) (r' : Fin 1024) (j : Fin 128) : ∀ (n : ℕ) (hn : n < cfg2.N),
    (accAt2 V c n hn : S1024x128.Idx → EReal) (ix2 r' j) = psum2 V c (n / 10 * 1024 + r'.val) j.val (n % 10 + 1) := by
  intro n
  induction n using Nat.strong_induction_on with
  | _ n ih =>
    intro hn
    by_cases h0 : n % 10 = 0
    · rw [acc2_first V c ⟨n, hn⟩ h0 r' j, blockprod2]
      unfold psum2
      rw [h0, Finset.sum_range_one]
    · have hm : n - 1 < cfg2.N := Nat.lt_of_le_of_lt (Nat.sub_le _ _) hn
      rw [acc2_step V c ⟨n, hn⟩ h0 r' j, blockprod2]
      have e := ih (n - 1) (by omega) hm
      rw [show (n - 1) / 10 = n / 10 from by omega, show (n - 1) % 10 + 1 = n % 10 from by omega] at e
      refine (congrArg (· + _) e).trans ?_
      unfold psum2
      rw [Finset.sum_range_succ]

abbrev G2 (c : Dev nD) : S10240x128.Idx → EReal := fun i => psum2 V c (i 0).val (i 1).val 10

theorem mem_blk2 (t : Fin cfg2.N) (i : S10240x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole (Pipeline.arrRef spec2 2)).slice (win2_2.rect t)).set ↔ _
  rw [View.set_slice_whole, Rect.mem_set_unit]
  exact Iff.rfl

theorem flushed2_eq (c : Dev nD) (t : Fin cfg2.N) (hf : (cfg2.win 2).flush t = true) :
    (dat2 V c).flushed 2 t = ((cfg2.win 2).blk t).view.read (Elt Ideal) (G2 V c) := by
  have h9 : t.val % 10 = 9 := (flush2_2 t).mp hf
  have h0 : ¬t.val % 10 = 0 := by omega
  obtain ⟨e0, e1, e2, e3, e4, e5⟩ := idx_facts2 t
  show (dat2 V c).after 2 t = _
  rw [after2_2, res2_eq_acc V c t h9]
  funext y
  obtain ⟨r', j, rfl⟩ : ∃ (r' : Fin 1024) (j : Fin 128), y = ix2 r' j := ⟨y 0, y 1, eq_ix2 y⟩
  rw [acc2_eq V c r' j t.val t.isLt, View.read_apply]
  show _ = psum2 V c (win2_2.index t (0 : Fin 2) * 1024 + 1 * r'.val) (win2_2.index t (1 : Fin 2) * 128 + 1 * j.val) 10
  rw [e4, e5, h9, Nat.one_mul, Nat.one_mul, Nat.zero_mul, Nat.zero_add]

theorem arrAt2_apply (c : Dev nD) (r : Fin 10240) (j : Fin 128) :
    let Lv : S10240x10240.Idx → EReal := V c main_v14
    let Yv : S10240x128.Idx → EReal := V c main_v37
    ((dat2 V c).arrAt 2 cfg2.N : S10240x128.Idx → EReal) (ix2 r j)
      = ∑ k : Fin 10, ∑ q : Fin 1024,
          Lv (ix2 r ⟨k.val * 1024 + q.val, by omega⟩) * Yv (ix2 ⟨k.val * 1024 + q.val, by omega⟩ j) := by
  intro Lv Yv
  have hr := r.isLt
  have hN : cfg2.N = 100 := N_2
  have ht : r.val / 1024 * 10 + 9 < cfg2.N := by rw [hN]; omega
  obtain ⟨e0, e1, e2, e3, e4, e5⟩ := idx_facts2 ⟨r.val / 1024 * 10 + 9, ht⟩
  have hmem : (ix2 r j : S10240x128.Idx) ∈ ((cfg2.win 2).blk ⟨r.val / 1024 * 10 + 9, ht⟩).view.set := by
    rw [mem_blk2]
    intro a
    have hj := j.isLt
    match a with
    | ⟨0, _⟩ => show win2_2.index _ (0 : Fin 2) * 1024 ≤ r.val ∧ r.val < win2_2.index _ (0 : Fin 2) * 1024 + 1024; rw [e4]; dsimp only; omega
    | ⟨1, _⟩ => show win2_2.index _ (1 : Fin 2) * 128 ≤ j.val ∧ j.val < win2_2.index _ (1 : Fin 2) * 128 + 128; rw [e5]; omega
  refine ((dat2 V c).arrAt_apply_of_mem 2 (G2 V c) (flushed2_eq V c) cfg2.N ⟨r.val / 1024 * 10 + 9, ht⟩ (ix2 r j) ht
    ((flush2_2 _).mpr (by dsimp only; omega)) hmem).trans ?_
  show psum2 V c r.val j.val 10 = _
  unfold psum2
  rw [Finset.sum_range]
  refine Finset.sum_congr rfl fun k _ => Finset.sum_congr rfl fun q _ => ?_
  have hk := k.isLt
  have hq := q.isLt
  unfold Lent2 Yent2
  rw [dif_pos ⟨hr, by omega⟩, dif_pos ⟨by omega, j.isLt⟩]

theorem reg2_value (c : Dev nD) (Lr : Fin 10240 → Fin 10240 → ℝ) (Yr : Fin 10240 → Fin 128 → ℝ)
    (hL : ∀ r q : Fin 10240, (V c main_v14 : S10240x10240.Idx → EReal) (ix2 r q) = ((Lr r q : ℝ) : EReal))
    (hY : ∀ (n : Fin 10240) (j : Fin 128), (V c main_v37 : S10240x128.Idx → EReal) (ix2 n j) = ((Yr n j : ℝ) : EReal))
    (r : Fin 10240) (j : Fin 128) :
    ((dat2 V c).arrAt 2 cfg2.N : S10240x128.Idx → EReal) (ix2 r j) = ((mm Lr Yr r j : ℝ) : EReal) := by
  rw [arrAt2_apply]
  simp only [hL, hY, ← EReal.coe_mul, ← coe_sum]
  unfold mm
  exact congrArg _ (sum_blocks (fun q => Lr r q * Yr q j))

end Cert.KernelIdeal.Frame

end
-- ==== Proof.KI.Val3.lean ====
/- Over the extended reals the accumulator after point (i, k) is the sum of the first k + 1 block products of row block i, so the region leaves the matrix product of its two operand arrays. -/
import proofs.«416138_j67946382623286_1_alg».proof.Proof.KI.Reg3
import proofs.«416138_j67946382623286_1_alg».proof.Proof.Math
import proofs.«416138_j67946382623286_1_alg».proof.Proof.KI.Pay
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.KernelIdeal.Frame

open Cert.KernelIdeal Cert.KernelIdeal.Gen Cert.Math
open Idealize.ShloMosaic Idealize.ShloMosaic.TcCoe Idealize.ShloMosaic.ValueIdx Idealize.SL.Sem Idealize.ShloMosaic.Tactic
open Idealize.ShloMosaic.Pipeline (Dat)

variable (V : (c : Dev nD) → (b : Ref sig .tc) → Buf (Elt Ideal) ((c : Thread nD τ).loc b))

section pieces
variable {F : FTy → Type} [FloatOps F]

theorem zoff3 : (![0, 0] : Fin 2 → Nat) = fun _ => 0 := funext fun a => by fin_cases a <;> rfl

variable (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
  (x0 : Vec F S1024x1024 .f32) (x1 : Vec F S1024x128 .f32)

theorem sout3_A_eq (hc0 : cond3_0 i) (hc1 : ¬cond3_1 i) : sout3_A c i arg2 harg2 arg3 harg3 arg4 harg4 arg5 harg5 x0 x1 hc0 hc1 = k3_pay2 x0 x1 k3_pay1 := by
  unfold sout3_A
  rw [View.read_writes_eq_canon _ _ _ (scover3_A c i arg2 harg2 arg3 harg3 arg4 harg4 arg5 harg5 x0 x1 hc0 hc1)]
  unfold kernelRun3_A
  dsimp only
  sl_unfold_words
  rw [View.canon_cons_unit_zero (S := S1024x128) zoff3, View.readCov_unit_zero (S := S1024x128) _ zoff3]
  simp only [View.readAt_eq_ld, harg2.read_unread, harg3.read_unread, View.ld_unit_zero (S := S1024x1024) zoff3, View.ld_unit_zero (S := S1024x128) zoff3]

variable (hc0 : ¬cond3_0 i) (xs : Vec F S1024x128 .f32)

theorem sout3_B_eq (hc1 : ¬cond3_1 i) : sout3_B c i arg2 harg2 arg3 harg3 arg4 harg4 arg5 harg5 x0 x1 hc0 xs hc1 = k3_pay2 x0 x1 xs := by
  unfold sout3_B
  rw [View.read_writes_eq_canon _ _ _ (scover3_B c i arg2 harg2 arg3 harg3 arg4 harg4 arg5 harg5 x0 x1 hc0 xs hc1)]
  unfold kernelRun3_B
  dsimp only
  sl_unfold_words
  rw [View.canon_unit_zero (S := S1024x128) zoff3]
  simp only [View.readAt_eq_ld, harg2.read_unread, harg3.read_unread, harg5.read_unread, View.ld_unit_zero (S := S1024x1024) zoff3, View.ld_unit_zero (S := S1024x128) zoff3]

variable (hc1 : cond3_1 i)

theorem sout3_C_eq : sout3_C c i arg2 harg2 arg3 harg3 arg4 harg4 arg5 harg5 x0 x1 hc0 xs hc1 = k3_pay2 x0 x1 xs := by
  unfold sout3_C
  rw [View.read_writes_eq_canon _ _ _ (scover3_C c i arg2 harg2 arg3 harg3 arg4 harg4 arg5 harg5 x0 x1 hc0 xs hc1)]
  unfold kernelRun3_C
  dsimp only
  sl_unfold_words
  rw [View.canon_unit_zero (S := S1024x128) zoff3]
  simp only [View.readAt_eq_ld, harg2.read_unread, harg3.read_unread, harg5.read_unread, View.ld_unit_zero (S := S1024x1024) zoff3, View.ld_unit_zero (S := S1024x128) zoff3]

theorem out3_C_2_eq : out3_C_2 c i arg2 harg2 arg3 harg3 arg4 harg4 arg5 harg5 x0 x1 hc0 xs hc1 = k3_pay2 x0 x1 xs := by
  unfold out3_C_2
  rw [View.read_writes_eq_canon _ _ _ (cover3_C_2 c i arg2 harg2 arg3 harg3 arg4 harg4 arg5 harg5 x0 x1 hc0 xs hc1)]
  unfold kernelRun3_C
  dsimp only
  sl_unfold_words
  rw [View.canon_unit_zero (S := S1024x128) zoff3, View.readCov_unit_zero (S := S1024x128) _ zoff3]
  simp only [View.readAt_eq_ld, harg2.read_unread, harg3.read_unread, harg5.read_unread, View.ld_unit_zero (S := S1024x1024) zoff3, View.ld_unit_zero (S := S1024x128) zoff3]

end pieces

theorem idx_facts3 : ∀ t : Fin grid3.N,
    win3_0.index t (0 : Fin 2) = t.val / 10 ∧ win3_0.index t (1 : Fin 2) = t.val % 10
    ∧ win3_1.index t (0 : Fin 2) = t.val % 10 ∧ win3_1.index t (1 : Fin 2) = 0
    ∧ win3_2.index t (0 : Fin 2) = t.val / 10 ∧ win3_2.index t (1 : Fin 2) = 0 := by decide +kernel

def Lent3 (c : Dev nD) (a b : ℕ) : EReal :=
  if h : a < 10240 ∧ b < 10240 then (V c main_v14 : S10240x10240.Idx → EReal) (ix2 ⟨a, h.1⟩ ⟨b, h.2⟩) else 0

def Yent3 (c : Dev nD) (a b : ℕ) : EReal :=
  if h : a < 10240 ∧ b < 128 then (V c main_v38 : S10240x128.Idx → EReal) (ix2 ⟨a, h.1⟩ ⟨b, h.2⟩) else 0

def psum3 (c : Dev nD) (a b m : ℕ) : EReal :=
  ∑ k' ∈ Finset.range m, ∑ q : Fin 1024, Lent3 V c a (k' * 1024 + q.val) * Yent3 V c (k' * 1024 + q.val) b

abbrev Lblk3 (c : Dev nD) (t : Fin cfg3.N) : Vec Ideal S1024x1024 .f32 := iblk3 V c 0 t
abbrev Yblk3 (c : Dev nD) (t : Fin cfg3.N) : Vec Ideal S1024x128 .f32 := iblk3 V c 1 t

theorem Lblk3_apply (c : Dev nD) (t : Fin cfg3.N) (r' q : Fin 1024) :
    (Lblk3 V c t : S1024x1024.Idx → EReal) (ix2 r' q) = Lent3 V c (t.val / 10 * 1024 + r'.val) (t.val % 10 * 1024 + q.val) := by
  obtain ⟨e0, e1, e2, e3, e4, e5⟩ := idx_facts3 t
  have hN : t.val < 100 := lt_of_lt_of_eq t.isLt (show cfg3.N = 100 from N_3)
  have hr := r'.isLt
  have hq := q.isLt
  unfold Lent3
  rw [dif_pos ⟨by omega, by omega⟩]
  show V c main_v14 (((cfg3.win 0).blk t).view.emb (ix2 r' q)) = V c main_v14 _
  refine congrArg _ ?_
  funext a; apply Fin.ext
  match a with
  | ⟨0, _⟩ => show win3_0.index t (0 : Fin 2) * 1024 + 1 * r'.val = t.val / 10 * 1024 + r'.val; rw [e0]; omega
  | ⟨1, _⟩ => show win3_0.index t (1 : Fin 2) * 1024 + 1 * q.val = t.val % 10 * 1024 + q.val; rw [e1]; omega

theorem Yblk3_apply (c : Dev nD) (t : Fin cfg3.N) (q : Fin 1024) (j : Fin 128) :
    (Yblk3 V c t : S1024x128.Idx → EReal) (ix2 q j) = Yent3 V c (t.val % 10 * 1024 + q.val) j.val := by
  obtain ⟨e0, e1, e2, e3, e4, e5⟩ := idx_facts3 t
  have hN : t.val < 100 := lt_of_lt_of_eq t.isLt (show cfg3.N = 100 from N_3)
  have hq := q.isLt
  have hj := j.isLt
  unfold Yent3
  rw [dif_pos ⟨by omega, by omega⟩]
  show V c main_v38 (((cfg3.win 1).blk t).view.emb (ix2 q j)) = V c main_v38 _
  refine congrArg _ ?_
  funext a; apply Fin.ext
  match a with
  | ⟨0, _⟩ => show win3_1.index t (0 : Fin 2) * 1024 + 1 * q.val = t.val % 10 * 1024 + q.val; rw [e2]; omega
  | ⟨1, _⟩ => show win3_1.index t (1 : Fin 2) * 128 + 1 * j.val = j.val; rw [e3]; omega

theorem blockprod3 (c : Dev nD) (t : Fin cfg3.N) (r' : Fin 1024) (j : Fin 128) :
    ∑ q : Fin 1024, (Lblk3 V c t : S1024x1024.Idx → EReal) (ix2 r' q) * (Yblk3 V c t : S1024x128.Idx → EReal) (ix2 q j)
      = ∑ q : Fin 1024, Lent3 V c (t.val / 10 * 1024 + r'.val) (t.val % 10 * 1024 + q.val) * Yent3 V c (t.val % 10 * 1024 + q.val) j.val :=
  Finset.sum_congr rfl fun q _ => by rw [Lblk3_apply, Yblk3_apply]

theorem acc3_first (c : Dev nD) (t : Fin cfg3.N) (h0 : t.val % 10 = 0) (r' : Fin 1024) (j : Fin 128) :
    (accAt3 V c t.val t.isLt : S1024x128.Idx → EReal) (ix2 r' j)
      = ∑ q : Fin 1024, (Lblk3 V c t : S1024x1024.Idx → EReal) (ix2 r' q) * (Yblk3 V c t : S1024x128.Idx → EReal) (ix2 q j) := by
  have h1 : ¬t.val % 10 = 9 := by omega
  rw [accAt3_A V c t h0 h1]
  unfold accA3
  rw [sout3_A_eq, k3_pay2_apply, k3_pay1_apply, zero_add]

theorem acc3_step (c : Dev nD) (t : Fin cfg3.N) (h0 : ¬t.val % 10 = 0) (r' : Fin 1024) (j : Fin 128) :
    (accAt3 V c t.val t.isLt : S1024x128.Idx → EReal) (ix2 r' j)
      = ((accAt3 V c (t.val - 1) (Nat.lt_of_le_of_lt (Nat.sub_le _ _) t.isLt)) : S1024x128.Idx → EReal) (ix2 r' j)
        + ∑ q : Fin 1024, (Lblk3 V c t : S1024x1024.Idx → EReal) (ix2 r' q) * (Yblk3 V c t : S1024x128.Idx → EReal) (ix2 q j) := by
  by_cases h1 : t.val % 10 = 9
  · rw [accAt3_C V c t h0 h1]; unfold accC3; rw [sout3_C_eq, k3_pay2_apply]
  · rw [accAt3_B V c t h0 h1]; unfold accB3; rw [sout3_B_eq, k3_pay2_apply]

theorem res3_eq_acc (c : Dev nD) (t : Fin cfg3.N) (h1 : t.val % 10 = 9) : resAt3 V c t = accAt3 V c t.val t.isLt := by
  have h0 : ¬t.val % 10 = 0 := by omega
  rw [accAt3_C V c t h0 h1, show resAt3 V c t = resC3 V c t h0 h1 (accAt3 V c (t.val - 1) (Nat.lt_of_le_of_lt (Nat.sub_le _ _) t.isLt)) from dif_pos h1]
  unfold accC3 resC3
  rw [sout3_C_eq, out3_C_2_eq]

theorem acc3_eq (c : Dev nD) (r' : Fin 1024) (j : Fin 128) : ∀ (n : ℕ) (hn : n < cfg3.N),
    (accAt3 V c n hn : S1024x128.Idx → EReal) (ix2 r' j) = psum3 V c (n / 10 * 1024 + r'.val) j.val (n % 10 + 1) := by
  intro n
  induction n using Nat.strong_induction_on with
  | _ n ih =>
    intro hn
    by_cases h0 : n % 10 = 0
    · rw [acc3_first V c ⟨n, hn⟩ h0 r' j, blockprod3]
      unfold psum3
      rw [h0, Finset.sum_range_one]
    · have hm : n - 1 < cfg3.N := Nat.lt_of_le_of_lt (Nat.sub_le _ _) hn
      rw [acc3_step V c ⟨n, hn⟩ h0 r' j, blockprod3]
      have e := ih (n - 1) (by omega) hm
      rw [show (n - 1) / 10 = n / 10 from by omega, show (n - 1) % 10 + 1 = n % 10 from by omega] at e
      refine (congrArg (· + _) e).trans ?_
      unfold psum3
      rw [Finset.sum_range_succ]

abbrev G3 (c : Dev nD) : S10240x128.Idx → EReal := fun i => psum3 V c (i 0).val (i 1).val 10

theorem mem_blk3 (t : Fin cfg3.N) (i : S10240x128.Idx) :
    i ∈ ((cfg3.win 2).blk t).view.set ↔ ∀ a : Fin 2, win3_2.index t a * S1024x128.size a ≤ (i a).val ∧ (i a).val < win3_2.index t a * S1024x128.size a + S1024x128.size a := by
  show i ∈ ((View.whole (Pipeline.arrRef spec3 2)).slice (win3_2.rect t)).set ↔ _
  rw [View.set_slice_whole, Rect.mem_set_unit]
  exact Iff.rfl

theorem flushed3_eq (c : Dev nD) (t : Fin cfg3.N) (hf : (cfg3.win 2).flush t = true) :
    (dat3 V c).flushed 2 t = ((cfg3.win 2).blk t).view.read (Elt Ideal) (G3 V c) := by
  have h9 : t.val % 10 = 9 := (flush3_2 t).mp hf
  have h0 : ¬t.val % 10 = 0 := by omega
  obtain ⟨e0, e1, e2, e3, e4, e5⟩ := idx_facts3 t
  show (dat3 V c).after 2 t = _
  rw [after3_2, res3_eq_acc V c t h9]
  funext y
  obtain ⟨r', j, rfl⟩ : ∃ (r' : Fin 1024) (j : Fin 128), y = ix2 r' j := ⟨y 0, y 1, eq_ix2 y⟩
  rw [acc3_eq V c r' j t.val t.isLt, View.read_apply]
  show _ = psum3 V c (win3_2.index t (0 : Fin 2) * 1024 + 1 * r'.val) (win3_2.index t (1 : Fin 2) * 128 + 1 * j.val) 10
  rw [e4, e5, h9, Nat.one_mul, Nat.one_mul, Nat.zero_mul, Nat.zero_add]

theorem arrAt3_apply (c : Dev nD) (r : Fin 10240) (j : Fin 128) :
    let Lv : S10240x10240.Idx → EReal := V c main_v14
    let Yv : S10240x128.Idx → EReal := V c main_v38
    ((dat3 V c).arrAt 2 cfg3.N : S10240x128.Idx → EReal) (ix2 r j)
      = ∑ k : Fin 10, ∑ q : Fin 1024,
          Lv (ix2 r ⟨k.val * 1024 + q.val, by omega⟩) * Yv (ix2 ⟨k.val * 1024 + q.val, by omega⟩ j) := by
  intro Lv Yv
  have hr := r.isLt
  have hN : cfg3.N = 100 := N_3
  have ht : r.val / 1024 * 10 + 9 < cfg3.N := by rw [hN]; omega
  obtain ⟨e0, e1, e2, e3, e4, e5⟩ := idx_facts3 ⟨r.val / 1024 * 10 + 9, ht⟩
  have hmem : (ix2 r j : S10240x128.Idx) ∈ ((cfg3.win 2).blk ⟨r.val / 1024 * 10 + 9, ht⟩).view.set := by
    rw [mem_blk3]
    intro a
    have hj := j.isLt
    match a with
    | ⟨0, _⟩ => show win3_2.index _ (0 : Fin 2) * 1024 ≤ r.val ∧ r.val < win3_2.index _ (0 : Fin 2) * 1024 + 1024; rw [e4]; dsimp only; omega
    | ⟨1, _⟩ => show win3_2.index _ (1 : Fin 2) * 128 ≤ j.val ∧ j.val < win3_2.index _ (1 : Fin 2) * 128 + 128; rw [e5]; omega
  refine ((dat3 V c).arrAt_apply_of_mem 2 (G3 V c) (flushed3_eq V c) cfg3.N ⟨r.val / 1024 * 10 + 9, ht⟩ (ix2 r j) ht
    ((flush3_2 _).mpr (by dsimp only; omega)) hmem).trans ?_
  show psum3 V c r.val j.val 10 = _
  unfold psum3
  rw [Finset.sum_range]
  refine Finset.sum_congr rfl fun k _ => Finset.sum_congr rfl fun q _ => ?_
  have hk := k.isLt
  have hq := q.isLt
  unfold Lent3 Yent3
  rw [dif_pos ⟨hr, by omega⟩, dif_pos ⟨by omega, j.isLt⟩]

theorem reg3_value (c : Dev nD) (Lr : Fin 10240 → Fin 10240 → ℝ) (Yr : Fin 10240 → Fin 128 → ℝ)
    (hL : ∀ r q : Fin 10240, (V c main_v14 : S10240x10240.Idx → EReal) (ix2 r q) = ((Lr r q : ℝ) : EReal))
    (hY : ∀ (n : Fin 10240) (j : Fin 128), (V c main_v38 : S10240x128.Idx → EReal) (ix2 n j) = ((Yr n j : ℝ) : EReal))
    (r : Fin 10240) (j : Fin 128) :
    ((dat3 V c).arrAt 2 cfg3.N : S10240x128.Idx → EReal) (ix2 r j) = ((mm Lr Yr r j : ℝ) : EReal) := by
  rw [arrAt3_apply]
  simp only [hL, hY, ← EReal.coe_mul, ← coe_sum]
  unfold mm
  exact congrArg _ (sum_blocks (fun q => Lr r q * Yr q j))

end Cert.KernelIdeal.Frame

end
-- ==== Proof.KArgs.lean ====
/- The kernel's seven argument arrays on a core with their literal types, and their entries as real numbers under the precondition. -/
import proofs.«416138_j67946382623286_1_alg».proof.Proof.Gen.KernelIdeal.Regions
import proofs.«416138_j67946382623286_1_alg».proof.Proof.Spec

noncomputable section

namespace Cert.KSide

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

abbrev ax : S8x10000x128.Idx → EReal := m ((c.tc : Thread nD τ).loc main_arg0)

abbrev arows : S160000.Idx → BitVec 32 := m ((c.tc : Thread nD τ).loc main_arg1)
abbrev acols : S160000.Idx → BitVec 32 := m ((c.tc : Thread nD τ).loc main_arg2)

abbrev avals : S160000.Idx → EReal := m ((c.tc : Thread nD τ).loc main_arg3)

abbrev aw1 : S384x1.Idx → EReal := m ((c.tc : Thread nD τ).loc main_arg4)
abbrev aw2 : S3x1.Idx → EReal := m ((c.tc : Thread nD τ).loc main_arg5)
abbrev ab : S1x1x1.Idx → EReal := m ((c.tc : Thread nD τ).loc main_arg6)

abbrev OkK : Prop := Cert.Spec.Ok (ax m c) (arows m c) (acols m c) (avals m c) (aw1 m c) (aw2 m c) (ab m c)

abbrev gK : Cert.Spec.Graph := Cert.Spec.graphOf (arows m c) (acols m c) (avals m c)
def xR : Fin 8 → Fin 10000 → Fin 128 → ℝ := fun bb n f => (ax m c (ix3 bb n f)).toReal
def w1R : Fin 384 → ℝ := fun j => (aw1 m c (ix2 j (0 : Fin 1))).toReal
def w2R : Fin 3 → ℝ := fun k => (aw2 m c (ix2 k (0 : Fin 1))).toReal
def bR : ℝ := (ab m c (ix3 (0 : Fin 1) (0 : Fin 1) (0 : Fin 1))).toReal

abbrev X1 : Fin 10000 → Fin 1024 → ℝ := Cert.Spec.feat1 (xR m c)

abbrev H1 : Fin 8 → Fin 10000 → ℝ := Cert.Spec.layer1 (gK m c) (X1 m c) (w1R m c) (bR m c)
abbrev X2 : Fin 10000 → Fin 8 → ℝ := Cert.Spec.feat2 (H1 m c)

theorem G_apply (i : S8x10000.Idx) :
    Cert.Spec.G (ax m c) (arows m c) (acols m c) (avals m c) (aw1 m c) (aw2 m c) (ab m c) i
      = ((Cert.Spec.layer2 (gK m c) (X2 m c) (w2R m c) (bR m c) (i 0) (i 1) : ℝ) : EReal) := rfl

end Cert.KSide

end
-- ==== Proof.KHost0.lean ====
/- The host operations before the first product, read at an index: the padded, transposed input as the first right operand. -/
import proofs.«416138_j67946382623286_1_alg».proof.Proof.KArgs
import proofs.«416138_j67946382623286_1_alg».proof.Proof.Math
import Idealize.ShloMosaic.Lib.KernelVsHost
import Idealize.ShloMosaic.Lib.StableHlo.Run
import Idealize.ShloMosaic.Lib.Pipeline.Value

noncomputable section

open scoped BigOperators

namespace Cert.KSide

open Cert.KernelIdeal Cert.KernelIdeal.Gen Cert.Spec Cert.Math
open Idealize.ShloMosaic Idealize.ShloMosaic.TcCoe Idealize.ShloMosaic.ValueIdx Idealize.SL.Sem

variable (m : (ℓ : Loc nD τ sig) → Buf (Elt Ideal) ℓ) (c : Dev nD)

def X1p : Fin 10240 → Fin 1024 → ℝ := fun n j => if h : n.val < 10000 then X1 m c ⟨n.val, h⟩ j else 0

theorem X1p_up (n : Fin 10000) (j : Fin 1024) : X1p m c (up n) j = X1 m c n j := by
  unfold X1p; rw [dif_pos n.isLt]

private abbrev xPadded : S8x10240x128.Idx → EReal :=
  pad S8x10240x128 ![0, 0, 0] ![0, 240, 0] ![0, 0, 0] (ax m c)
    (sitofp (F := Ideal) .f32 (constantI S_ 32 0#32))
    pads_S8x10000x128_S8x10240x128_000_02400_000 h_S_

private theorem V3_v17_eq :
    (V3 m c main_v17 : S10240x1024.Idx → EReal)
      = shapeCast S10240x1024
          (transpose S10240x128x8 [1, 2, 0] (xPadded m c) transposes_S8x10240x128_S10240x128x8_1_2_0)
          shapeCasts_S10240x128x8_S10240x1024 := by
  dsimp only [V3, V2, V1, V0]
  open StableHlo in after_results
  rfl

private theorem xPadded_inside (bb : Fin 8) (n : Fin 10240) (f : Fin 128) (h : n.val < 10000) :
    xPadded m c (ix3 bb n f) = ax m c (ix3 bb (⟨n.val, h⟩ : Fin 10000) f) := by
  refine pad_apply_of_inside _ _ _ _ _ _ _ (ix3 bb n f) (ix3 bb (⟨n.val, h⟩ : Fin 10000) f) (fun a => ?_)
  match a with
  | ⟨0, _⟩ => show bb.val = 0 + bb.val * (0 + 1); omega
  | ⟨1, _⟩ => show n.val = 0 + n.val * (0 + 1); omega
  | ⟨2, _⟩ => show f.val = 0 + f.val * (0 + 1); omega

private theorem xPadded_outside (bb : Fin 8) (n : Fin 10240) (f : Fin 128) (h : ¬ n.val < 10000) :
    xPadded m c (ix3 bb n f) = 0 := by
  refine (pad_apply_of_not_inside _ _ _ _ _ _ _ (ix3 bb n f) (1 : Fin 3) (fun hin => h ?_)).trans ?_
  · have h3 : (n.val - 0) / (0 + 1) < 10000 := hin.2.2
    omega
  · exact sitofp_zero (φ := .f32)

theorem V3_X (hok : OkK m c) (n : Fin 10240) (j : Fin 1024) :
    (V3 m c main_v17 : S10240x1024.Idx → EReal) (ix2 n j) = ((X1p m c n j : ℝ) : EReal) := by
  have hj : j.val < 1024 := j.isLt
  have hn : n.val < 10240 := n.isLt
  rw [V3_v17_eq]

  refine (shapeCast_apply _ _ (ix2 n j)
    (ix3 n (⟨j.val / 8, by omega⟩ : Fin 128) (⟨j.val % 8, Nat.mod_lt _ (by norm_num)⟩ : Fin 8))
    (by rw [Shape.rowMajor_val_two, Shape.rowMajor_val_three]
        show (n.val * 128 + j.val / 8) * 8 + j.val % 8 = n.val * 1024 + j.val
        omega)).trans ?_

  refine (transpose_apply _ _ _ _
    (ix3 (⟨j.val % 8, Nat.mod_lt _ (by norm_num)⟩ : Fin 8) n (⟨j.val / 8, by omega⟩ : Fin 128))
    (fun b => match b with | ⟨0, _⟩ => rfl | ⟨1, _⟩ => rfl | ⟨2, _⟩ => rfl)).trans ?_
  unfold X1p
  by_cases h : n.val < 10000
  ·
    rw [dif_pos h, xPadded_inside m c _ n _ h]
    exact hok.x_real _
  ·
    rw [dif_neg h, xPadded_outside m c _ n _ h]
    rfl

end Cert.KSide

end
-- ==== Proof.LibScatter2.lean ====
/- Accumulation at index pairs zeros.at[rows, cols].add(u), read at an index. -/
import Idealize.ShloMosaic.PureOps.Ideal
import Idealize.ShloMosaic.Lib.ValueIdx
import Idealize.ShloMosaic.Lib.ValueIdxRank1

noncomputable section

open scoped BigOperators

namespace Cert.Lib.Scatter2

open Idealize.ShloMosaic Idealize.ShloMosaic.ValueIdx

private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro h a
    split at h
    · rename_i hr
      have hv : (d.start j idx a + (d.window j a : Int)).toNat = (i a).val :=
        congrArg Fin.val (congrFun (Option.some.inj h) a)
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    show (d.start j idx a + (d.window j a : Int)).toNat = (i a).val
    have := h a
    omega

private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

abbrev scatter2Dims (N M K : Nat)
    (wf : ScatterDims.WF ⟨2, ![N, M]⟩ ⟨2, ![K, 2]⟩ ⟨1, ![K]⟩ [] [0, 1] [0, 1] 1) :
    ScatterDims ⟨2, ![N, M]⟩ ⟨2, ![K, 2]⟩ ⟨1, ![K]⟩ where
  updateWindowDims := []
  insertedWindowDims := [0, 1]
  scatterDimsToOperandDims := [0, 1]
  indexVectorDim := 1
  wf := wf

private theorem pairs_start0 {N M K w : Nat}
    (wf : ScatterDims.WF ⟨2, ![N, M]⟩ ⟨2, ![K, 2]⟩ ⟨1, ![K]⟩ [] [0, 1] [0, 1] 1)
    (idx : IVec ⟨2, ![K, 2]⟩ w) (k : Fin K) :
    (scatter2Dims N M K wf).start (ix1 k) idx (0 : Fin 2) = (idx (ix2 k (0 : Fin 2))).toInt := by
  have hmem : (0 : Fin 2) ∈ (scatter2Dims N M K wf).scatterDimsToOperandDims :=
    List.mem_cons.mpr (Or.inl rfl)
  unfold ScatterDims.start
  rw [dif_pos hmem]
  have hsi : (scatter2Dims N M K wf).siIdx (ix1 k)
      ⟨List.idxOf (0 : Fin 2) (scatter2Dims N M K wf).scatterDimsToOperandDims,
        List.idxOf_lt_length_iff.2 hmem⟩ = ix2 k (0 : Fin 2) := by
    funext b; refine Fin.ext ?_
    match b with
    | ⟨0, _⟩ => rfl
    | ⟨1, _⟩ => rfl
  rw [hsi]

private theorem pairs_start1 {N M K w : Nat}
    (wf : ScatterDims.WF ⟨2, ![N, M]⟩ ⟨2, ![K, 2]⟩ ⟨1, ![K]⟩ [] [0, 1] [0, 1] 1)
    (idx : IVec ⟨2, ![K, 2]⟩ w) (k : Fin K) :
    (scatter2Dims N M K wf).start (ix1 k) idx (1 : Fin 2) = (idx (ix2 k (1 : Fin 2))).toInt := by
  have hmem : (1 : Fin 2) ∈ (scatter2Dims N M K wf).scatterDimsToOperandDims :=
    List.mem_cons.mpr (Or.inr (List.mem_singleton.mpr rfl))
  unfold ScatterDims.start
  rw [dif_pos hmem]
  have hsi : (scatter2Dims N M K wf).siIdx (ix1 k)
      ⟨List.idxOf (1 : Fin 2) (scatter2Dims N M K wf).scatterDimsToOperandDims,
        List.idxOf_lt_length_iff.2 hmem⟩ = ix2 k (1 : Fin 2) := by
    funext b; refine Fin.ext ?_
    match b with
    | ⟨0, _⟩ => rfl
    | ⟨1, _⟩ => rfl
  rw [hsi]

private theorem pairs_window {N M K : Nat}
    (wf : ScatterDims.WF ⟨2, ![N, M]⟩ ⟨2, ![K, 2]⟩ ⟨1, ![K]⟩ [] [0, 1] [0, 1] 1) (k : Fin K) (a : Fin 2) :
    (scatter2Dims N M K wf).window (ix1 k) a = 0 := by
  match a with
  | ⟨0, _⟩ => rfl
  | ⟨1, _⟩ => rfl

private theorem pairs_resultIdx? {N M K w : Nat}
    (wf : ScatterDims.WF ⟨2, ![N, M]⟩ ⟨2, ![K, 2]⟩ ⟨1, ![K]⟩ [] [0, 1] [0, 1] 1)
    (idx : IVec ⟨2, ![K, 2]⟩ w) (k : Fin K) (r : Fin N) (q : Fin M) :
    (scatter2Dims N M K wf).resultIdx? (ix1 k) idx = some (ix2 r q)
      ↔ (idx (ix2 k (0 : Fin 2))).toInt = (r.val : Int) ∧ (idx (ix2 k (1 : Fin 2))).toInt = (q.val : Int) := by
  rw [resultIdx?_eq_some_iff]
  constructor
  · intro h
    have h0 := h (0 : Fin 2)
    have h1 := h (1 : Fin 2)
    rw [pairs_start0, pairs_window] at h0
    rw [pairs_start1, pairs_window] at h1
    have h0' : (idx (ix2 k (0 : Fin 2))).toInt + ((0 : Nat) : Int) = (r.val : Int) := h0
    have h1' : (idx (ix2 k (1 : Fin 2))).toInt + ((0 : Nat) : Int) = (q.val : Int) := h1
    exact ⟨by omega, by omega⟩
  · rintro ⟨h0, h1⟩ a
    match a with
    | ⟨0, _⟩ =>
      show (scatter2Dims N M K wf).start (ix1 k) idx (0 : Fin 2)
        + ((scatter2Dims N M K wf).window (ix1 k) (0 : Fin 2) : Int) = (r.val : Int)
      rw [pairs_start0, pairs_window]
      omega
    | ⟨1, _⟩ =>
      show (scatter2Dims N M K wf).start (ix1 k) idx (1 : Fin 2)
        + ((scatter2Dims N M K wf).window (ix1 k) (1 : Fin 2) : Int) = (q.val : Int)
      rw [pairs_start1, pairs_window]
      omega

theorem hostScatterAdd_pairs_apply {N M K w : Nat}
    (wf : ScatterDims.WF ⟨2, ![N, M]⟩ ⟨2, ![K, 2]⟩ ⟨1, ![K]⟩ [] [0, 1] [0, 1] 1)
    (x : (⟨2, ![N, M]⟩ : Shape).Idx → EReal) (idx : IVec ⟨2, ![K, 2]⟩ w) (upd : (⟨1, ![K]⟩ : Shape).Idx → EReal)
    (r : Fin N) (q : Fin M) :
    Ideal.hostScatterAdd (scatter2Dims N M K wf) x idx upd (ix2 r q)
      = x (ix2 r q) + ∑ k : Fin K, if (idx (ix2 k (0 : Fin 2))).toInt = (r.val : Int)
          ∧ (idx (ix2 k (1 : Fin 2))).toInt = (q.val : Int) then upd (ix1 k) else 0 := by
  unfold Ideal.hostScatterAdd
  refine congrArg (x (ix2 r q) + ·) ?_
  rw [Finset.sum_filter, sum_idx1]
  refine Finset.sum_congr rfl fun k _ => ?_
  exact if_congr (pairs_resultIdx? wf idx k r q) rfl rfl

end Cert.Lib.Scatter2

end
-- ==== Proof.KHostL.lean ====
/- The dense matrix L read at an index: the scatter-add of the edge weights into a zero matrix sums, at (r, q), the weights of the edges from q to r. -/
import proofs.«416138_j67946382623286_1_alg».proof.Proof.KArgs
import proofs.«416138_j67946382623286_1_alg».proof.Proof.Math
import proofs.«416138_j67946382623286_1_alg».proof.Proof.LibScatter2
import Idealize.ShloMosaic.Lib.StableHlo.Run
import Idealize.ShloMosaic.Lib.Pipeline.Value
import Idealize.ShloMosaic.PureOps.Ideal.Laws

noncomputable section

open scoped BigOperators

namespace Cert.KSide

open Cert.KernelIdeal Cert.KernelIdeal.Gen Cert.Spec Cert.Math
open Idealize.ShloMosaic Idealize.ShloMosaic.TcCoe Idealize.ShloMosaic.ValueIdx Idealize.SL.Sem
open Idealize.ShloMosaic.StableHlo

private theorem select_wrap {s : Shape} (v z t : IVec s 32) (i : s.Idx) (hz : z i = 0#32) (h0 : 0 ≤ (v i).toInt) :
    select (cmpi .slt v z) t v i = v i := by
  show Scalar.select (IntOp.cmpi .slt (v i) (z i)) (t i) (v i) = v i
  rw [hz]
  have hslt : (v i).slt 0#32 = false := by
    unfold BitVec.slt
    exact decide_eq_false (by simpa using h0)
  unfold Scalar.select IntOp.cmpi
  simp only [hslt]
  exact if_neg (by decide)

private theorem col_apply {α : Type} {K : Nat} (h : (⟨1, ![K]⟩ : Shape).BroadcastsInDim ⟨2, ![K, 1]⟩ ![0])
    (v : (⟨1, ![K]⟩ : Shape).Idx → α) (k : Fin K) :
    broadcastInDim ⟨2, ![K, 1]⟩ ![0] h v (ix2 k (0 : Fin 1)) = v (ix1 k) := by
  refine broadcastInDim_apply ![0] h v _ (ix1 k) (fun a => ?_)
  obtain rfl : a = (0 : Fin 1) := Subsingleton.elim _ _
  by_cases hK : K = 1
  · subst hK
    have : k = 0 := Subsingleton.elim _ _
    subst this
    rfl
  · have : ¬ (⟨1, ![K]⟩ : Shape).size (0 : Fin 1) = 1 := hK
    rw [if_neg this]
    rfl

private theorem pair_left {α : Type} {K : Nat} (A B : (⟨2, ![K, 1]⟩ : Shape).Idx → α)
    (h : Shape.Concatenates [(⟨2, ![K, 1]⟩ : Shape), ⟨2, ![K, 1]⟩] ⟨2, ![K, 2]⟩ 1) (k : Fin K) :
    concatenate ⟨2, ![K, 2]⟩ 1 [⟨⟨2, ![K, 1]⟩, A⟩, ⟨⟨2, ![K, 1]⟩, B⟩] h (ix2 k (0 : Fin 2)) = A (ix2 k (0 : Fin 1)) :=
  concatenate_pair_apply_left 1 A B h _ rfl _ (fun b => by
    match b with
    | ⟨0, _⟩ => rfl
    | ⟨1, _⟩ => rfl)

private theorem pair_right {α : Type} {K : Nat} (A B : (⟨2, ![K, 1]⟩ : Shape).Idx → α)
    (h : Shape.Concatenates [(⟨2, ![K, 1]⟩ : Shape), ⟨2, ![K, 1]⟩] ⟨2, ![K, 2]⟩ 1) (k : Fin K) :
    concatenate ⟨2, ![K, 2]⟩ 1 [⟨⟨2, ![K, 1]⟩, A⟩, ⟨⟨2, ![K, 1]⟩, B⟩] h (ix2 k (1 : Fin 2)) = B (ix2 k (0 : Fin 1)) :=
  concatenate_pair_apply_right 1 A B h _ rfl rfl _
    (fun b hb => by
      match b with
      | ⟨0, _⟩ => rfl
      | ⟨1, _⟩ => exact absurd rfl hb)
    rfl

private theorem wrapped_col {K : Nat} (h : (⟨1, ![K]⟩ : Shape).BroadcastsInDim ⟨2, ![K, 1]⟩ ![0])
    (hb : (⟨0, ![]⟩ : Shape).BroadcastsInDim ⟨1, ![K]⟩ ![])
    (v t : IVec ⟨1, ![K]⟩ 32) (h0 : ∀ i, 0 ≤ (v i).toInt) (k : Fin K) :
    broadcastInDim ⟨2, ![K, 1]⟩ ![0] h
        (select (cmpi .slt v (broadcastInDim ⟨1, ![K]⟩ ![] hb (constantI ⟨0, ![]⟩ 32 0#32))) t v) (ix2 k (0 : Fin 1))
      = v (ix1 k) := by
  rw [col_apply]
  exact select_wrap v _ t (ix1 k) rfl (h0 _)

private theorem term_congr {a a' b b' : BitVec 32} (ha : a = a') (hb : b = b') (r q : Int) (w : EReal) :
    (if a.toInt = r ∧ b.toInt = q then w else 0) = (if a'.toInt = r ∧ b'.toInt = q then w else 0) := by
  subst ha; subst hb; rfl

private theorem node_val_iff (v : BitVec 32) (hv : 0 ≤ v.toInt ∧ v.toInt < 10000) (r : Fin 10240) :
    v.toInt = (r.val : Int) ↔ (node v).val = r.val := by
  show _ ↔ min v.toInt.toNat 9999 = r.val
  omega

variable (m : (ℓ : Loc nD τ sig) → Buf (Elt Ideal) ℓ) (c : Dev nD)

private theorem sum_words_eq_Lmat (hok : OkK m c) (r q : Fin 10240) :
    (∑ k : Fin 160000, if (arows m c (ix1 k)).toInt = (r.val : Int) ∧ (acols m c (ix1 k)).toInt = (q.val : Int)
        then avals m c (ix1 k) else 0)
      = ((Lmat (gK m c) r q : ℝ) : EReal) := by
  unfold Lmat
  rw [Math.coe_sum]
  refine Finset.sum_congr rfl fun e _ => ?_
  have hP : ((arows m c (ix1 e)).toInt = (r.val : Int) ∧ (acols m c (ix1 e)).toInt = (q.val : Int))
      ↔ (((gK m c).row e).val = r.val ∧ ((gK m c).col e).val = q.val) :=
    and_congr (node_val_iff _ (hok.rows_range (ix1 e)) r) (node_val_iff _ (hok.cols_range (ix1 e)) q)
  by_cases h : ((gK m c).row e).val = r.val ∧ ((gK m c).col e).val = q.val
  · rw [if_pos (hP.mpr h), if_pos h]
    exact hok.vals_real (ix1 e)
  · rw [if_neg (fun h' => h (hP.mp h')), if_neg h]
    exact EReal.coe_zero.symm

theorem V3_L (hok : OkK m c) (r q : Fin 10240) :
    (V3 m c main_v14 : S10240x10240.Idx → EReal) (ix2 r q) = ((Lmat (gK m c) r q : ℝ) : EReal) := by

  have e : V3 m c main_v14 = V1 m c main_v14 :=
    (V3_of m c main_v14 (by decide)).trans (V2_of m c main_v14 (by decide))
  rw [e]
  dsimp only [V1, V0]
  after_results

  show Ideal.hostScatterAdd (Cert.Lib.Scatter2.scatter2Dims 10240 10240 160000
    Facts₀.scatter_S10240x10240_S160000x2_S160000_n_01_01_1_wf) _ _ _ (ix2 r q) = _
  rw [Cert.Lib.Scatter2.hostScatterAdd_pairs_apply]

  have hz : ∀ (h : S_.BroadcastsInDim S10240x10240 ![]),
      broadcastInDim S10240x10240 ![] h (constant (F := Ideal) S_ .f32 0x00000000#32) (ix2 r q) = (0 : EReal) :=
    fun _ => Ideal.ofBits_zero_f32
  rw [hz, zero_add]

  rw [← sum_words_eq_Lmat m c hok r q]
  refine Finset.sum_congr rfl fun k _ => ?_
  rw [pair_left, pair_right]
  exact term_congr (wrapped_col _ _ _ _ (fun i => (hok.rows_range i).1) k)
    (wrapped_col _ _ _ _ (fun i => (hok.cols_range i).1) k) _ _ _

end Cert.KSide

end
-- ==== Proof.KHost1.lean ====
/- The host operations between the second and third products, read at an index: the first layer's output from the three Chebyshev terms, and the second layer's right operand. -/
import proofs.«416138_j67946382623286_1_alg».proof.Proof.KHost0
import Idealize.ShloMosaic.Lib.Pipeline.Value
import Idealize.ShloMosaic.Lib.ValueIdx
import Idealize.ShloMosaic.Lib.KernelVsHost
import Idealize.ShloMosaic.Lib.StableHlo.Run
import Idealize.ShloMosaic.PureOps.Ideal.Laws

noncomputable section

open scoped BigOperators

namespace Cert.KSide

open Cert.KernelIdeal Cert.KernelIdeal.Gen Cert.Spec Cert.Math
open Idealize.ShloMosaic Idealize.ShloMosaic.TcCoe Idealize.ShloMosaic.ValueIdx Idealize.SL.Sem

private theorem ofBits_two : Ideal.ofBits .f32 0x40000000#32 = ((2 : ℝ) : EReal) := by
  simp [Ideal.ofBits, Ideal.ieee, -EReal.coe_mul]; norm_num

private theorem x22_apply (x17 x19 : S10240x1024.Idx → EReal)
    (h : S_.BroadcastsInDim S10240x1024 (![] : Fin 0 → Fin S10240x1024.rank)) (i : S10240x1024.Idx) :
    subf (mulf (broadcastInDim S10240x1024 ![] h (constant (F := Ideal) S_ .f32 0x40000000#32)) x19) x17 i
      = ((2 : ℝ) : EReal) * x19 i - x17 i := by
  show Ideal.ofBits .f32 0x40000000#32 * x19 i - x17 i = _
  rw [ofBits_two]

private theorem bcast3_apply (x : S10240x1024.Idx → EReal)
    (h : S10240x1024.BroadcastsInDim S1x10240x1024 (![1, 2] : Fin 2 → Fin S1x10240x1024.rank))
    (n : Fin 10240) (j : Fin 1024) :
    broadcastInDim S1x10240x1024 ![1, 2] h x (ix3 (0 : Fin 1) n j) = x (ix2 n j) :=
  broadcastInDim_apply _ h x _ (ix2 n j) (fun a => match a with
    | ⟨0, _⟩ => by show n.val = if (10240 : Nat) = 1 then 0 else n.val; rw [if_neg (by decide)]
    | ⟨1, _⟩ => by show j.val = if (1024 : Nat) = 1 then 0 else j.val; rw [if_neg (by decide)])

private theorem cat_apply (y0 y1 y2 : S1x10240x1024.Idx → EReal)
    (h : Shape.Concatenates [S1x10240x1024, S1x10240x1024, S1x10240x1024] S3x10240x1024 0)
    (kk : Fin 3) (n : Fin 10240) (j : Fin 1024) :
    concatenate S3x10240x1024 0 [⟨S1x10240x1024, y0⟩, ⟨S1x10240x1024, y1⟩, ⟨S1x10240x1024, y2⟩] h (ix3 kk n j)
      = (match kk with | ⟨0, _⟩ => y0 | ⟨1, _⟩ => y1 | ⟨2, _⟩ => y2) (ix3 (0 : Fin 1) n j) := by
  match kk with
  | ⟨0, _⟩ =>
    exact concatenate_apply_piece (t := S3x10240x1024) 0 [⟨S1x10240x1024, y0⟩, ⟨S1x10240x1024, y1⟩, ⟨S1x10240x1024, y2⟩] h _ 0 (by show (0 : ℕ) < 3; omega) S1x10240x1024 y0 rfl rfl 0 rfl (ix3 (0 : Fin 1) n j)
      (fun b hb => match b with
        | ⟨0, _⟩ => absurd rfl hb
        | ⟨1, _⟩ => rfl
        | ⟨2, _⟩ => rfl) rfl
  | ⟨1, _⟩ =>
    exact concatenate_apply_piece (t := S3x10240x1024) 0 [⟨S1x10240x1024, y0⟩, ⟨S1x10240x1024, y1⟩, ⟨S1x10240x1024, y2⟩] h _ 1 (by show (1 : ℕ) < 3; omega) S1x10240x1024 y1 rfl rfl 1 rfl (ix3 (0 : Fin 1) n j)
      (fun b hb => match b with
        | ⟨0, _⟩ => absurd rfl hb
        | ⟨1, _⟩ => rfl
        | ⟨2, _⟩ => rfl) rfl
  | ⟨2, _⟩ =>
    exact concatenate_apply_piece (t := S3x10240x1024) 0 [⟨S1x10240x1024, y0⟩, ⟨S1x10240x1024, y1⟩, ⟨S1x10240x1024, y2⟩] h _ 2 (by show (2 : ℕ) < 3; omega) S1x10240x1024 y2 rfl rfl 2 rfl (ix3 (0 : Fin 1) n j)
      (fun b hb => match b with
        | ⟨0, _⟩ => absurd rfl hb
        | ⟨1, _⟩ => rfl
        | ⟨2, _⟩ => rfl) rfl

private theorem cast27_apply (y : S3x10240x1024.Idx → EReal) (h : S3x10240x1024.ShapeCasts S3x10240x128x8)
    (kk : Fin 3) (n : Fin 10240) (f : Fin 128) (bb : Fin 8) :
    shapeCast S3x10240x128x8 y h (ix4 kk n f bb) = y (ix3 kk n ⟨f.val * 8 + bb.val, by omega⟩) :=
  shapeCast_apply y h _ _ (by
    rw [Shape.rowMajor_val_three, Shape.rowMajor_val_four]
    show (kk.val * 10240 + n.val) * 1024 + (f.val * 8 + bb.val) = ((kk.val * 10240 + n.val) * 128 + f.val) * 8 + bb.val
    omega)

private theorem tr28_apply (y : S3x10240x128x8.Idx → EReal) (h : S3x10240x128x8.Transposes [3, 1, 2, 0] S8x10240x128x3)
    (bb : Fin 8) (n : Fin 10240) (f : Fin 128) (kk : Fin 3) :
    transpose S8x10240x128x3 [3, 1, 2, 0] y h (ix4 bb n f kk) = y (ix4 kk n f bb) :=
  transpose_apply [3, 1, 2, 0] y h _ _ (fun b => match b with
    | ⟨0, _⟩ => rfl
    | ⟨1, _⟩ => rfl
    | ⟨2, _⟩ => rfl
    | ⟨3, _⟩ => rfl)

private theorem cast29_apply (y : S8x10240x128x3.Idx → EReal) (h : S8x10240x128x3.ShapeCasts S81920x384)
    (bb : Fin 8) (n : Fin 10240) (k : Fin 384) :
    shapeCast S81920x384 y h (ix2 (⟨bb.val * 10240 + n.val, by omega⟩ : Fin 81920) k)
      = y (ix4 bb n (⟨k.val / 3, by omega⟩ : Fin 128) (⟨k.val % 3, by omega⟩ : Fin 3)) :=
  shapeCast_apply y h _ _ (by
    rw [Shape.rowMajor_val_four, Shape.rowMajor_val_two]
    show ((bb.val * 10240 + n.val) * 128 + k.val / 3) * 3 + k.val % 3 = (bb.val * 10240 + n.val) * 384 + k.val
    omega)

private theorem cast31_apply (y : S81920x1.Idx → EReal) (h : S81920x1.ShapeCasts S8x10240x1)
    (bb : Fin 8) (n : Fin 10240) :
    shapeCast S8x10240x1 y h (ix3 bb n (0 : Fin 1)) = y (ix2 (⟨bb.val * 10240 + n.val, by omega⟩ : Fin 81920) (0 : Fin 1)) :=
  shapeCast_apply y h _ _ (by
    rw [Shape.rowMajor_val_two, Shape.rowMajor_val_three]
    show (bb.val * 10240 + n.val) * 1 + 0 = (bb.val * 10240 + n.val) * 1 + 0
    rfl)

private theorem bcast32_apply (b : S1x1x1.Idx → EReal)
    (h : S1x1x1.BroadcastsInDim S8x10240x1 (![0, 1, 2] : Fin 3 → Fin S8x10240x1.rank)) (i : S8x10240x1.Idx) :
    broadcastInDim S8x10240x1 ![0, 1, 2] h b i = b (ix3 (0 : Fin 1) (0 : Fin 1) (0 : Fin 1)) :=
  broadcastInDim_apply _ h b i _ (fun a => match a with
    | ⟨0, _⟩ => rfl
    | ⟨1, _⟩ => rfl
    | ⟨2, _⟩ => rfl)

private theorem relu_apply (x : S8x10240x1.Idx → EReal)
    (h : S_.BroadcastsInDim S8x10240x1 (![] : Fin 0 → Fin S8x10240x1.rank)) (i : S8x10240x1.Idx) :
    maximumf x (broadcastInDim S8x10240x1 ![] h (constant (F := Ideal) S_ .f32 0x00000000#32)) i = max (x i) 0 := by
  show max (x i) (Ideal.ofBits .f32 0x00000000#32) = _
  rw [Ideal.ofBits_zero_f32]

private theorem tr35_apply (y : S8x10240x1.Idx → EReal) (h : S8x10240x1.Transposes [1, 2, 0] S10240x1x8)
    (n : Fin 10240) (bb : Fin 8) :
    transpose S10240x1x8 [1, 2, 0] y h (ix3 n (0 : Fin 1) bb) = y (ix3 bb n (0 : Fin 1)) :=
  transpose_apply [1, 2, 0] y h _ _ (fun b => match b with
    | ⟨0, _⟩ => rfl
    | ⟨1, _⟩ => rfl
    | ⟨2, _⟩ => rfl)

private theorem cast36_apply (y : S10240x1x8.Idx → EReal) (h : S10240x1x8.ShapeCasts S10240x8)
    (n : Fin 10240) (bb : Fin 8) :
    shapeCast S10240x8 y h (ix2 n bb) = y (ix3 n (0 : Fin 1) bb) :=
  shapeCast_apply y h _ _ (by
    rw [Shape.rowMajor_val_three, Shape.rowMajor_val_two]
    show (n.val * 1 + 0) * 8 + bb.val = n.val * 8 + bb.val
    omega)

private theorem dot30_lhs0 (i : S81920x1.Idx) (q : dot_S81920x384_S384x1_S81920x1_1_0_0_1_n_n.contr.Idx) :
    (dot_S81920x384_S384x1_S81920x1_1_0_0_1_n_n.lhsIdx i q 0).val = (i 0).val := by
  unfold DotDims.lhsIdx
  rw [dif_neg (show ¬(0 : Fin S81920x384.rank) ∈ dot_S81920x384_S384x1_S81920x1_1_0_0_1_n_n.lhsBatch by decide), dif_pos (show (0 : Fin S81920x384.rank) ∈ dot_S81920x384_S384x1_S81920x1_1_0_0_1_n_n.lhsNonContracting by decide)]
  rfl
private theorem dot30_lhs1 (i : S81920x1.Idx) (q : dot_S81920x384_S384x1_S81920x1_1_0_0_1_n_n.contr.Idx) :
    (dot_S81920x384_S384x1_S81920x1_1_0_0_1_n_n.lhsIdx i q 1).val = (q ⟨0, by decide⟩).val :=
  dot_S81920x384_S384x1_S81920x1_1_0_0_1_n_n.lhsIdx_val_of_single rfl i q
private theorem dot30_rhs0 (i : S81920x1.Idx) (q : dot_S81920x384_S384x1_S81920x1_1_0_0_1_n_n.contr.Idx) :
    (dot_S81920x384_S384x1_S81920x1_1_0_0_1_n_n.rhsIdx i q 0).val = (q ⟨0, by decide⟩).val :=
  dot_S81920x384_S384x1_S81920x1_1_0_0_1_n_n.rhsIdx_val_of_single rfl i q
private theorem dot30_rhs1 (i : S81920x1.Idx) (q : dot_S81920x384_S384x1_S81920x1_1_0_0_1_n_n.contr.Idx) :
    (dot_S81920x384_S384x1_S81920x1_1_0_0_1_n_n.rhsIdx i q 1).val = (i 1).val := by
  unfold DotDims.rhsIdx
  rw [dif_neg (show ¬(1 : Fin S384x1.rank) ∈ dot_S81920x384_S384x1_S81920x1_1_0_0_1_n_n.rhsBatch by decide), dif_pos (show (1 : Fin S384x1.rank) ∈ dot_S81920x384_S384x1_S81920x1_1_0_0_1_n_n.rhsNonContracting by decide)]
  rfl

private theorem dot30_apply (l : FVec Ideal S81920x384 .f32) (w : FVec Ideal S384x1 .f32) (r : Fin 81920) :
    Host.dotGeneral (F := Ideal) dot_S81920x384_S384x1_S81920x1_1_0_0_1_n_n none l w (ix2 r (0 : Fin 1))
      = ∑ k : Fin 384, l (ix2 r k) * w (ix2 k (0 : Fin 1)) := by
  simp only [Host.dotGeneral]
  rw [Ideal.dotGeneral_apply, ← Equiv.sum_comp (ValueIdx.contrEquiv1 dot_S81920x384_S384x1_S81920x1_1_0_0_1_n_n 384 rfl rfl).symm]
  refine Finset.sum_congr rfl fun k _ => ?_
  have hk := ValueIdx.contrEquiv1_symm_val dot_S81920x384_S384x1_S81920x1_1_0_0_1_n_n 384 rfl rfl k
  have el : dot_S81920x384_S384x1_S81920x1_1_0_0_1_n_n.lhsIdx (ix2 r (0 : Fin 1)) ((ValueIdx.contrEquiv1 dot_S81920x384_S384x1_S81920x1_1_0_0_1_n_n 384 rfl rfl).symm k) = ix2 r k := funext fun a => Fin.ext (by
    match a with
    | ⟨0, _⟩ => exact dot30_lhs0 _ _
    | ⟨1, _⟩ => exact (dot30_lhs1 _ _).trans hk)
  have er : dot_S81920x384_S384x1_S81920x1_1_0_0_1_n_n.rhsIdx (ix2 r (0 : Fin 1)) ((ValueIdx.contrEquiv1 dot_S81920x384_S384x1_S81920x1_1_0_0_1_n_n 384 rfl rfl).symm k) = ix2 k (0 : Fin 1) := funext fun a => Fin.ext (by
    match a with
    | ⟨0, _⟩ => exact (dot30_rhs0 _ _).trans hk
    | ⟨1, _⟩ => exact dot30_rhs1 _ _)
  rw [el, er]

private theorem padv_apply (i : S_.Idx) : (sitofp .f32 (constantI S_ 32 0#32) : FVec Ideal S_ .f32) i = 0 := by
  show (((0#32 : BitVec 32).toInt : ℝ) : EReal) = 0
  simp

private theorem pad37_apply (x : S10240x8.Idx → EReal) (v : S_.Idx → EReal)
    (h : S10240x8.Pads (![0, 0] : Fin 2 → Nat) ![0, 120] ![0, 0] S10240x128) (hu : 0 < S_.numel)
    (n : Fin 10240) (j : Fin 128) :
    pad S10240x128 ![0, 0] ![0, 120] ![0, 0] x v h hu (ix2 n j)
      = if hj : j.val < 8 then x (ix2 n ⟨j.val, hj⟩) else v (Shape.Idx.first hu) := by
  by_cases hj : j.val < 8
  · rw [dif_pos hj]
    exact pad_apply_of_inside _ _ _ x v h hu _ (ix2 n ⟨j.val, hj⟩) (fun a => match a with
      | ⟨0, _⟩ => by show n.val = 0 + n.val * (0 + 1); omega
      | ⟨1, _⟩ => by show j.val = 0 + j.val * (0 + 1); omega)
  · rw [dif_neg hj]
    exact pad_apply_of_not_inside _ _ _ x v h hu _ (1 : Fin 2) (by
      show ¬(0 ≤ j.val ∧ (j.val - 0) % (0 + 1) = 0 ∧ (j.val - 0) / (0 + 1) < 8)
      omega)

private def pick (x17 x18 x19 : FVec Ideal S10240x1024 .f32) (kk : Fin 3) (i : S10240x1024.Idx) : EReal :=
  match kk with
  | ⟨0, _⟩ => x17 i
  | ⟨1, _⟩ => x18 i
  | ⟨2, _⟩ => ((2 : ℝ) : EReal) * x19 i - x17 i

private theorem lhs29_apply (x17 x18 x19 : FVec Ideal S10240x1024 .f32)
    (hb0 : S_.BroadcastsInDim S10240x1024 (![] : Fin 0 → Fin S10240x1024.rank))
    (hb : S10240x1024.BroadcastsInDim S1x10240x1024 (![1, 2] : Fin 2 → Fin S1x10240x1024.rank))
    (hc : Shape.Concatenates [S1x10240x1024, S1x10240x1024, S1x10240x1024] S3x10240x1024 0)
    (h1 : S3x10240x1024.ShapeCasts S3x10240x128x8)
    (h2 : S3x10240x128x8.Transposes [3, 1, 2, 0] S8x10240x128x3)
    (h3 : S8x10240x128x3.ShapeCasts S81920x384)
    (bb : Fin 8) (n : Fin 10240) (k : Fin 384) :
    shapeCast S81920x384 (transpose S8x10240x128x3 [3, 1, 2, 0] (shapeCast S3x10240x128x8 (concatenate S3x10240x1024 0
        [⟨S1x10240x1024, broadcastInDim S1x10240x1024 ![1, 2] hb x17⟩,
         ⟨S1x10240x1024, broadcastInDim S1x10240x1024 ![1, 2] hb x18⟩,
         ⟨S1x10240x1024, broadcastInDim S1x10240x1024 ![1, 2] hb
            (subf (mulf (broadcastInDim S10240x1024 ![] hb0 (constant (F := Ideal) S_ .f32 0x40000000#32)) x19) x17)⟩] hc) h1) h2) h3
        (ix2 (⟨bb.val * 10240 + n.val, by omega⟩ : Fin 81920) k)
      = pick x17 x18 x19 ⟨k.val % 3, Nat.mod_lt _ (by norm_num)⟩
          (ix2 n ⟨k.val / 3 * 8 + bb.val, by have := k.isLt; have := bb.isLt; omega⟩) := by
  rw [cast29_apply, tr28_apply, cast27_apply, cat_apply]
  generalize (⟨k.val % 3, Nat.mod_lt _ (by norm_num)⟩ : Fin 3) = kk
  match kk with
  | ⟨0, _⟩ => exact bcast3_apply _ hb n _
  | ⟨1, _⟩ => exact bcast3_apply _ hb n _
  | ⟨2, _⟩ => exact (bcast3_apply _ hb n _).trans (x22_apply x17 x19 hb0 _)

private theorem pre33_apply (x17 x18 x19 : FVec Ideal S10240x1024 .f32) (w : FVec Ideal S384x1 .f32) (b : FVec Ideal S1x1x1 .f32)
    (hb0 : S_.BroadcastsInDim S10240x1024 (![] : Fin 0 → Fin S10240x1024.rank))
    (hb : S10240x1024.BroadcastsInDim S1x10240x1024 (![1, 2] : Fin 2 → Fin S1x10240x1024.rank))
    (hc : Shape.Concatenates [S1x10240x1024, S1x10240x1024, S1x10240x1024] S3x10240x1024 0)
    (h1 : S3x10240x1024.ShapeCasts S3x10240x128x8)
    (h2 : S3x10240x128x8.Transposes [3, 1, 2, 0] S8x10240x128x3)
    (h3 : S8x10240x128x3.ShapeCasts S81920x384)
    (h4 : S81920x1.ShapeCasts S8x10240x1)
    (h5 : S1x1x1.BroadcastsInDim S8x10240x1 (![0, 1, 2] : Fin 3 → Fin S8x10240x1.rank))
    (bb : Fin 8) (n : Fin 10240) :
    addf (shapeCast S8x10240x1 (Host.dotGeneral (F := Ideal) dot_S81920x384_S384x1_S81920x1_1_0_0_1_n_n none
        (shapeCast S81920x384 (transpose S8x10240x128x3 [3, 1, 2, 0] (shapeCast S3x10240x128x8 (concatenate S3x10240x1024 0
          [⟨S1x10240x1024, broadcastInDim S1x10240x1024 ![1, 2] hb x17⟩,
           ⟨S1x10240x1024, broadcastInDim S1x10240x1024 ![1, 2] hb x18⟩,
           ⟨S1x10240x1024, broadcastInDim S1x10240x1024 ![1, 2] hb
              (subf (mulf (broadcastInDim S10240x1024 ![] hb0 (constant (F := Ideal) S_ .f32 0x40000000#32)) x19) x17)⟩] hc) h1) h2) h3)
        w) h4) (broadcastInDim S8x10240x1 ![0, 1, 2] h5 b) (ix3 bb n (0 : Fin 1))
      = (∑ k : Fin 384, pick x17 x18 x19 ⟨k.val % 3, Nat.mod_lt _ (by norm_num)⟩
            (ix2 n ⟨k.val / 3 * 8 + bb.val, by have := k.isLt; have := bb.isLt; omega⟩) * w (ix2 k (0 : Fin 1)))
          + b (ix3 (0 : Fin 1) (0 : Fin 1) (0 : Fin 1)) := by
  rw [addf_apply, cast31_apply, dot30_apply, bcast32_apply]
  refine congrArg (· + b (ix3 (0 : Fin 1) (0 : Fin 1) (0 : Fin 1))) (Finset.sum_congr rfl fun k _ => ?_)
  rw [lhs29_apply]

private theorem pre33_apply' (x17 x18 x19 : FVec Ideal S10240x1024 .f32) (w : FVec Ideal S384x1 .f32) (b : FVec Ideal S1x1x1 .f32)
    (hb0 : S_.BroadcastsInDim S10240x1024 (![] : Fin 0 → Fin S10240x1024.rank))
    (hb : S10240x1024.BroadcastsInDim S1x10240x1024 (![1, 2] : Fin 2 → Fin S1x10240x1024.rank))
    (hc : Shape.Concatenates [S1x10240x1024, S1x10240x1024, S1x10240x1024] S3x10240x1024 0)
    (h1 : S3x10240x1024.ShapeCasts S3x10240x128x8)
    (h2 : S3x10240x128x8.Transposes [3, 1, 2, 0] S8x10240x128x3)
    (h3 : S8x10240x128x3.ShapeCasts S81920x384)
    (h4 : S81920x1.ShapeCasts S8x10240x1)
    (h5 : S1x1x1.BroadcastsInDim S8x10240x1 (![0, 1, 2] : Fin 3 → Fin S8x10240x1.rank))
    (bb : Fin 8) (n : Fin 10240) :
    addf (fun i => shapeCast S8x10240x1 (Host.dotGeneral (F := Ideal) dot_S81920x384_S384x1_S81920x1_1_0_0_1_n_n none
        (fun i => shapeCast S81920x384 (transpose S8x10240x128x3 [3, 1, 2, 0] (fun i => shapeCast S3x10240x128x8 (concatenate S3x10240x1024 0
          [⟨S1x10240x1024, broadcastInDim S1x10240x1024 ![1, 2] hb x17⟩,
           ⟨S1x10240x1024, broadcastInDim S1x10240x1024 ![1, 2] hb x18⟩,
           ⟨S1x10240x1024, broadcastInDim S1x10240x1024 ![1, 2] hb
              (subf (mulf (broadcastInDim S10240x1024 ![] hb0 (constant (F := Ideal) S_ .f32 0x40000000#32)) x19) x17)⟩] hc) h1 i) h2) h3 i)
        w) h4 i) (broadcastInDim S8x10240x1 ![0, 1, 2] h5 b) (ix3 bb n (0 : Fin 1))
      = (∑ k : Fin 384, pick x17 x18 x19 ⟨k.val % 3, Nat.mod_lt _ (by norm_num)⟩
            (ix2 n ⟨k.val / 3 * 8 + bb.val, by have := k.isLt; have := bb.isLt; omega⟩) * w (ix2 k (0 : Fin 1)))
          + b (ix3 (0 : Fin 1) (0 : Fin 1) (0 : Fin 1)) :=
  pre33_apply x17 x18 x19 w b hb0 hb hc h1 h2 h3 h4 h5 bb n

private theorem cat_result (F : Valuation τ sig (Elt Ideal)) :
    (StableHlo.nary (τ := τ) ![main_v23, main_v24, main_v25] main_v26 (fun u => concatenate S3x10240x1024 0 [⟨S1x10240x1024, u 0⟩, ⟨S1x10240x1024, u 1⟩, ⟨S1x10240x1024, u 2⟩] concatenates_S1x10240x1024_S1x10240x1024_S1x10240x1024_S3x10240x1024_d0)).result F (Proc.devRef .tc main_v26)
      = concatenate S3x10240x1024 0 [⟨S1x10240x1024, F (Proc.devRef .tc main_v23)⟩, ⟨S1x10240x1024, F (Proc.devRef .tc main_v24)⟩,
          ⟨S1x10240x1024, F (Proc.devRef .tc main_v25)⟩] concatenates_S1x10240x1024_S1x10240x1024_S1x10240x1024_S3x10240x1024_d0 := by
  rw [StableHlo.nary_result]
  rfl

open Idealize.ShloMosaic.StableHlo in

local macro "results3" : tactic =>
  `(tactic| (simp only [after_cons, after_nil]
             repeat (first
               | rw [nullary_result] | rw [unary_result] | rw [binary_result]
               | rw [reshape_result] | rw [cat_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

private theorem relu_stretch (W : Valuation τ sig (Elt Ideal)) :
    StableHlo.after (hostOps2_1 (F := Ideal)) W (Proc.devRef .tc main_v34)
      = maximumf (W (Proc.devRef .tc main_v33) : FVec Ideal S8x10240x1 .f32)
          (broadcastInDim S8x10240x1 ![] bcast_S_S8x10240x1 (constant (F := Ideal) S_ .f32 0x00000000#32)) := by
  results3
  rfl

private theorem pad_stretch (W : Valuation τ sig (Elt Ideal)) :
    StableHlo.after (hostOps2_3 (F := Ideal)) W (Proc.devRef .tc main_v37)
      = pad S10240x128 ![0, 0] ![0, 120] ![0, 0] (W (Proc.devRef .tc main_v36) : FVec Ideal S10240x8 .f32)
          (sitofp .f32 (W (Proc.devRef .tc main_c_5) : IVec S_ 32) : FVec Ideal S_ .f32)
          pads_S10240x8_S10240x128_000_01200 h_S_ := by
  results3
  rfl

variable (m : (ℓ : Loc nD τ sig) → Buf (Elt Ideal) ℓ) (c : Dev nD)

variable (outs : Outs (F := Ideal))

private theorem V5_v17 : V5 m outs c main_v17 = V3 m c main_v17 :=
  (V5_of m outs c main_v17 (by decide)).trans (V4_of m outs c main_v17 (by decide))

private theorem V5_v18 : V5 m outs c main_v18 = outs 4 main_v18 c :=
  (V5_of m outs c main_v18 (by decide)).trans (Function.update_self _ _ _)

private theorem V5_v19 : V5 m outs c main_v19 = outs 5 main_v19 c := Function.update_self _ _ _

private theorem V5_arg4 : V5 m outs c main_arg4 = aw1 m c :=
  (V5_of m outs c main_arg4 (by decide)).trans <| (V4_of m outs c main_arg4 (by decide)).trans <|
    (V3_of m c main_arg4 (by decide)).trans <| (V2_of m c main_arg4 (by decide)).trans <| V1_of m c main_arg4 (by decide)

private theorem V5_arg6 : V5 m outs c main_arg6 = ab m c :=
  (V5_of m outs c main_arg6 (by decide)).trans <| (V4_of m outs c main_arg6 (by decide)).trans <|
    (V3_of m c main_arg6 (by decide)).trans <| (V2_of m c main_arg6 (by decide)).trans <| V1_of m c main_arg6 (by decide)

private def sel1 (A1 T1 : Fin 10240 → Fin 1024 → ℝ) (k : Fin 3) (n : Fin 10240) (j : Fin 1024) : ℝ :=
  match k with
  | ⟨0, _⟩ => X1p m c n j
  | ⟨1, _⟩ => A1 n j
  | ⟨2, _⟩ => 2 * T1 n j - X1p m c n j

private def pre1 (A1 T1 : Fin 10240 → Fin 1024 → ℝ) (n : Fin 10240) (bb : Fin 8) : ℝ :=
  (∑ j : Fin 384, sel1 m c A1 T1 ⟨j.val % 3, Nat.mod_lt _ (by norm_num)⟩ n
      ⟨j.val / 3 * 8 + bb.val, by have := j.isLt; have := bb.isLt; omega⟩ * w1R m c j) + bR m c

private def Y1p (A1 T1 : Fin 10240 → Fin 1024 → ℝ) (n : Fin 10240) (bb : Fin 8) : ℝ := max (pre1 m c A1 T1 n bb) 0

private theorem Y1p_up (A1 T1 : Fin 10240 → Fin 1024 → ℝ)
    (hA1 : ∀ (n : Fin 10000) (j : Fin 1024), A1 (up n) j = spmm (gK m c) (X1 m c) n j)
    (hT1 : ∀ (n : Fin 10000) (j : Fin 1024), T1 (up n) j = spmm (gK m c) (spmm (gK m c) (X1 m c)) n j)
    (n : Fin 10000) (bb : Fin 8) : Y1p m c A1 T1 (up n) bb = H1 m c bb n := by
  show max ((∑ j : Fin 384, sel1 m c A1 T1 ⟨j.val % 3, Nat.mod_lt _ (by norm_num)⟩ (up n)
      ⟨j.val / 3 * 8 + bb.val, by have := j.isLt; have := bb.isLt; omega⟩ * w1R m c j) + bR m c) 0
    = max ((∑ j : Fin 384, cheb (gK m c) (X1 m c) ⟨j.val % 3, Nat.mod_lt _ (by norm_num)⟩ n
      ⟨(j.val / 3) * 8 + bb.val, by have := j.isLt; have := bb.isLt; omega⟩ * w1R m c j) + bR m c) 0
  refine congrArg (fun s => max (s + bR m c) 0) (Finset.sum_congr rfl fun j _ => ?_)
  refine congrArg (· * w1R m c j) ?_

  generalize (⟨j.val % 3, Nat.mod_lt _ (by norm_num)⟩ : Fin 3) = k
  generalize (⟨j.val / 3 * 8 + bb.val, by have := j.isLt; have := bb.isLt; omega⟩ : Fin 1024) = col
  match k with
  | ⟨0, _⟩ => exact X1p_up m c n col
  | ⟨1, _⟩ => exact hA1 n col
  | ⟨2, _⟩ =>
    show 2 * T1 (up n) col - X1p m c (up n) col = 2 * spmm (gK m c) (spmm (gK m c) (X1 m c)) n col - X1 m c n col
    rw [hT1, X1p_up]

set_option maxHeartbeats 1000000 in

private theorem V6_v33 (hok : OkK m c) (A1 T1 : Fin 10240 → Fin 1024 → ℝ)
    (hA : ∀ (n : Fin 10240) (j : Fin 1024), (outs 4 main_v18 c : S10240x1024.Idx → EReal) (ix2 n j) = ((A1 n j : ℝ) : EReal))
    (hT : ∀ (n : Fin 10240) (j : Fin 1024), (outs 5 main_v19 c : S10240x1024.Idx → EReal) (ix2 n j) = ((T1 n j : ℝ) : EReal))
    (bb : Fin 8) (n : Fin 10240) :
    (V6 m outs c main_v33 : S8x10240x1.Idx → EReal) (ix3 bb n (0 : Fin 1)) = ((pre1 m c A1 T1 n bb : ℝ) : EReal) := by
  dsimp only [V6]
  results3
  dsimp only
  refine (pre33_apply' _ _ _ _ _ bcast_S_S10240x1024 bcast_S10240x1024_S1x10240x1024_1_2
    concatenates_S1x10240x1024_S1x10240x1024_S1x10240x1024_S3x10240x1024_d0 shapeCasts_S3x10240x1024_S3x10240x128x8
    transposes_S3x10240x128x8_S8x10240x128x3_3_1_2_0 shapeCasts_S8x10240x128x3_S81920x384 shapeCasts_S81920x1_S8x10240x1
    bcast_S1x1x1_S8x10240x1_0_1_2 bb n).trans ?_
  rw [V5_v17, V5_v18, V5_v19, V5_arg4, V5_arg6]

  show _ = (((∑ j : Fin 384, sel1 m c A1 T1 ⟨j.val % 3, Nat.mod_lt _ (by norm_num)⟩ n
      ⟨j.val / 3 * 8 + bb.val, by have := j.isLt; have := bb.isLt; omega⟩ * w1R m c j) + bR m c : ℝ) : EReal)
  rw [EReal.coe_add, Math.coe_sum]
  refine congrArg₂ (· + ·) (Finset.sum_congr rfl fun k _ => ?_) (hok.b_real _)
  rw [EReal.coe_mul]
  refine congrArg₂ (· * ·) ?_ (hok.w1_real _)
  generalize (⟨k.val % 3, Nat.mod_lt _ (by norm_num)⟩ : Fin 3) = kk
  generalize (⟨k.val / 3 * 8 + bb.val, by have := k.isLt; have := bb.isLt; omega⟩ : Fin 1024) = col
  match kk with
  | ⟨0, _⟩ => exact V3_X m c hok n col
  | ⟨1, _⟩ => exact hA n col
  | ⟨2, _⟩ =>
    show ((2 : ℝ) : EReal) * (outs 5 main_v19 c : S10240x1024.Idx → EReal) (ix2 n col)
        - (V3 m c main_v17 : S10240x1024.Idx → EReal) (ix2 n col) = ((2 * T1 n col - X1p m c n col : ℝ) : EReal)
    rw [hT, V3_X m c hok, EReal.coe_sub, EReal.coe_mul]

private theorem V7_v34 (hok : OkK m c) (A1 T1 : Fin 10240 → Fin 1024 → ℝ)
    (hA : ∀ (n : Fin 10240) (j : Fin 1024), (outs 4 main_v18 c : S10240x1024.Idx → EReal) (ix2 n j) = ((A1 n j : ℝ) : EReal))
    (hT : ∀ (n : Fin 10240) (j : Fin 1024), (outs 5 main_v19 c : S10240x1024.Idx → EReal) (ix2 n j) = ((T1 n j : ℝ) : EReal))
    (bb : Fin 8) (n : Fin 10240) :
    (V7 m outs c main_v34 : S8x10240x1.Idx → EReal) (ix3 bb n (0 : Fin 1)) = ((Y1p m c A1 T1 n bb : ℝ) : EReal) := by
  dsimp only [V7]
  rw [relu_stretch]
  refine (relu_apply _ bcast_S_S8x10240x1 (ix3 bb n (0 : Fin 1))).trans ?_

  rw [V6_v33 m c outs hok A1 T1 hA hT bb n, ← EReal.coe_zero, ← Math.coe_max]
  rfl

private theorem V8_v36 (hok : OkK m c) (A1 T1 : Fin 10240 → Fin 1024 → ℝ)
    (hA : ∀ (n : Fin 10240) (j : Fin 1024), (outs 4 main_v18 c : S10240x1024.Idx → EReal) (ix2 n j) = ((A1 n j : ℝ) : EReal))
    (hT : ∀ (n : Fin 10240) (j : Fin 1024), (outs 5 main_v19 c : S10240x1024.Idx → EReal) (ix2 n j) = ((T1 n j : ℝ) : EReal))
    (n : Fin 10240) (bb : Fin 8) :
    (V8 m outs c main_v36 : S10240x8.Idx → EReal) (ix2 n bb) = ((Y1p m c A1 T1 n bb : ℝ) : EReal) := by
  dsimp only [V8]
  generalize hW : V7 m outs c = W
  results3
  subst hW
  refine (cast36_apply _ _ n bb).trans ((tr35_apply _ _ n bb).trans ?_)
  exact V7_v34 m c outs hok A1 T1 hA hT bb n

private theorem V8_c5 : (V8 m outs c main_c_5 : S_.Idx → BitVec 32) = constantI S_ 32 0#32 := by
  dsimp only [V8]
  generalize V7 m outs c = W
  results3

private theorem V9_v37 (hok : OkK m c) (A1 T1 : Fin 10240 → Fin 1024 → ℝ)
    (hA : ∀ (n : Fin 10240) (j : Fin 1024), (outs 4 main_v18 c : S10240x1024.Idx → EReal) (ix2 n j) = ((A1 n j : ℝ) : EReal))
    (hT : ∀ (n : Fin 10240) (j : Fin 1024), (outs 5 main_v19 c : S10240x1024.Idx → EReal) (ix2 n j) = ((T1 n j : ℝ) : EReal))
    (n : Fin 10240) (j : Fin 128) :
    (V9 m outs c main_v37 : S10240x128.Idx → EReal) (ix2 n j)
      = (((if h : j.val < 8 then Y1p m c A1 T1 n ⟨j.val, h⟩ else 0 : ℝ)) : EReal) := by
  dsimp only [V9]
  rw [pad_stretch]
  refine (pad37_apply _ _ pads_S10240x8_S10240x128_000_01200 h_S_ n j).trans ?_
  by_cases hj : j.val < 8
  · rw [dif_pos hj, dif_pos hj]
    exact V8_v36 m c outs hok A1 T1 hA hT n ⟨j.val, hj⟩
  · rw [dif_neg hj, dif_neg hj, V8_c5, padv_apply, EReal.coe_zero]

theorem V9_Y (hok : OkK m c) (A1 T1 : Fin 10240 → Fin 1024 → ℝ)
    (hA : ∀ (n : Fin 10240) (j : Fin 1024), (outs 4 main_v18 c : S10240x1024.Idx → EReal) (ix2 n j) = ((A1 n j : ℝ) : EReal))
    (hT : ∀ (n : Fin 10240) (j : Fin 1024), (outs 5 main_v19 c : S10240x1024.Idx → EReal) (ix2 n j) = ((T1 n j : ℝ) : EReal))
    (hA1 : ∀ (n : Fin 10000) (j : Fin 1024), A1 (up n) j = spmm (gK m c) (X1 m c) n j)
    (hT1 : ∀ (n : Fin 10000) (j : Fin 1024), T1 (up n) j = spmm (gK m c) (spmm (gK m c) (X1 m c)) n j) :
    ∃ Yp : Fin 10240 → Fin 8 → ℝ,
      (∀ (n : Fin 10240) (bb : Fin 8), (V9 m outs c main_v36 : S10240x8.Idx → EReal) (ix2 n bb) = ((Yp n bb : ℝ) : EReal))
      ∧ (∀ (n : Fin 10240) (j : Fin 128), (V9 m outs c main_v37 : S10240x128.Idx → EReal) (ix2 n j)
            = (((if h : j.val < 8 then Yp n ⟨j.val, h⟩ else 0 : ℝ)) : EReal))
      ∧ (∀ (n : Fin 10000) (bb : Fin 8), Yp (up n) bb = H1 m c bb n) := by
  refine ⟨Y1p m c A1 T1, fun n bb => ?_, fun n j => V9_v37 m c outs hok A1 T1 hA hT n j,
    fun n bb => Y1p_up m c A1 T1 hA1 hT1 n bb⟩

  rw [V9_of m outs c main_v36 (by decide)]
  exact V8_v36 m c outs hok A1 T1 hA hT n bb

end Cert.KSide

end
-- ==== Proof.KHost2.lean ====
/- The host operations after the last product, read at an index: the result from the second layer's three Chebyshev terms. -/
import proofs.«416138_j67946382623286_1_alg».proof.Proof.KHost0
import Idealize.ShloMosaic.Lib.Pipeline.Value
import Idealize.ShloMosaic.Lib.ValueIdx
import Idealize.ShloMosaic.PureOps.Ideal.Laws
import Idealize.ShloMosaic.Lib.StableHlo.Run

noncomputable section

open scoped BigOperators

namespace Cert.KSide

open Cert.KernelIdeal Cert.KernelIdeal.Gen Cert.Spec Cert.Math
open Idealize.ShloMosaic Idealize.ShloMosaic.TcCoe Idealize.ShloMosaic.ValueIdx Idealize.SL.Sem

variable (m : (ℓ : Loc nD τ sig) → Buf (Elt Ideal) ℓ) (c : Dev nD)

variable (outs : Outs (F := Ideal))

private abbrev C (s : Shape) : Type := (⟨s, .f32⟩ : BufTy).Contents (Elt Ideal)

private theorem ofBits_two_f32 : Ideal.ofBits .f32 0x40000000#32 = ((2 : ℝ) : EReal) := by
  simp [Ideal.ofBits, Ideal.ieee, -EReal.coe_mul]; norm_num

private def x2p (a37 a39 : C S10240x128) : C S10240x128 :=
  subf (mulf (broadcastInDim S10240x128 ![] bcast_S_S10240x128 (constant (F := Ideal) S_ .f32 0x40000000#32)) a39) a37

private theorem x2p_apply (a37 a39 : C S10240x128) (i : S10240x128.Idx) :
    x2p a37 a39 i = ((2 : ℝ) : EReal) * a39 i - a37 i := by
  unfold x2p
  rw [subf_apply, mulf_apply,
    broadcastInDim_apply _ bcast_S_S10240x128 (constant (F := Ideal) S_ .f32 0x40000000#32) i ix0 (fun a => a.elim0),
    constant_apply, ofBits_two_f32]

private theorem slice8_apply (x : C S10240x128) (n : Fin 10240) (bb : Fin 8) :
    extractStridedSlice S10240x8 ![0, 0] x slices_S10240x128_S10240x8_0_0 (ix2 n bb) = x (ix2 n ⟨bb.val, by omega⟩) := by
  refine extractStridedSlice_apply _ x slices_S10240x128_S10240x8_0_0 (ix2 n bb) (ix2 n ⟨bb.val, by omega⟩) (fun a => ?_)
  match a with
  | ⟨0, _⟩ => show n.val = 0 + n.val; omega
  | ⟨1, _⟩ => show bb.val = 0 + bb.val; omega

private theorem lead_apply (x : C S10240x8) (n : Fin 10240) (bb : Fin 8) :
    broadcastInDim S1x10240x8 ![1, 2] bcast_S10240x8_S1x10240x8_1_2 x (ix3 (0 : Fin 1) n bb) = x (ix2 n bb) := by
  refine broadcastInDim_apply _ bcast_S10240x8_S1x10240x8_1_2 x _ (ix2 n bb) (fun a => ?_)
  match a with
  | ⟨0, _⟩ => show n.val = if (10240 : Nat) = 1 then 0 else n.val; rw [if_neg (by decide)]
  | ⟨1, _⟩ => show bb.val = if (8 : Nat) = 1 then 0 else bb.val; rw [if_neg (by decide)]

private theorem cat0_apply (u0 u1 u2 : C S1x10240x8) (n : Fin 10240) (bb : Fin 8) :
    concatenate S3x10240x8 0 [⟨S1x10240x8, u0⟩, ⟨S1x10240x8, u1⟩, ⟨S1x10240x8, u2⟩]
        concatenates_S1x10240x8_S1x10240x8_S1x10240x8_S3x10240x8_d0 (ix3 (0 : Fin 3) n bb)
      = u0 (ix3 (0 : Fin 1) n bb) := by
  refine concatenate_apply_piece (0 : Fin S3x10240x8.rank) _ _ (ix3 (0 : Fin 3) n bb) 0 (by show (0 : Nat) < 3; omega) S1x10240x8 u0 rfl rfl 0 rfl
    (ix3 (0 : Fin 1) n bb) (fun b hb => ?_) rfl
  match b with
  | ⟨0, _⟩ => exact absurd rfl hb
  | ⟨1, _⟩ => rfl
  | ⟨2, _⟩ => rfl

private theorem cat1_apply (u0 u1 u2 : C S1x10240x8) (n : Fin 10240) (bb : Fin 8) :
    concatenate S3x10240x8 0 [⟨S1x10240x8, u0⟩, ⟨S1x10240x8, u1⟩, ⟨S1x10240x8, u2⟩]
        concatenates_S1x10240x8_S1x10240x8_S1x10240x8_S3x10240x8_d0 (ix3 (1 : Fin 3) n bb)
      = u1 (ix3 (0 : Fin 1) n bb) := by
  refine concatenate_apply_piece (0 : Fin S3x10240x8.rank) _ _ (ix3 (1 : Fin 3) n bb) 1 (by show (1 : Nat) < 3; omega) S1x10240x8 u1 rfl rfl 1 rfl
    (ix3 (0 : Fin 1) n bb) (fun b hb => ?_) rfl
  match b with
  | ⟨0, _⟩ => exact absurd rfl hb
  | ⟨1, _⟩ => rfl
  | ⟨2, _⟩ => rfl

private theorem cat2_apply (u0 u1 u2 : C S1x10240x8) (n : Fin 10240) (bb : Fin 8) :
    concatenate S3x10240x8 0 [⟨S1x10240x8, u0⟩, ⟨S1x10240x8, u1⟩, ⟨S1x10240x8, u2⟩]
        concatenates_S1x10240x8_S1x10240x8_S1x10240x8_S3x10240x8_d0 (ix3 (2 : Fin 3) n bb)
      = u2 (ix3 (0 : Fin 1) n bb) := by
  refine concatenate_apply_piece (0 : Fin S3x10240x8.rank) _ _ (ix3 (2 : Fin 3) n bb) 2 (by show (2 : Nat) < 3; omega) S1x10240x8 u2 rfl rfl 2 rfl
    (ix3 (0 : Fin 1) n bb) (fun b hb => ?_) rfl
  match b with
  | ⟨0, _⟩ => exact absurd rfl hb
  | ⟨1, _⟩ => rfl
  | ⟨2, _⟩ => rfl

private def lhs51 (x : C S3x10240x8) : C S81920x3 :=
  shapeCast S81920x3 (transpose S8x10240x1x3 [3, 1, 2, 0] (shapeCast S3x10240x1x8 x shapeCasts_S3x10240x8_S3x10240x1x8)
    transposes_S3x10240x1x8_S8x10240x1x3_3_1_2_0) shapeCasts_S8x10240x1x3_S81920x3

private theorem lhs51_apply (x : C S3x10240x8) (bb : Fin 8) (n : Fin 10240) (k : Fin 3) :
    lhs51 x (ix2 (⟨bb.val * 10240 + n.val, by omega⟩ : Fin 81920) k) = x (ix3 k n bb) := by
  unfold lhs51
  refine (shapeCast_apply _ shapeCasts_S8x10240x1x3_S81920x3 _ (ix4 bb n (0 : Fin 1) k) ?_).trans ?_
  · rewrite [Shape.rowMajor_val_four, Shape.rowMajor_val_two]
    show ((bb.val * 10240 + n.val) * 1 + 0) * 3 + k.val = (bb.val * 10240 + n.val) * 3 + k.val
    omega
  refine (transpose_apply [3, 1, 2, 0] _ transposes_S3x10240x1x8_S8x10240x1x3_3_1_2_0 _ (ix4 k n (0 : Fin 1) bb) (fun b => ?_)).trans ?_
  · match b with
    | ⟨0, _⟩ => rfl
    | ⟨1, _⟩ => rfl
    | ⟨2, _⟩ => rfl
    | ⟨3, _⟩ => rfl
  refine shapeCast_apply x shapeCasts_S3x10240x8_S3x10240x1x8 _ (ix3 k n bb) ?_
  rewrite [Shape.rowMajor_val_three, Shape.rowMajor_val_four]
  show (k.val * 10240 + n.val) * 8 + bb.val = ((k.val * 10240 + n.val) * 1 + 0) * 8 + bb.val
  omega

private theorem dot_lhs0 (i : S81920x1.Idx) (q : dot_S81920x3_S3x1_S81920x1_1_0_0_1_n_n.contr.Idx) :
    (dot_S81920x3_S3x1_S81920x1_1_0_0_1_n_n.lhsIdx i q 0).val = (i 0).val := by
  unfold DotDims.lhsIdx
  rw [dif_neg (show ¬(0 : Fin S81920x3.rank) ∈ dot_S81920x3_S3x1_S81920x1_1_0_0_1_n_n.lhsBatch by decide),
    dif_pos (show (0 : Fin S81920x3.rank) ∈ dot_S81920x3_S3x1_S81920x1_1_0_0_1_n_n.lhsNonContracting by decide)]
  rfl
private theorem dot_lhs1 (i : S81920x1.Idx) (q : dot_S81920x3_S3x1_S81920x1_1_0_0_1_n_n.contr.Idx) :
    (dot_S81920x3_S3x1_S81920x1_1_0_0_1_n_n.lhsIdx i q 1).val = (q ⟨0, by decide⟩).val :=
  dot_S81920x3_S3x1_S81920x1_1_0_0_1_n_n.lhsIdx_val_of_single rfl i q
private theorem dot_rhs0 (i : S81920x1.Idx) (q : dot_S81920x3_S3x1_S81920x1_1_0_0_1_n_n.contr.Idx) :
    (dot_S81920x3_S3x1_S81920x1_1_0_0_1_n_n.rhsIdx i q 0).val = (q ⟨0, by decide⟩).val :=
  dot_S81920x3_S3x1_S81920x1_1_0_0_1_n_n.rhsIdx_val_of_single rfl i q
private theorem dot_rhs1 (i : S81920x1.Idx) (q : dot_S81920x3_S3x1_S81920x1_1_0_0_1_n_n.contr.Idx) :
    (dot_S81920x3_S3x1_S81920x1_1_0_0_1_n_n.rhsIdx i q 1).val = (i 1).val := by
  unfold DotDims.rhsIdx
  rw [dif_neg (show ¬(1 : Fin S3x1.rank) ∈ dot_S81920x3_S3x1_S81920x1_1_0_0_1_n_n.rhsBatch by decide),
    dif_pos (show (1 : Fin S3x1.rank) ∈ dot_S81920x3_S3x1_S81920x1_1_0_0_1_n_n.rhsNonContracting by decide)]
  rfl

private theorem dot_apply (l : C S81920x3) (w : C S3x1) (r : Fin 81920) :
    (Host.dotGeneral (F := Ideal) (φ₁ := .f32) (φ₂ := .f32) dot_S81920x3_S3x1_S81920x1_1_0_0_1_n_n none l w : C S81920x1) (ix2 r (0 : Fin 1))
      = ∑ k : Fin 3, l (ix2 r k) * w (ix2 k (0 : Fin 1)) := by
  simp only [Host.dotGeneral]
  rw [Ideal.dotGeneral_apply, ← Equiv.sum_comp (ValueIdx.contrEquiv1 dot_S81920x3_S3x1_S81920x1_1_0_0_1_n_n 3 rfl rfl).symm]
  refine Finset.sum_congr rfl fun k _ => ?_
  have hk := ValueIdx.contrEquiv1_symm_val dot_S81920x3_S3x1_S81920x1_1_0_0_1_n_n 3 rfl rfl k
  have el : dot_S81920x3_S3x1_S81920x1_1_0_0_1_n_n.lhsIdx (ix2 r (0 : Fin 1))
      ((ValueIdx.contrEquiv1 dot_S81920x3_S3x1_S81920x1_1_0_0_1_n_n 3 rfl rfl).symm k) = ix2 r k := funext fun a => Fin.ext (by
    match a with
    | ⟨0, _⟩ => exact dot_lhs0 _ _
    | ⟨1, _⟩ => exact (dot_lhs1 _ _).trans hk)
  have er : dot_S81920x3_S3x1_S81920x1_1_0_0_1_n_n.rhsIdx (ix2 r (0 : Fin 1))
      ((ValueIdx.contrEquiv1 dot_S81920x3_S3x1_S81920x1_1_0_0_1_n_n 3 rfl rfl).symm k) = ix2 k (0 : Fin 1) := funext fun a => Fin.ext (by
    match a with
    | ⟨0, _⟩ => exact (dot_rhs0 _ _).trans hk
    | ⟨1, _⟩ => exact dot_rhs1 _ _)
  rw [el, er]

private def stack48 (a36 : C S10240x8) (a37 a38 a39 : C S10240x128) : C S3x10240x8 :=
  concatenate S3x10240x8 0
    [⟨S1x10240x8, broadcastInDim S1x10240x8 ![1, 2] bcast_S10240x8_S1x10240x8_1_2 a36⟩,
     ⟨S1x10240x8, broadcastInDim S1x10240x8 ![1, 2] bcast_S10240x8_S1x10240x8_1_2
        (extractStridedSlice S10240x8 ![0, 0] a38 slices_S10240x128_S10240x8_0_0)⟩,
     ⟨S1x10240x8, broadcastInDim S1x10240x8 ![1, 2] bcast_S10240x8_S1x10240x8_1_2
        (extractStridedSlice S10240x8 ![0, 0] (x2p a37 a39) slices_S10240x128_S10240x8_0_0)⟩]
    concatenates_S1x10240x8_S1x10240x8_S1x10240x8_S3x10240x8_d0

private theorem stack48_apply0 (a36 : C S10240x8) (a37 a38 a39 : C S10240x128) (n : Fin 10240) (bb : Fin 8) :
    stack48 a36 a37 a38 a39 (ix3 (0 : Fin 3) n bb) = a36 (ix2 n bb) := by
  unfold stack48
  rw [cat0_apply, lead_apply]

private theorem stack48_apply1 (a36 : C S10240x8) (a37 a38 a39 : C S10240x128) (n : Fin 10240) (bb : Fin 8) :
    stack48 a36 a37 a38 a39 (ix3 (1 : Fin 3) n bb) = a38 (ix2 n ⟨bb.val, by omega⟩) := by
  unfold stack48
  rw [cat1_apply, lead_apply, slice8_apply]

private theorem stack48_apply2 (a36 : C S10240x8) (a37 a38 a39 : C S10240x128) (n : Fin 10240) (bb : Fin 8) :
    stack48 a36 a37 a38 a39 (ix3 (2 : Fin 3) n bb)
      = ((2 : ℝ) : EReal) * a39 (ix2 n ⟨bb.val, by omega⟩) - a37 (ix2 n ⟨bb.val, by omega⟩) := by
  unfold stack48
  rw [cat2_apply, lead_apply, slice8_apply, x2p_apply]

private def pre55 (l : C S81920x3) (w : C S3x1) (b : C S1x1x1) : C S8x10240x1 :=
  addf (shapeCast S8x10240x1 (Host.dotGeneral (F := Ideal) (φ₁ := .f32) (φ₂ := .f32) dot_S81920x3_S3x1_S81920x1_1_0_0_1_n_n none l w)
      shapeCasts_S81920x1_S8x10240x1)
    (broadcastInDim S8x10240x1 ![0, 1, 2] bcast_S1x1x1_S8x10240x1_0_1_2 b)

private theorem pre55_apply (l : C S81920x3) (w : C S3x1) (b : C S1x1x1) (bb : Fin 8) (n : Fin 10240) :
    pre55 l w b (ix3 bb n (0 : Fin 1))
      = (∑ k : Fin 3, l (ix2 (⟨bb.val * 10240 + n.val, by omega⟩ : Fin 81920) k) * w (ix2 k (0 : Fin 1)))
        + b (ix3 (0 : Fin 1) (0 : Fin 1) (0 : Fin 1)) := by
  unfold pre55
  rw [addf_apply]
  congr 1
  · refine (shapeCast_apply _ shapeCasts_S81920x1_S8x10240x1 _
      (ix2 (⟨bb.val * 10240 + n.val, by omega⟩ : Fin 81920) (0 : Fin 1)) ?_).trans (dot_apply l w _)
    rewrite [Shape.rowMajor_val_two, Shape.rowMajor_val_three]
    rfl
  · refine broadcastInDim_apply _ bcast_S1x1x1_S8x10240x1_0_1_2 b _ (ix3 (0 : Fin 1) (0 : Fin 1) (0 : Fin 1)) (fun a => ?_)
    match a with
    | ⟨0, _⟩ => show (0 : Nat) = if (1 : Nat) = 1 then 0 else bb.val; rw [if_pos rfl]
    | ⟨1, _⟩ => show (0 : Nat) = if (1 : Nat) = 1 then 0 else n.val; rw [if_pos rfl]
    | ⟨2, _⟩ => show (0 : Nat) = if (1 : Nat) = 1 then 0 else 0; rw [if_pos rfl]

private def out58 (p : C S8x10240x1) : C S8x10000 :=
  shapeCast S8x10000 (extractStridedSlice S8x10000x1 ![0, 0, 0]
      (maximumf p (broadcastInDim S8x10240x1 ![] bcast_S_S8x10240x1 (constant (F := Ideal) S_ .f32 0x00000000#32)))
      slices_S8x10240x1_S8x10000x1_0_0_0)
    shapeCasts_S8x10000x1_S8x10000

private theorem out58_apply (p : C S8x10240x1) (bb : Fin 8) (n : Fin 10000) :
    out58 p (ix2 bb n) = max (p (ix3 bb (⟨n.val, by omega⟩ : Fin 10240) (0 : Fin 1))) 0 := by
  unfold out58
  refine (shapeCast_apply _ shapeCasts_S8x10000x1_S8x10000 _ (ix3 bb n (0 : Fin 1)) ?_).trans ?_
  · rewrite [Shape.rowMajor_val_three, Shape.rowMajor_val_two]
    show (bb.val * 10000 + n.val) * 1 + 0 = bb.val * 10000 + n.val
    omega
  refine (extractStridedSlice_apply _ _ slices_S8x10240x1_S8x10000x1_0_0_0 _
    (ix3 bb (⟨n.val, by omega⟩ : Fin 10240) (0 : Fin 1)) (fun a => ?_)).trans ?_
  · match a with
    | ⟨0, _⟩ => show bb.val = 0 + bb.val; omega
    | ⟨1, _⟩ => show n.val = 0 + n.val; omega
    | ⟨2, _⟩ => show (0 : Nat) = 0 + 0; rfl
  rw [maximumf_apply,
    broadcastInDim_apply _ bcast_S_S8x10240x1 (constant (F := Ideal) S_ .f32 0x00000000#32) _ ix0 (fun a => a.elim0),
    constant_apply, Ideal.ofBits_zero_f32]

private def res58 (a36 : C S10240x8) (a37 a38 a39 : C S10240x128) (w : C S3x1) (b : C S1x1x1) : C S8x10000 :=
  out58 (pre55 (lhs51 (stack48 a36 a37 a38 a39)) w b)

private theorem res58_apply (a36 : C S10240x8) (a37 a38 a39 : C S10240x128) (w : C S3x1) (b : C S1x1x1)
    (bb : Fin 8) (n : Fin 10000) :
    res58 a36 a37 a38 a39 w b (ix2 bb n)
      = max ((a36 (ix2 (⟨n.val, by omega⟩ : Fin 10240) bb) * w (ix2 (0 : Fin 3) (0 : Fin 1))
            + a38 (ix2 (⟨n.val, by omega⟩ : Fin 10240) ⟨bb.val, by omega⟩) * w (ix2 (1 : Fin 3) (0 : Fin 1))
            + (((2 : ℝ) : EReal) * a39 (ix2 (⟨n.val, by omega⟩ : Fin 10240) ⟨bb.val, by omega⟩)
                - a37 (ix2 (⟨n.val, by omega⟩ : Fin 10240) ⟨bb.val, by omega⟩)) * w (ix2 (2 : Fin 3) (0 : Fin 1)))
          + b (ix3 (0 : Fin 1) (0 : Fin 1) (0 : Fin 1))) 0 := by
  unfold res58
  rw [out58_apply, pre55_apply, Fin.sum_univ_three, lhs51_apply, lhs51_apply, lhs51_apply,
    stack48_apply0, stack48_apply1, stack48_apply2]

set_option maxHeartbeats 1000000 in

private theorem V14_v58_eq :
    (V14 m outs c main_v58 : C S8x10000)
      = res58 (V11 m outs c main_v36) (V11 m outs c main_v37) (V11 m outs c main_v38) (V11 m outs c main_v39)
          (V11 m outs c main_arg5) (V11 m outs c main_arg6) := by
  dsimp only [V14, V13, V12]
  generalize V11 m outs c = W
  after_results
  dsimp only [Matrix.cons_val]
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))
  rfl

private theorem V11_v36 : V11 m outs c main_v36 = V9 m outs c main_v36 :=
  (V11_of m outs c main_v36 (by decide)).trans (V10_of m outs c main_v36 (by decide))
private theorem V11_v37 : V11 m outs c main_v37 = V9 m outs c main_v37 :=
  (V11_of m outs c main_v37 (by decide)).trans (V10_of m outs c main_v37 (by decide))
private theorem V11_v38 : V11 m outs c main_v38 = outs 10 main_v38 c :=
  (V11_of m outs c main_v38 (by decide)).trans (by simp only [V10, Function.update_self])
private theorem V11_v39 : V11 m outs c main_v39 = outs 11 main_v39 c := by
  simp only [V11, Function.update_self]
private theorem V11_arg5 : V11 m outs c main_arg5 = m ((c.tc : Thread nD τ).loc main_arg5) :=
  (V11_of m outs c main_arg5 (by decide)).trans <| (V10_of m outs c main_arg5 (by decide)).trans <|
  (V9_of m outs c main_arg5 (by decide)).trans <| (V8_of m outs c main_arg5 (by decide)).trans <|
  (V7_of m outs c main_arg5 (by decide)).trans <| (V6_of m outs c main_arg5 (by decide)).trans <|
  (V5_of m outs c main_arg5 (by decide)).trans <| (V4_of m outs c main_arg5 (by decide)).trans <|
  (V3_of m c main_arg5 (by decide)).trans <| (V2_of m c main_arg5 (by decide)).trans <|
  (V1_of m c main_arg5 (by decide)).trans rfl
private theorem V11_arg6 : V11 m outs c main_arg6 = m ((c.tc : Thread nD τ).loc main_arg6) :=
  (V11_of m outs c main_arg6 (by decide)).trans <| (V10_of m outs c main_arg6 (by decide)).trans <|
  (V9_of m outs c main_arg6 (by decide)).trans <| (V8_of m outs c main_arg6 (by decide)).trans <|
  (V7_of m outs c main_arg6 (by decide)).trans <| (V6_of m outs c main_arg6 (by decide)).trans <|
  (V5_of m outs c main_arg6 (by decide)).trans <| (V4_of m outs c main_arg6 (by decide)).trans <|
  (V3_of m c main_arg6 (by decide)).trans <| (V2_of m c main_arg6 (by decide)).trans <|
  (V1_of m c main_arg6 (by decide)).trans rfl

private theorem layer2_coe (g : Graph) (Y : Fin 10000 → Fin 8 → ℝ) (w : Fin 3 → ℝ) (b : ℝ) (bb : Fin 8) (n : Fin 10000) :
    ((layer2 g Y w b bb n : ℝ) : EReal)
      = max (((Y n bb : ℝ) : EReal) * ((w 0 : ℝ) : EReal) + ((spmm g Y n bb : ℝ) : EReal) * ((w 1 : ℝ) : EReal)
          + (((2 : ℝ) : EReal) * ((spmm g (spmm g Y) n bb : ℝ) : EReal) - ((Y n bb : ℝ) : EReal)) * ((w 2 : ℝ) : EReal)
          + ((b : ℝ) : EReal)) 0 := by
  unfold layer2
  rw [Fin.sum_univ_three]
  show ((max ((Y n bb * w 0 + spmm g Y n bb * w 1 + (2 * spmm g (spmm g Y) n bb - Y n bb) * w 2) + b) 0 : ℝ) : EReal) = _
  simp only [coe_max, EReal.coe_zero, EReal.coe_add, EReal.coe_mul, EReal.coe_sub]

theorem V14_result (hok : OkK m c) (Yp : Fin 10240 → Fin 8 → ℝ) (A2 T2 : Fin 10240 → Fin 128 → ℝ)
    (h36 : ∀ (n : Fin 10240) (bb : Fin 8), (V9 m outs c main_v36 : S10240x8.Idx → EReal) (ix2 n bb) = ((Yp n bb : ℝ) : EReal))
    (h37 : ∀ (n : Fin 10240) (j : Fin 128), (V9 m outs c main_v37 : S10240x128.Idx → EReal) (ix2 n j)
            = (((if h : j.val < 8 then Yp n ⟨j.val, h⟩ else 0 : ℝ)) : EReal))
    (hA : ∀ (n : Fin 10240) (j : Fin 128), (outs 10 main_v38 c : S10240x128.Idx → EReal) (ix2 n j) = ((A2 n j : ℝ) : EReal))
    (hT : ∀ (n : Fin 10240) (j : Fin 128), (outs 11 main_v39 c : S10240x128.Idx → EReal) (ix2 n j) = ((T2 n j : ℝ) : EReal))
    (hA2 : ∀ (n : Fin 10000) (bb : Fin 8), A2 (up n) ⟨bb.val, by omega⟩ = spmm (gK m c) (fun n bb => Yp (up n) bb) n bb)
    (hT2 : ∀ (n : Fin 10000) (bb : Fin 8), T2 (up n) ⟨bb.val, by omega⟩
        = spmm (gK m c) (spmm (gK m c) (fun n bb => Yp (up n) bb)) n bb)
    (bb : Fin 8) (n : Fin 10000) :
    (V14 m outs c main_v58 : S8x10000.Idx → EReal) (ix2 bb n)
      = ((layer2 (gK m c) (fun n bb => Yp (up n) bb) (w2R m c) (bR m c) bb n : ℝ) : EReal) := by

  have e36 : (V9 m outs c main_v36 : S10240x8.Idx → EReal) (ix2 (up n) bb) = ((Yp (up n) bb : ℝ) : EReal) := h36 (up n) bb
  have e37 : (V9 m outs c main_v37 : S10240x128.Idx → EReal) (ix2 (up n) (⟨bb.val, by omega⟩ : Fin 128))
      = ((Yp (up n) bb : ℝ) : EReal) := by
    rw [h37, dif_pos (show (⟨bb.val, by omega⟩ : Fin 128).val < 8 from bb.isLt)]
  have e38 : (outs 10 main_v38 c : S10240x128.Idx → EReal) (ix2 (up n) (⟨bb.val, by omega⟩ : Fin 128))
      = ((spmm (gK m c) (fun n bb => Yp (up n) bb) n bb : ℝ) : EReal) := by
    rw [hA, hA2]
  have e39 : (outs 11 main_v39 c : S10240x128.Idx → EReal) (ix2 (up n) (⟨bb.val, by omega⟩ : Fin 128))
      = ((spmm (gK m c) (spmm (gK m c) (fun n bb => Yp (up n) bb)) n bb : ℝ) : EReal) := by
    rw [hT, hT2]

  have hw : ∀ k : Fin 3, (m ((c.tc : Thread nD τ).loc main_arg5) : S3x1.Idx → EReal) (ix2 k (0 : Fin 1))
      = ((w2R m c k : ℝ) : EReal) := fun k => hok.w2_real _
  have hb : (m ((c.tc : Thread nD τ).loc main_arg6) : S1x1x1.Idx → EReal) (ix3 (0 : Fin 1) (0 : Fin 1) (0 : Fin 1))
      = ((bR m c : ℝ) : EReal) := hok.b_real _
  rw [V14_v58_eq, res58_apply, V11_v36, V11_v37, V11_v38, V11_v39, V11_arg5, V11_arg6, layer2_coe]
  rw [e36, e37, e38, e39, hw, hw, hw, hb]

end Cert.KSide

end
-- ==== Proof.KernelValue.lean ====
/- The kernel's result, read through its four products and the host operations between them, is the common form. -/
import proofs.«416138_j67946382623286_1_alg».proof.Proof.KI.Whole
import proofs.«416138_j67946382623286_1_alg».proof.Proof.KI.Val0
import proofs.«416138_j67946382623286_1_alg».proof.Proof.KI.Val1
import proofs.«416138_j67946382623286_1_alg».proof.Proof.KI.Val2
import proofs.«416138_j67946382623286_1_alg».proof.Proof.KI.Val3
import proofs.«416138_j67946382623286_1_alg».proof.Proof.KHost0
import proofs.«416138_j67946382623286_1_alg».proof.Proof.KHostL
import proofs.«416138_j67946382623286_1_alg».proof.Proof.KHost1
import proofs.«416138_j67946382623286_1_alg».proof.Proof.KHost2

noncomputable section

open scoped BigOperators

namespace Cert.KSide

open Cert.KernelIdeal Cert.KernelIdeal.Gen Cert.KernelIdeal.Frame Cert.Spec Cert.Math
open Idealize.ShloMosaic Idealize.ShloMosaic.TcCoe Idealize.ShloMosaic.ValueIdx Idealize.SL.Sem

variable (m : (ℓ : Loc nD τ sig) → Buf (Elt Ideal) ℓ) (c : Dev nD)

theorem spmm_col (g : Graph) {C D : Nat} (Y : Fin 10000 → Fin C → ℝ) (f : Fin D → Fin C) (n : Fin 10000) (j : Fin D) :
    spmm g Y n (f j) = spmm g (fun n j => Y n (f j)) n j := rfl

theorem spmm_congr (g : Graph) {C : Nat} (Y Y' : Fin 10000 → Fin C → ℝ) (h : ∀ n j, Y n j = Y' n j) (n : Fin 10000) (j : Fin C) :
    spmm g Y n j = spmm g Y' n j := by
  have : Y = Y' := funext fun n => funext fun j => h n j
  rw [this]

theorem L_at9 (outs : Outs (F := Ideal)) : V9 m outs c main_v14 = V3 m c main_v14 :=
  (V9_of m outs c main_v14 (by decide)).trans <| (V8_of m outs c main_v14 (by decide)).trans <|
  (V7_of m outs c main_v14 (by decide)).trans <| (V6_of m outs c main_v14 (by decide)).trans <|
  (V5_of m outs c main_v14 (by decide)).trans (V4_of m outs c main_v14 (by decide))

theorem kernel_value (hok : OkK m c) (bb : Fin 8) (n : Fin 10000) :
    (V14 m (outsF m) c main_v58 : S8x10000.Idx → EReal) (ix2 bb n)
      = G (ax m c) (arows m c) (acols m c) (avals m c) (aw1 m c) (aw2 m c) (ab m c) (ix2 bb n) := by

  have hL3 : ∀ r q : Fin 10240, (Wr3 m c main_v14 : S10240x10240.Idx → EReal) (ix2 r q) = ((Lmat (gK m c) r q : ℝ) : EReal) :=
    V3_L m c hok
  have hX3 : ∀ (n : Fin 10240) (j : Fin 1024), (Wr3 m c main_v17 : S10240x1024.Idx → EReal) (ix2 n j) = ((X1p m c n j : ℝ) : EReal) :=
    V3_X m c hok

  have h18 : ∀ (n : Fin 10240) (j : Fin 1024), (outsF m 4 main_v18 c : S10240x1024.Idx → EReal) (ix2 n j)
      = ((mm (Lmat (gK m c)) (X1p m c) n j : ℝ) : EReal) := fun n j => by
    rw [outsF_v18]; exact reg0_value (Wr3 m) c _ _ hL3 hX3 n j
  have hA1 : ∀ (n : Fin 10000) (j : Fin 1024), mm (Lmat (gK m c)) (X1p m c) (up n) j = spmm (gK m c) (X1 m c) n j :=
    fun n j => mm_Lmat (gK m c) (X1p m c) (X1 m c) (X1p_up m c) n j

  have hL4 : ∀ r q : Fin 10240, (Wr4 m c main_v14 : S10240x10240.Idx → EReal) (ix2 r q) = ((Lmat (gK m c) r q : ℝ) : EReal) := fun r q => by
    rw [show Wr4 m c main_v14 = Wr3 m c main_v14 from Function.update_of_ne (StableHlo.devRef_ne_of_ne (by decide)) _ _]
    exact hL3 r q
  have h18' : ∀ (n : Fin 10240) (j : Fin 1024), (Wr4 m c main_v18 : S10240x1024.Idx → EReal) (ix2 n j)
      = ((mm (Lmat (gK m c)) (X1p m c) n j : ℝ) : EReal) := fun n j => by
    rw [show Wr4 m c main_v18 = (dat0 (Wr3 m) c).arrAt 2 cfg0.N from Function.update_self _ _ _]
    exact reg0_value (Wr3 m) c _ _ hL3 hX3 n j
  have h19 : ∀ (n : Fin 10240) (j : Fin 1024), (outsF m 5 main_v19 c : S10240x1024.Idx → EReal) (ix2 n j)
      = ((mm (Lmat (gK m c)) (mm (Lmat (gK m c)) (X1p m c)) n j : ℝ) : EReal) := fun n j => by
    rw [outsF_v19]; exact reg1_value (Wr4 m) c _ _ hL4 h18' n j
  have hT1 : ∀ (n : Fin 10000) (j : Fin 1024),
      mm (Lmat (gK m c)) (mm (Lmat (gK m c)) (X1p m c)) (up n) j = spmm (gK m c) (spmm (gK m c) (X1 m c)) n j :=
    fun n j => mm_Lmat (gK m c) (mm (Lmat (gK m c)) (X1p m c)) (spmm (gK m c) (X1 m c)) hA1 n j

  obtain ⟨Yp, h36, h37, hYp⟩ := V9_Y m c (outsF m) hok _ _ h18 h19 hA1 hT1

  have hL9 : ∀ r q : Fin 10240, (Wr9 m c main_v14 : S10240x10240.Idx → EReal) (ix2 r q) = ((Lmat (gK m c) r q : ℝ) : EReal) := fun r q => by
    rw [show Wr9 m c main_v14 = V9 m (outsF m) c main_v14 from by rw [V9_eq], L_at9]
    exact hL3 r q
  have hY9 : ∀ (n : Fin 10240) (j : Fin 128), (Wr9 m c main_v37 : S10240x128.Idx → EReal) (ix2 n j)
      = (((if h : j.val < 8 then Yp n ⟨j.val, h⟩ else 0 : ℝ)) : EReal) := fun n j => by
    rw [show Wr9 m c main_v37 = V9 m (outsF m) c main_v37 from by rw [V9_eq]]
    exact h37 n j
  have h38 : ∀ (n : Fin 10240) (j : Fin 128), (outsF m 10 main_v38 c : S10240x128.Idx → EReal) (ix2 n j)
      = ((mm (Lmat (gK m c)) (fun n (j : Fin 128) => if h : j.val < 8 then Yp n ⟨j.val, h⟩ else 0) n j : ℝ) : EReal) := fun n j => by
    rw [outsF_v38]; exact reg2_value (Wr9 m) c _ _ hL9 hY9 n j

  have hL10 : ∀ r q : Fin 10240, (Wr10 m c main_v14 : S10240x10240.Idx → EReal) (ix2 r q) = ((Lmat (gK m c) r q : ℝ) : EReal) := fun r q => by
    rw [show Wr10 m c main_v14 = Wr9 m c main_v14 from Function.update_of_ne (StableHlo.devRef_ne_of_ne (by decide)) _ _]
    exact hL9 r q
  have h38' : ∀ (n : Fin 10240) (j : Fin 128), (Wr10 m c main_v38 : S10240x128.Idx → EReal) (ix2 n j)
      = ((mm (Lmat (gK m c)) (fun n (j : Fin 128) => if h : j.val < 8 then Yp n ⟨j.val, h⟩ else 0) n j : ℝ) : EReal) := fun n j => by
    rw [show Wr10 m c main_v38 = (dat2 (Wr9 m) c).arrAt 2 cfg2.N from Function.update_self _ _ _]
    exact reg2_value (Wr9 m) c _ _ hL9 hY9 n j
  have h39 : ∀ (n : Fin 10240) (j : Fin 128), (outsF m 11 main_v39 c : S10240x128.Idx → EReal) (ix2 n j)
      = ((mm (Lmat (gK m c)) (mm (Lmat (gK m c)) (fun n (j : Fin 128) => if h : j.val < 8 then Yp n ⟨j.val, h⟩ else 0)) n j : ℝ) : EReal) := fun n j => by
    rw [outsF_v39]; exact reg3_value (Wr10 m) c _ _ hL10 h38' n j

  have hA2 : ∀ (n : Fin 10000) (bb : Fin 8),
      mm (Lmat (gK m c)) (fun n (j : Fin 128) => if h : j.val < 8 then Yp n ⟨j.val, h⟩ else 0) (up n) ⟨bb.val, by omega⟩
        = spmm (gK m c) (fun n bb => Yp (up n) bb) n bb := fun n bb => by
    rw [mm_Lmat (gK m c) _ (fun n (j : Fin 128) => if h : j.val < 8 then Yp (up n) ⟨j.val, h⟩ else 0) (fun _ _ => rfl) n]
    rw [spmm_col (gK m c) _ (fun b : Fin 8 => (⟨b.val, by omega⟩ : Fin 128)) n bb]
    exact spmm_congr _ _ _ (fun n b => by dsimp only; rw [dif_pos b.isLt]) n bb
  have hT2 : ∀ (n : Fin 10000) (bb : Fin 8),
      mm (Lmat (gK m c)) (mm (Lmat (gK m c)) (fun n (j : Fin 128) => if h : j.val < 8 then Yp n ⟨j.val, h⟩ else 0)) (up n) ⟨bb.val, by omega⟩
        = spmm (gK m c) (spmm (gK m c) (fun n bb => Yp (up n) bb)) n bb := fun n bb => by
    rw [mm_Lmat (gK m c) _ (fun n (j : Fin 128) => mm (Lmat (gK m c)) (fun n (j : Fin 128) => if h : j.val < 8 then Yp n ⟨j.val, h⟩ else 0) (up n) j) (fun _ _ => rfl) n]
    rw [spmm_col (gK m c) _ (fun b : Fin 8 => (⟨b.val, by omega⟩ : Fin 128)) n bb]
    exact spmm_congr _ _ _ (fun n b => hA2 n b) n bb

  rw [V14_result m c (outsF m) hok Yp _ _ h36 h37 h38 h39 hA2 hT2 bb n, G_apply]
  have hY : (fun (n : Fin 10000) (bb : Fin 8) => Yp (up n) bb) = X2 m c := funext fun n => funext fun bb => hYp n bb
  rw [hY]

end Cert.KSide

end
-- ==== Proof.LibRows.lean ====
/- Row take x[idx, :] and row accumulation zeros.at[idx].add(u), read at an index. -/
import Idealize.ShloMosaic.PureOps.Ideal
import Idealize.ShloMosaic.Lib.ValueIdx
import Idealize.ShloMosaic.Lib.ValueIdxRank1

noncomputable section

open scoped BigOperators

namespace Cert.Lib.Rows

open Idealize.ShloMosaic Idealize.ShloMosaic.ValueIdx

abbrev gatherDims (N C K : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

theorem gather_rows_apply {α : Type} {N C K w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (c : Fin C) :
    Host.gather (gatherDims N C K wf) x idx (ix2 k c)
      = x (ix2 ⟨min (idx (ix2 k (0 : Fin 1))).toInt.toNat (N - 1), by omega⟩ c) := by
  unfold Host.gather
  congr 1
  funext a
  refine Fin.ext ?_
  match a with
  | ⟨0, _⟩ =>

    show (gatherDims N C K wf).start (ix2 k c) idx 0 + (gatherDims N C K wf).batchCoord (ix2 k c) 0
      + (gatherDims N C K wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N C K wf).startIndexMap from List.mem_singleton.mpr rfl)]
    have hsi : (gatherDims N C K wf).siIdx (ix2 k c) ⟨List.idxOf (0 : Fin 2) (gatherDims N C K wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>

    show (gatherDims N C K wf).start (ix2 k c) idx 1 + (gatherDims N C K wf).batchCoord (ix2 k c) 1
      + (gatherDims N C K wf).offCoord (ix2 k c) 1 = c.val
    rw [GatherDims.batchCoord_eq_zero _ _ _ List.not_mem_nil]
    have hst : (gatherDims N C K wf).start (ix2 k c) idx 1 = 0 := by
      unfold GatherDims.start
      rw [dif_neg (show (1 : Fin 2) ∉ (gatherDims N C K wf).startIndexMap from by
        intro h; exact Nat.one_ne_zero (congrArg Fin.val (List.mem_singleton.mp h)))]
    have hoff : (gatherDims N C K wf).offCoord (ix2 k c) 1 = c.val := by
      unfold GatherDims.offCoord
      rw [dif_pos (show (1 : Fin 2) ∈ (gatherDims N C K wf).sKept from
        (GatherDims.mem_sKept _ _).mpr ⟨fun h => Nat.one_ne_zero (congrArg Fin.val (List.mem_singleton.mp h)), List.not_mem_nil⟩)]
      rfl
    rw [hst, hoff]; simp

private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro h a
    split at h
    · rename_i hr
      have hv : (d.start j idx a + (d.window j a : Int)).toNat = (i a).val :=
        congrArg Fin.val (congrFun (Option.some.inj h) a)
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    show (d.start j idx a + (d.window j a : Int)).toNat = (i a).val
    have := h a
    omega

private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

abbrev scatterVecDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

private theorem vec_start {N K w : Nat}
    (wf : ScatterDims.WF ⟨1, ![N]⟩ ⟨2, ![K, 1]⟩ ⟨1, ![K]⟩ [] [0] [0] 1)
    (idx : IVec ⟨2, ![K, 1]⟩ w) (k : Fin K) :
    (scatterVecDims N K wf).start (ix1 k) idx (0 : Fin 1) = (idx (ix2 k (0 : Fin 1))).toInt := by
  unfold ScatterDims.start
  rw [dif_pos (show (0 : Fin 1) ∈ (scatterVecDims N K wf).scatterDimsToOperandDims from List.mem_singleton.mpr rfl)]
  have hsi : (scatterVecDims N K wf).siIdx (ix1 k)
      ⟨List.idxOf (0 : Fin 1) (scatterVecDims N K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

private theorem vec_window {N K : Nat}
    (wf : ScatterDims.WF ⟨1, ![N]⟩ ⟨2, ![K, 1]⟩ ⟨1, ![K]⟩ [] [0] [0] 1) (k : Fin K) :
    (scatterVecDims N K wf).window (ix1 k) (0 : Fin 1) = 0 := rfl

private theorem vec_resultIdx? {N K w : Nat}
    (wf : ScatterDims.WF ⟨1, ![N]⟩ ⟨2, ![K, 1]⟩ ⟨1, ![K]⟩ [] [0] [0] 1)
    (idx : IVec ⟨2, ![K, 1]⟩ w) (k : Fin K) (i : Fin N) :
    (scatterVecDims N K wf).resultIdx? (ix1 k) idx = some (ix1 i)
      ↔ (idx (ix2 k (0 : Fin 1))).toInt = (i.val : Int) := by
  rw [resultIdx?_eq_some_iff]
  constructor
  · intro h
    have h0 := h (0 : Fin 1)
    rw [vec_start, vec_window] at h0
    simpa using h0
  · intro h a
    obtain rfl : a = (0 : Fin 1) := Subsingleton.elim _ _
    rw [vec_start, vec_window]
    simpa using h

theorem hostScatterAdd_vec_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal) (i : Fin N) :
    Ideal.hostScatterAdd (scatterVecDims N K wf) x idx upd (ix1 i)
      = x (ix1 i) + ∑ k : Fin K, if (idx (ix2 k (0 : Fin 1))).toInt = (i.val : Int) then upd (ix1 k) else 0 := by
  unfold Ideal.hostScatterAdd
  refine congrArg (x (ix1 i) + ·) ?_
  rw [Finset.sum_filter, sum_idx1]
  refine Finset.sum_congr rfl fun k _ => ?_
  exact if_congr (vec_resultIdx? wf idx k i) rfl rfl

abbrev scatterRowsDims (N C K : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

private theorem rows_start0 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (0 : Fin 2) = (idx (ix2 k (0 : Fin 1))).toInt := by
  unfold ScatterDims.start
  rw [dif_pos (show (0 : Fin 2) ∈ (scatterRowsDims N C K wf).scatterDimsToOperandDims from List.mem_singleton.mpr rfl)]
  have hsi : (scatterRowsDims N C K wf).siIdx (ix2 k c')
      ⟨List.idxOf (0 : Fin 2) (scatterRowsDims N C K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

private theorem rows_start1 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (1 : Fin 2) = 0 := by
  unfold ScatterDims.start
  rw [dif_neg (show (1 : Fin 2) ∉ (scatterRowsDims N C K wf).scatterDimsToOperandDims from fun h =>
    Nat.one_ne_zero (congrArg Fin.val (List.mem_singleton.mp h)))]

private theorem rows_window0 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (0 : Fin 2) = 0 := rfl

private theorem rows_window1 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (1 : Fin 2) = c'.val := rfl

private theorem rows_resultIdx? {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) (i : Fin N) (c : Fin C) :
    (scatterRowsDims N C K wf).resultIdx? (ix2 k c') idx = some (ix2 i c)
      ↔ (idx (ix2 k (0 : Fin 1))).toInt = (i.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    have h0' : (idx (ix2 k (0 : Fin 1))).toInt + ((0 : Nat) : Int) = (i.val : Int) := h0
    have h1' : (0 : Int) + (c'.val : Int) = (c.val : Int) := h1
    exact ⟨by omega, Fin.ext (by omega)⟩
  · rintro ⟨h, rfl⟩ a
    match a with
    | ⟨0, _⟩ =>
      show (scatterRowsDims N C K wf).start (ix2 k c') idx (0 : Fin 2)
        + ((scatterRowsDims N C K wf).window (ix2 k c') (0 : Fin 2) : Int) = (i.val : Int)
      rw [rows_start0, rows_window0]
      omega
    | ⟨1, _⟩ =>
      show (scatterRowsDims N C K wf).start (ix2 k c') idx (1 : Fin 2)
        + ((scatterRowsDims N C K wf).window (ix2 k c') (1 : Fin 2) : Int) = (c'.val : Int)
      rw [rows_start1, rows_window1]
      omega

theorem hostScatterAdd_rows_apply {N C K w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (c : Fin C) :
    Ideal.hostScatterAdd (scatterRowsDims N C K wf) x idx upd (ix2 i c)
      = x (ix2 i c) + ∑ k : Fin K, if (idx (ix2 k (0 : Fin 1))).toInt = (i.val : Int) then upd (ix2 k c) else 0 := by
  unfold Ideal.hostScatterAdd
  refine congrArg (x (ix2 i c) + ·) ?_
  rw [Finset.sum_filter, sum_idx2]
  refine Finset.sum_congr rfl fun k _ => ?_
  simp only [rows_resultIdx?]
  by_cases h : (idx (ix2 k (0 : Fin 1))).toInt = (i.val : Int)
  ·
    simp only [h, true_and, if_true]
    rw [Finset.sum_ite_eq' Finset.univ c (fun c' => upd (ix2 k c'))]
    simp
  ·
    simp only [h, false_and, if_false]
    exact Finset.sum_const_zero

end Cert.Lib.Rows

end
-- ==== Proof.RefL1.lean ====
/- The reference's first layer read index by index: the output at (b, n) is the bias-and-relu of the weighted Chebyshev terms of x. -/
import proofs.«416138_j67946382623286_1_alg».proof.Proof.RefRead
import proofs.«416138_j67946382623286_1_alg».proof.Proof.Spec
import proofs.«416138_j67946382623286_1_alg».proof.Proof.Math
import proofs.«416138_j67946382623286_1_alg».proof.Proof.LibRows
import Idealize.ShloMosaic.Lib.Affine

noncomputable section

open scoped BigOperators

namespace Cert.RefSide

open Cert.ReferenceIdeal Cert.ReferenceIdeal.Gen Cert.ReferenceIdeal.Read Cert.Spec
open Idealize.ShloMosaic Idealize.ShloMosaic.TcCoe Idealize.ShloMosaic.ValueIdx Idealize.SL.Sem

variable (x0 : (⟨S8x10000x128, .f32⟩ : BufTy).Contents (Elt Ideal)) (x1 x2 : (⟨S160000, .i32⟩ : BufTy).Contents (Elt Ideal))
  (x3 : (⟨S160000, .f32⟩ : BufTy).Contents (Elt Ideal)) (x4 : (⟨S384x1, .f32⟩ : BufTy).Contents (Elt Ideal))
  (x5 : (⟨S3x1, .f32⟩ : BufTy).Contents (Elt Ideal)) (x6 : (⟨S1x1x1, .f32⟩ : BufTy).Contents (Elt Ideal))

private theorem ofBits_two : Ideal.ofBits .f32 0x40000000#32 = ((2 : ℝ) : EReal) := by
  simp [Ideal.ofBits, Ideal.ieee, -EReal.coe_mul]; norm_num

private abbrev XR : Fin 10000 → Fin 1024 → ℝ := feat1 fun bb n f => (x0 (ix3 bb n f)).toReal

private theorem v1_apply (hok : Ok x0 x1 x2 x3 x4 x5 x6) (n : Fin 10000) (j : Fin 1024) :
    val_main_v1 (F := Ideal) x0 (ix2 n j) = ((XR x0 n j : ℝ) : EReal) := by
  rw [val_main_v1_apply, val_main_v0_apply]
  have hi : idx_main_v0 (idx_main_v1 (ix2 n j))
      = ix3 (⟨j.val % 8, Nat.mod_lt _ (by norm_num)⟩ : Fin 8) n (⟨j.val / 8, by have := j.isLt; omega⟩ : Fin 128) := by
    funext a
    refine Fin.ext ?_
    have hn := n.isLt
    have hj := j.isLt
    match a with
    | ⟨0, _⟩ => show (n.val * 1024 + j.val) % 8 = j.val % 8; omega
    | ⟨1, _⟩ => show (n.val * 1024 + j.val) / 1024 = n.val; omega
    | ⟨2, _⟩ => show (n.val * 1024 + j.val) / 8 % 128 = j.val / 8; omega
  rw [hi]
  exact hok.x_real _

private theorem v7_apply (hok : Ok x0 x1 x2 x3 x4 x5 x6) (e : Fin 160000) :
    val_main_v7 (F := Ideal) x2 (ix1 e) = x2 (ix1 e) := by
  rw [val_main_v7_apply, val_main_v4_apply, val_main_v3_apply, val_main_c_apply]
  have h : ¬ IntOp.cmpi .slt (x2 (ix1 e)) 0#32 = 1#1 := by
    rw [IntOp.cmpi_slt]
    have := (hok.cols_range (ix1 e)).1
    simp only [BitVec.toInt_zero]
    omega
  exact if_neg h

private theorem v20_apply (hok : Ok x0 x1 x2 x3 x4 x5 x6) (e : Fin 160000) :
    val_main_v20 (F := Ideal) x2 (ix1 e) = x2 (ix1 e) := by
  rw [val_main_v20_apply, val_main_v17_apply, val_main_v16_apply, val_main_c_1_apply]
  have h : ¬ IntOp.cmpi .slt (x2 (ix1 e)) 0#32 = 1#1 := by
    rw [IntOp.cmpi_slt]
    have := (hok.cols_range (ix1 e)).1
    simp only [BitVec.toInt_zero]
    omega
  exact if_neg h

private theorem spmm_read (hok : Ok x0 x1 x2 x3 x4 x5 x6)
    (Y z : FVec Ideal S10000x1024 .f32) (YR : Fin 10000 → Fin 1024 → ℝ)
    (hY : ∀ (n : Fin 10000) (j : Fin 1024), Y (ix2 n j) = ((YR n j : ℝ) : EReal)) (hz : ∀ i, z i = 0)
    (ci ri : IVec S160000x1 32)
    (hci : ∀ e : Fin 160000, ci (ix2 e (0 : Fin 1)) = x2 (ix1 e))
    (hri : ∀ e : Fin 160000, ri (ix2 e (0 : Fin 1)) = x1 (ix1 e))
    (vb : FVec Ideal S160000x1024 .f32)
    (hvb : ∀ (e : Fin 160000) (j : Fin 1024), vb (ix2 e j) = x3 (ix1 e))
    (n : Fin 10000) (j : Fin 1024) :
    Host.scatterAdd (F := Ideal) (φ := .f32) scatter_S10000x1024_S160000x1_S160000x1024_1_0_0_1 z ri
        (mulf (F := Ideal) (φ := .f32) vb (Host.gather gather_S10000x1024_S160000x1_S160000x1024_1_0_n_n_0_1_11024 Y ci)) (ix2 n j)
      = ((spmm (graphOf x1 x2 x3) YR n j : ℝ) : EReal) := by

  have hg : gather_S10000x1024_S160000x1_S160000x1024_1_0_n_n_0_1_11024
      = Cert.Lib.Rows.gatherDims 10000 1024 160000 gather_S10000x1024_S160000x1_S160000x1024_1_0_n_n_0_1_11024_wf := rfl
  have hs : scatter_S10000x1024_S160000x1_S160000x1024_1_0_0_1
      = Cert.Lib.Rows.scatterRowsDims 10000 1024 160000 scatter_S10000x1024_S160000x1_S160000x1024_1_0_0_1_wf := rfl
  show Ideal.hostScatterAdd scatter_S10000x1024_S160000x1_S160000x1024_1_0_0_1 z ri _ (ix2 n j) = _
  rw [hs, Cert.Lib.Rows.hostScatterAdd_rows_apply, hz, zero_add]
  unfold spmm
  rw [Math.coe_sum]
  refine Finset.sum_congr rfl fun e _ => ?_
  rw [hri e]

  have hu : mulf (F := Ideal) (φ := .f32) vb (Host.gather gather_S10000x1024_S160000x1_S160000x1024_1_0_n_n_0_1_11024 Y ci) (ix2 e j)
      = (((graphOf x1 x2 x3).w e * YR ((graphOf x1 x2 x3).col e) j : ℝ) : EReal) := by
    show vb (ix2 e j) * Host.gather gather_S10000x1024_S160000x1_S160000x1024_1_0_n_n_0_1_11024 Y ci (ix2 e j) = _
    rw [hvb, hg, Cert.Lib.Rows.gather_rows_apply (by norm_num)]
    simp only [hci e]
    rw [hY, hok.vals_real (ix1 e), ← EReal.coe_mul]
    rfl
  rw [hu]

  have hiff : ((x1 (ix1 e)).toInt = (n.val : Int)) ↔ (graphOf x1 x2 x3).row e = n := by
    have hr := hok.rows_range (ix1 e)
    have hn := n.isLt
    rw [Fin.ext_iff]
    show _ ↔ min (x1 (ix1 e)).toInt.toNat 9999 = n.val
    omega
  by_cases h : (graphOf x1 x2 x3).row e = n
  · rw [if_pos h, if_pos (hiff.mpr h)]
  · rw [if_neg h, if_neg (fun h' => h (hiff.mp h'))]
    exact EReal.coe_zero.symm

private abbrev gR : Graph := graphOf x1 x2 x3

private theorem v12_apply (i : S10000x1024.Idx) : val_main_v12 (F := Ideal) i = 0 := by
  rw [val_main_v12_apply, val_main_cst_apply]
  exact Ideal.ofBits_zero_f32

private theorem v25_apply (i : S10000x1024.Idx) : val_main_v25 (F := Ideal) i = 0 := by
  rw [val_main_v25_apply, val_main_cst_3_apply]
  exact Ideal.ofBits_zero_f32

private theorem v14_apply (hok : Ok x0 x1 x2 x3 x4 x5 x6) (n : Fin 10000) (j : Fin 1024) :
    val_main_v14 (F := Ideal) x0 x1 x2 x3 (ix2 n j) = ((spmm (gR x1 x2 x3) (XR x0) n j : ℝ) : EReal) := by
  unfold val_main_v14 val_main_v11 val_main_v9
  refine spmm_read x0 x1 x2 x3 x4 x5 x6 hok _ _ (XR x0) (v1_apply x0 x1 x2 x3 x4 x5 x6 hok) v12_apply _ _ ?_ ?_ _ ?_ n j
  · intro e
    rw [val_main_v8_apply]
    have hi : idx_main_v8 (ix2 e (0 : Fin 1)) = ix1 e := funext fun a => match a with | ⟨0, _⟩ => rfl
    rw [hi]
    exact v7_apply x0 x1 x2 x3 x4 x5 x6 hok e
  · intro e
    rw [val_main_v13_apply]
    have hi : idx_main_v13 (ix2 e (0 : Fin 1)) = ix1 e := funext fun a => match a with | ⟨0, _⟩ => rfl
    rw [hi]
  · intro e j
    rw [val_main_v10_apply, val_main_v2_apply]
    have hi : idx_main_v2 (idx_main_v10 (ix2 e j)) = ix1 e := funext fun a => match a with | ⟨0, _⟩ => rfl
    rw [hi]

private theorem v27_apply (hok : Ok x0 x1 x2 x3 x4 x5 x6) (n : Fin 10000) (j : Fin 1024) :
    val_main_v27 (F := Ideal) x0 x1 x2 x3 (ix2 n j)
      = ((spmm (gR x1 x2 x3) (spmm (gR x1 x2 x3) (XR x0)) n j : ℝ) : EReal) := by
  unfold val_main_v27 val_main_v24 val_main_v22
  refine spmm_read x0 x1 x2 x3 x4 x5 x6 hok _ _ (spmm (gR x1 x2 x3) (XR x0)) (v14_apply x0 x1 x2 x3 x4 x5 x6 hok) v25_apply _ _ ?_ ?_ _ ?_ n j
  · intro e
    rw [val_main_v21_apply]
    have hi : idx_main_v21 (ix2 e (0 : Fin 1)) = ix1 e := funext fun a => match a with | ⟨0, _⟩ => rfl
    rw [hi]
    exact v20_apply x0 x1 x2 x3 x4 x5 x6 hok e
  · intro e
    rw [val_main_v26_apply]
    have hi : idx_main_v26 (ix2 e (0 : Fin 1)) = ix1 e := funext fun a => match a with | ⟨0, _⟩ => rfl
    rw [hi]
  · intro e j
    rw [val_main_v23_apply, val_main_v15_apply]
    have hi : idx_main_v15 (idx_main_v23 (ix2 e j)) = ix1 e := funext fun a => match a with | ⟨0, _⟩ => rfl
    rw [hi]

private theorem v30_apply (hok : Ok x0 x1 x2 x3 x4 x5 x6) (n : Fin 10000) (j : Fin 1024) :
    val_main_v30 (F := Ideal) x0 x1 x2 x3 (ix2 n j)
      = ((2 * spmm (gR x1 x2 x3) (spmm (gR x1 x2 x3) (XR x0)) n j - XR x0 n j : ℝ) : EReal) := by
  rw [val_main_v30_apply, val_main_v29_apply, val_main_v28_apply, val_main_cst_4_apply,
    v27_apply x0 x1 x2 x3 x4 x5 x6 hok, v1_apply x0 x1 x2 x3 x4 x5 x6 hok]
  show Ideal.ofBits .f32 0x40000000#32 * _ - _ = _
  rw [ofBits_two, ← EReal.coe_mul, ← EReal.coe_sub]

private theorem v34_apply (hok : Ok x0 x1 x2 x3 x4 x5 x6) (k : Fin 3) (n : Fin 10000) (j : Fin 1024) :
    val_main_v34 (F := Ideal) x0 x1 x2 x3 (ix3 k n j) = ((cheb (gR x1 x2 x3) (XR x0) k n j : ℝ) : EReal) := by
  unfold val_main_v34
  have hoff : ∀ b : Fin S1x10000x1024.rank, Fin.cast (rfl : S1x10000x1024.rank = S3x10000x1024.rank) b ≠ (0 : Fin 3) →
      ∀ k : Fin 3, ((ix3 (0 : Fin 1) n j : S1x10000x1024.Idx) b).val
        = ((ix3 k n j : S3x10000x1024.Idx) (Fin.cast (rfl : S1x10000x1024.rank = S3x10000x1024.rank) b)).val :=
    fun b hb k => match b with
      | ⟨0, _⟩ => absurd rfl hb
      | ⟨1, _⟩ => rfl
      | ⟨2, _⟩ => rfl
  match k with
  | ⟨0, h0⟩ =>

    refine (concatenate_apply_piece (t := S3x10000x1024) (0 : Fin 3)
      [⟨S1x10000x1024, val_main_v31 (F := Ideal) x0⟩, ⟨S1x10000x1024, val_main_v32 (F := Ideal) x0 x1 x2 x3⟩,
        ⟨S1x10000x1024, val_main_v33 (F := Ideal) x0 x1 x2 x3⟩] concatenates_S1x10000x1024_S1x10000x1024_S1x10000x1024_S3x10000x1024_d0 _ 0 (by show (0 : Nat) < 3; omega)
      S1x10000x1024 (val_main_v31 (F := Ideal) x0) rfl rfl 0 rfl (ix3 (0 : Fin 1) n j) (fun b hb => hoff b hb _) rfl).trans ?_
    rw [val_main_v31_apply]
    have hi : idx_main_v31 (ix3 (0 : Fin 1) n j) = ix2 n j := funext fun a => match a with | ⟨0, _⟩ => rfl | ⟨1, _⟩ => rfl
    rw [hi]
    exact v1_apply x0 x1 x2 x3 x4 x5 x6 hok n j
  | ⟨1, h1⟩ =>

    refine (concatenate_apply_piece (t := S3x10000x1024) (0 : Fin 3)
      [⟨S1x10000x1024, val_main_v31 (F := Ideal) x0⟩, ⟨S1x10000x1024, val_main_v32 (F := Ideal) x0 x1 x2 x3⟩,
        ⟨S1x10000x1024, val_main_v33 (F := Ideal) x0 x1 x2 x3⟩] concatenates_S1x10000x1024_S1x10000x1024_S1x10000x1024_S3x10000x1024_d0 _ 1 (by show (1 : Nat) < 3; omega)
      S1x10000x1024 (val_main_v32 (F := Ideal) x0 x1 x2 x3) rfl rfl 1 rfl (ix3 (0 : Fin 1) n j) (fun b hb => hoff b hb _) rfl).trans ?_
    rw [val_main_v32_apply]
    have hi : idx_main_v32 (ix3 (0 : Fin 1) n j) = ix2 n j := funext fun a => match a with | ⟨0, _⟩ => rfl | ⟨1, _⟩ => rfl
    rw [hi]
    exact v14_apply x0 x1 x2 x3 x4 x5 x6 hok n j
  | ⟨2, h2⟩ =>

    refine (concatenate_apply_piece (t := S3x10000x1024) (0 : Fin 3)
      [⟨S1x10000x1024, val_main_v31 (F := Ideal) x0⟩, ⟨S1x10000x1024, val_main_v32 (F := Ideal) x0 x1 x2 x3⟩,
        ⟨S1x10000x1024, val_main_v33 (F := Ideal) x0 x1 x2 x3⟩] concatenates_S1x10000x1024_S1x10000x1024_S1x10000x1024_S3x10000x1024_d0 _ 2 (by show (2 : Nat) < 3; omega)
      S1x10000x1024 (val_main_v33 (F := Ideal) x0 x1 x2 x3) rfl rfl 2 rfl (ix3 (0 : Fin 1) n j) (fun b hb => hoff b hb _) rfl).trans ?_
    rw [val_main_v33_apply]
    have hi : idx_main_v33 (ix3 (0 : Fin 1) n j) = ix2 n j := funext fun a => match a with | ⟨0, _⟩ => rfl | ⟨1, _⟩ => rfl
    rw [hi]
    exact v30_apply x0 x1 x2 x3 x4 x5 x6 hok n j

private theorem flat_0 (k n f b : Nat) (hk : k < 3) (hn : n < 10000) (hf : f < 128) (hb : b < 8) :
    (((k * 10000 + n) * 128 + f) * 8 + b) / 10240000 = k := by omega

private theorem flat_1 (k n f b : Nat) (hk : k < 3) (hn : n < 10000) (hf : f < 128) (hb : b < 8) :
    (((k * 10000 + n) * 128 + f) * 8 + b) / 1024 % 10000 = n := by omega

private theorem flat_2 (k n f b : Nat) (hk : k < 3) (hn : n < 10000) (hf : f < 128) (hb : b < 8) :
    (((k * 10000 + n) * 128 + f) * 8 + b) % 1024 = f * 8 + b := by omega

private theorem v37_apply (hok : Ok x0 x1 x2 x3 x4 x5 x6) (bb : Fin 8) (n : Fin 10000) (q : Fin 384) :
    val_main_v37 (F := Ideal) x0 x1 x2 x3 (ix2 (⟨bb.val * 10000 + n.val, by have := bb.isLt; have := n.isLt; omega⟩ : Fin 80000) q)
      = ((cheb (gR x1 x2 x3) (XR x0) ⟨q.val % 3, Nat.mod_lt _ (by norm_num)⟩ n
          ⟨(q.val / 3) * 8 + bb.val, by have := q.isLt; have := bb.isLt; omega⟩ : ℝ) : EReal) := by
  rw [val_main_v37_apply, val_main_v36_apply, val_main_v35_apply]
  have hb := bb.isLt
  have hn := n.isLt
  have hq := q.isLt
  have hi : idx_main_v35 (idx_main_v36 (idx_main_v37
        (ix2 (⟨bb.val * 10000 + n.val, by omega⟩ : Fin 80000) q)))
      = ix3 (⟨q.val % 3, Nat.mod_lt _ (by norm_num)⟩ : Fin 3) n (⟨(q.val / 3) * 8 + bb.val, by omega⟩ : Fin 1024) := by

    have e0 : ((bb.val * 10000 + n.val) * 384 + q.val) / 3840000 = bb.val := by omega
    have e1 : ((bb.val * 10000 + n.val) * 384 + q.val) / 384 % 10000 = n.val := by omega
    have e2 : ((bb.val * 10000 + n.val) * 384 + q.val) / 3 % 128 = q.val / 3 := by omega
    have e3 : ((bb.val * 10000 + n.val) * 384 + q.val) % 3 = q.val % 3 := by omega
    funext a
    refine Fin.ext ?_
    match a with
    | ⟨0, _⟩ =>
      show ((((((bb.val * 10000 + n.val) * 384 + q.val) % 3) * 10000 + ((bb.val * 10000 + n.val) * 384 + q.val) / 384 % 10000) * 128
        + ((bb.val * 10000 + n.val) * 384 + q.val) / 3 % 128) * 8 + ((bb.val * 10000 + n.val) * 384 + q.val) / 3840000) / 10240000 = q.val % 3
      rw [e0, e1, e2, e3]; exact flat_0 _ _ _ _ (Nat.mod_lt _ (by norm_num)) hn (by omega) hb
    | ⟨1, _⟩ =>
      show ((((((bb.val * 10000 + n.val) * 384 + q.val) % 3) * 10000 + ((bb.val * 10000 + n.val) * 384 + q.val) / 384 % 10000) * 128
        + ((bb.val * 10000 + n.val) * 384 + q.val) / 3 % 128) * 8 + ((bb.val * 10000 + n.val) * 384 + q.val) / 3840000) / 1024 % 10000 = n.val
      rw [e0, e1, e2, e3]; exact flat_1 _ _ _ _ (Nat.mod_lt _ (by norm_num)) hn (by omega) hb
    | ⟨2, _⟩ =>
      show ((((((bb.val * 10000 + n.val) * 384 + q.val) % 3) * 10000 + ((bb.val * 10000 + n.val) * 384 + q.val) / 384 % 10000) * 128
        + ((bb.val * 10000 + n.val) * 384 + q.val) / 3 % 128) * 8 + ((bb.val * 10000 + n.val) * 384 + q.val) / 3840000) % 1024 = q.val / 3 * 8 + bb.val
      rw [e0, e1, e2, e3]; exact flat_2 _ _ _ _ (Nat.mod_lt _ (by norm_num)) hn (by omega) hb
  rw [hi]
  exact v34_apply x0 x1 x2 x3 x4 x5 x6 hok _ n _

theorem ref_layer1 (hok : Ok x0 x1 x2 x3 x4 x5 x6) (bb : Fin 8) (n : Fin 10000) :
    val_main_v42 (F := Ideal) x0 x1 x2 x3 x4 x6 (ix3 bb n (0 : Fin 1))
      = ((layer1 (graphOf x1 x2 x3) (feat1 fun bb n f => (x0 (ix3 bb n f)).toReal)
          (fun j => (x4 (ix2 j (0 : Fin 1))).toReal) (x6 (ix3 (0 : Fin 1) (0 : Fin 1) (0 : Fin 1))).toReal bb n : ℝ) : EReal) := by
  have hb := bb.isLt
  have hn := n.isLt
  rw [val_main_v42_apply, val_main_v41_apply, val_main_call0_v0_apply, val_main_call0_cst_apply, val_main_v40_apply,
    val_main_v39_apply]
  have h39 : idx_main_v39 (ix3 bb n (0 : Fin 1)) = ix2 (⟨bb.val * 10000 + n.val, by omega⟩ : Fin 80000) (0 : Fin 1) := by
    funext a
    refine Fin.ext ?_
    match a with
    | ⟨0, _⟩ => show ((bb.val * 10000 + n.val) * 1 + 0) / 1 = bb.val * 10000 + n.val; omega
    | ⟨1, _⟩ => rfl
  have h40 : idx_main_v40 (ix3 bb n (0 : Fin 1)) = ix3 (0 : Fin 1) (0 : Fin 1) (0 : Fin 1) :=
    funext fun a => match a with | ⟨0, _⟩ => rfl | ⟨1, _⟩ => rfl | ⟨2, _⟩ => rfl
  rw [h39, h40, val_main_v38_apply]

  show max ((∑ k : Fin 384, _) + x6 _) (Ideal.ofBits .f32 0x00000000#32) = _
  rw [Ideal.ofBits_zero_f32]
  unfold layer1
  rw [Math.coe_max, EReal.coe_add, Math.coe_sum, ← hok.b_real, EReal.coe_zero]
  refine congrArg (fun s => max (s + x6 (ix3 (0 : Fin 1) (0 : Fin 1) (0 : Fin 1))) 0) ?_
  refine Finset.sum_congr rfl fun k _ => ?_
  have hl : lidx_main_v38 (ix2 (⟨bb.val * 10000 + n.val, by omega⟩ : Fin 80000) (0 : Fin 1)) k
      = ix2 (⟨bb.val * 10000 + n.val, by omega⟩ : Fin 80000) k := funext fun a => match a with | ⟨0, _⟩ => rfl | ⟨1, _⟩ => rfl
  have hr : ridx_main_v38 (ix2 (⟨bb.val * 10000 + n.val, by omega⟩ : Fin 80000) (0 : Fin 1)) k
      = ix2 k (0 : Fin 1) := funext fun a => match a with | ⟨0, _⟩ => rfl | ⟨1, _⟩ => rfl
  rw [hl, hr, v37_apply x0 x1 x2 x3 x4 x5 x6 hok bb n k, hok.w1_real (ix2 k (0 : Fin 1)), ← EReal.coe_mul]

end Cert.RefSide

end
-- ==== Proof.RefL2.lean ====
/- The reference's second layer read index by index, over whatever real array the first layer left. -/
import proofs.«416138_j67946382623286_1_alg».proof.Proof.RefRead
import proofs.«416138_j67946382623286_1_alg».proof.Proof.Spec
import proofs.«416138_j67946382623286_1_alg».proof.Proof.Math
import proofs.«416138_j67946382623286_1_alg».proof.Proof.LibRows

noncomputable section

open scoped BigOperators

namespace Cert.RefSide

open Cert.ReferenceIdeal Cert.ReferenceIdeal.Gen Cert.ReferenceIdeal.Read Cert.Spec
open Idealize.ShloMosaic Idealize.ShloMosaic.TcCoe Idealize.ShloMosaic.ValueIdx Idealize.SL.Sem

variable (x0 : (⟨S8x10000x128, .f32⟩ : BufTy).Contents (Elt Ideal)) (x1 x2 : (⟨S160000, .i32⟩ : BufTy).Contents (Elt Ideal))
  (x3 : (⟨S160000, .f32⟩ : BufTy).Contents (Elt Ideal)) (x4 : (⟨S384x1, .f32⟩ : BufTy).Contents (Elt Ideal))
  (x5 : (⟨S3x1, .f32⟩ : BufTy).Contents (Elt Ideal)) (x6 : (⟨S1x1x1, .f32⟩ : BufTy).Contents (Elt Ideal))

private theorem ofBits_two : Ideal.ofBits .f32 0x40000000#32 = ((2 : ℝ) : EReal) := by
  simp [Ideal.ofBits, Ideal.ieee, -EReal.coe_mul]; norm_num

private theorem select_nonneg (c a : BitVec 32) (h0 : 0 ≤ c.toInt) :
    Scalar.select (IntOp.cmpi .slt c 0#32) a c = c := by
  have hs : c.slt 0#32 = false := by
    rw [Bool.eq_false_iff]
    intro hs
    rw [BitVec.slt_iff_toInt_lt] at hs
    have h00 : (0#32 : BitVec 32).toInt = 0 := by decide
    omega
  show Scalar.select (BitVec.ofBool (c.slt 0#32)) a c = c
  rw [hs]
  exact select_zero a c

private theorem gdims_eq : gather_S10000x8_S160000x1_S160000x8_1_0_n_n_0_1_18
    = Cert.Lib.Rows.gatherDims 10000 8 160000 Facts₀.gather_S10000x8_S160000x1_S160000x8_1_0_n_n_0_1_18_wf := rfl

private theorem sdims_eq : scatter_S10000x8_S160000x1_S160000x8_1_0_0_1
    = Cert.Lib.Rows.scatterRowsDims 10000 8 160000 Facts₀.scatter_S10000x8_S160000x1_S160000x8_1_0_0_1_wf := rfl

private theorem row_iff (hok : Ok x0 x1 x2 x3 x4 x5 x6) (e : Fin 160000) (n : Fin 10000) :
    (x1 (ix1 e)).toInt = (n.val : Int) ↔ (graphOf x1 x2 x3).row e = n := by
  have hr := hok.rows_range (ix1 e)
  have hn := n.isLt
  constructor
  · intro h
    apply Fin.ext
    show min (x1 (ix1 e)).toInt.toNat 9999 = n.val
    omega
  · intro h
    have h' : min (x1 (ix1 e)).toInt.toNat 9999 = n.val := congrArg Fin.val h
    omega

private theorem v44_apply (h : Fin 8 → Fin 10000 → ℝ)
    (h1 : ∀ (bb : Fin 8) (n : Fin 10000), val_main_v42 (F := Ideal) x0 x1 x2 x3 x4 x6 (ix3 bb n (0 : Fin 1)) = ((h bb n : ℝ) : EReal))
    (n : Fin 10000) (bb : Fin 8) :
    val_main_v44 (F := Ideal) x0 x1 x2 x3 x4 x6 (ix2 n bb) = ((feat2 h n bb : ℝ) : EReal) := by
  have hn := n.isLt
  have hb := bb.isLt
  have e : idx_main_v43 (idx_main_v44 (ix2 n bb)) = ix3 bb n (0 : Fin 1) := by
    funext a
    refine Fin.ext ?_
    match a with
    | ⟨0, _⟩ => show (n.val * 8 + bb.val) % 8 = bb.val; omega
    | ⟨1, _⟩ => show (n.val * 8 + bb.val) / 8 = n.val; omega
    | ⟨2, _⟩ => rfl
  rw [val_main_v44_apply, val_main_v43_apply, e, h1]
  rfl

private theorem spmm_stage (hok : Ok x0 x1 x2 x3 x4 x5 x6)
    (T : FVec Ideal S10000x8 .f32) (Z : Fin 10000 → Fin 8 → ℝ)
    (hT : ∀ (n : Fin 10000) (bb : Fin 8), T (ix2 n bb) = ((Z n bb : ℝ) : EReal))
    (I : IVec S160000x1 32) (hI : ∀ e : Fin 160000, I (ix2 e (0 : Fin 1)) = x2 (ix1 e))
    (Wb : FVec Ideal S160000x8 .f32) (hW : ∀ (e : Fin 160000) (bb : Fin 8), Wb (ix2 e bb) = x3 (ix1 e))
    (Z0 : FVec Ideal S10000x8 .f32) (hZ0 : ∀ i, Z0 i = 0)
    (R : IVec S160000x1 32) (hR : ∀ e : Fin 160000, R (ix2 e (0 : Fin 1)) = x1 (ix1 e))
    (n : Fin 10000) (bb : Fin 8) :
    Host.scatterAdd (F := Ideal) scatter_S10000x8_S160000x1_S160000x8_1_0_0_1 Z0 R
        (mulf Wb (Host.gather gather_S10000x8_S160000x1_S160000x8_1_0_n_n_0_1_18 T I)) (ix2 n bb)
      = ((spmm (graphOf x1 x2 x3) Z n bb : ℝ) : EReal) := by
  unfold Host.scatterAdd
  rw [Ideal.hostScatterAdd_def, sdims_eq, Cert.Lib.Rows.hostScatterAdd_rows_apply, hZ0, zero_add]
  unfold spmm
  rw [Cert.Math.coe_sum]
  refine Finset.sum_congr rfl fun e _ => ?_
  rw [hR]
  by_cases hc : (graphOf x1 x2 x3).row e = n
  ·
    rw [if_pos ((row_iff x0 x1 x2 x3 x4 x5 x6 hok e n).mpr hc), if_pos hc, mulf_apply, hW, gdims_eq,
      Cert.Lib.Rows.gather_rows_apply (by norm_num)]
    have hcr := hok.cols_range (ix1 e)
    have hcol : (⟨min (I (ix2 e (0 : Fin 1))).toInt.toNat (10000 - 1), by omega⟩ : Fin 10000)
        = (graphOf x1 x2 x3).col e := by
      apply Fin.ext
      show min (I (ix2 e (0 : Fin 1))).toInt.toNat (10000 - 1) = min (x2 (ix1 e)).toInt.toNat 9999
      rw [hI]
    rw [hcol, hT]
    exact (congrArg (· * ((Z ((graphOf x1 x2 x3).col e) bb : ℝ) : EReal)) (hok.vals_real (ix1 e))).trans
      (EReal.coe_mul _ _).symm
  ·
    rw [if_neg (fun hh => hc ((row_iff x0 x1 x2 x3 x4 x5 x6 hok e n).mp hh)), if_neg hc]
    rfl

private theorem v51_at (hok : Ok x0 x1 x2 x3 x4 x5 x6) (e : Fin 160000) :
    val_main_v51 (F := Ideal) x2 (ix2 e (0 : Fin 1)) = x2 (ix1 e) := by
  rw [val_main_v51_apply, val_main_v50_apply, val_main_v47_apply, val_main_v46_apply, val_main_c_5_apply,
    select_nonneg _ _ (hok.cols_range _).1]
  exact congrArg x2 (funext fun a => match a with | ⟨0, _⟩ => rfl)

private theorem v64_at (hok : Ok x0 x1 x2 x3 x4 x5 x6) (e : Fin 160000) :
    val_main_v64 (F := Ideal) x2 (ix2 e (0 : Fin 1)) = x2 (ix1 e) := by
  rw [val_main_v64_apply, val_main_v63_apply, val_main_v60_apply, val_main_v59_apply, val_main_c_8_apply,
    select_nonneg _ _ (hok.cols_range _).1]
  exact congrArg x2 (funext fun a => match a with | ⟨0, _⟩ => rfl)

private theorem v53_at (e : Fin 160000) (bb : Fin 8) : val_main_v53 (F := Ideal) x3 (ix2 e bb) = x3 (ix1 e) := by
  rw [val_main_v53_apply, val_main_v45_apply]
  exact congrArg x3 (funext fun a => match a with | ⟨0, _⟩ => rfl)

private theorem v66_at (e : Fin 160000) (bb : Fin 8) : val_main_v66 (F := Ideal) x3 (ix2 e bb) = x3 (ix1 e) := by
  rw [val_main_v66_apply, val_main_v58_apply]
  exact congrArg x3 (funext fun a => match a with | ⟨0, _⟩ => rfl)

private theorem v55_at (i : S10000x8.Idx) : val_main_v55 (F := Ideal) i = 0 := by
  rw [val_main_v55_apply, val_main_cst_7_apply, Ideal.ofBits_def, Ideal.ofBits_zero_f32]

private theorem v68_at (i : S10000x8.Idx) : val_main_v68 (F := Ideal) i = 0 := by
  rw [val_main_v68_apply, val_main_cst_10_apply, Ideal.ofBits_def, Ideal.ofBits_zero_f32]

private theorem v56_at (e : Fin 160000) : val_main_v56 (F := Ideal) x1 (ix2 e (0 : Fin 1)) = x1 (ix1 e) := by
  rw [val_main_v56_apply]
  exact congrArg x1 (funext fun a => match a with | ⟨0, _⟩ => rfl)

private theorem v69_at (e : Fin 160000) : val_main_v69 (F := Ideal) x1 (ix2 e (0 : Fin 1)) = x1 (ix1 e) := by
  rw [val_main_v69_apply]
  exact congrArg x1 (funext fun a => match a with | ⟨0, _⟩ => rfl)

private theorem v57_apply (hok : Ok x0 x1 x2 x3 x4 x5 x6) (h : Fin 8 → Fin 10000 → ℝ)
    (h1 : ∀ (bb : Fin 8) (n : Fin 10000), val_main_v42 (F := Ideal) x0 x1 x2 x3 x4 x6 (ix3 bb n (0 : Fin 1)) = ((h bb n : ℝ) : EReal))
    (n : Fin 10000) (bb : Fin 8) :
    val_main_v57 (F := Ideal) x0 x1 x2 x3 x4 x6 (ix2 n bb) = ((spmm (graphOf x1 x2 x3) (feat2 h) n bb : ℝ) : EReal) := by
  unfold val_main_v57 val_main_v54 val_main_v52
  exact spmm_stage x0 x1 x2 x3 x4 x5 x6 hok _ (feat2 h) (v44_apply x0 x1 x2 x3 x4 x6 h h1)
    _ (v51_at x0 x1 x2 x3 x4 x5 x6 hok) _ (v53_at x3) _ v55_at _ (v56_at x1) n bb

private theorem v70_apply (hok : Ok x0 x1 x2 x3 x4 x5 x6) (h : Fin 8 → Fin 10000 → ℝ)
    (h1 : ∀ (bb : Fin 8) (n : Fin 10000), val_main_v42 (F := Ideal) x0 x1 x2 x3 x4 x6 (ix3 bb n (0 : Fin 1)) = ((h bb n : ℝ) : EReal))
    (n : Fin 10000) (bb : Fin 8) :
    val_main_v70 (F := Ideal) x0 x1 x2 x3 x4 x6 (ix2 n bb)
      = ((spmm (graphOf x1 x2 x3) (spmm (graphOf x1 x2 x3) (feat2 h)) n bb : ℝ) : EReal) := by
  unfold val_main_v70 val_main_v67 val_main_v65
  exact spmm_stage x0 x1 x2 x3 x4 x5 x6 hok _ (spmm (graphOf x1 x2 x3) (feat2 h)) (v57_apply x0 x1 x2 x3 x4 x5 x6 hok h h1)
    _ (v64_at x0 x1 x2 x3 x4 x5 x6 hok) _ (v66_at x3) _ v68_at _ (v69_at x1) n bb

private theorem v73_apply (hok : Ok x0 x1 x2 x3 x4 x5 x6) (h : Fin 8 → Fin 10000 → ℝ)
    (h1 : ∀ (bb : Fin 8) (n : Fin 10000), val_main_v42 (F := Ideal) x0 x1 x2 x3 x4 x6 (ix3 bb n (0 : Fin 1)) = ((h bb n : ℝ) : EReal))
    (n : Fin 10000) (bb : Fin 8) :
    val_main_v73 (F := Ideal) x0 x1 x2 x3 x4 x6 (ix2 n bb)
      = ((2 * spmm (graphOf x1 x2 x3) (spmm (graphOf x1 x2 x3) (feat2 h)) n bb - feat2 h n bb : ℝ) : EReal) := by
  rw [val_main_v73_apply, val_main_v72_apply, val_main_v71_apply, val_main_cst_11_apply, Ideal.subf_def, Ideal.mulf_def,
    Ideal.ofBits_def, ofBits_two, v70_apply x0 x1 x2 x3 x4 x5 x6 hok h h1, v44_apply x0 x1 x2 x3 x4 x6 h h1,
    ← EReal.coe_mul, ← EReal.coe_sub]

private theorem v77_apply (hok : Ok x0 x1 x2 x3 x4 x5 x6) (h : Fin 8 → Fin 10000 → ℝ)
    (h1 : ∀ (bb : Fin 8) (n : Fin 10000), val_main_v42 (F := Ideal) x0 x1 x2 x3 x4 x6 (ix3 bb n (0 : Fin 1)) = ((h bb n : ℝ) : EReal))
    (k : Fin 3) (n : Fin 10000) (bb : Fin 8) :
    val_main_v77 (F := Ideal) x0 x1 x2 x3 x4 x6 (ix3 k n bb) = ((cheb (graphOf x1 x2 x3) (feat2 h) k n bb : ℝ) : EReal) := by
  unfold val_main_v77
  match k with
  | ⟨0, hk⟩ =>

    rw [concatenate_apply_piece (0 : Fin S3x10000x8.rank) _ _ (ix3 (⟨0, hk⟩ : Fin 3) n bb) 0 (by simp) S1x10000x8 _ rfl rfl 0 rfl
      (ix3 (0 : Fin 1) n bb)
      (fun b hb => match b, hb with
        | ⟨0, _⟩, hb => absurd (Fin.ext rfl) hb
        | ⟨1, _⟩, _ => rfl
        | ⟨2, _⟩, _ => rfl) rfl,
      val_main_v74_apply]
    have e : idx_main_v74 (ix3 (0 : Fin 1) n bb) = ix2 n bb := funext fun a => match a with
      | ⟨0, _⟩ => rfl
      | ⟨1, _⟩ => rfl
    rw [e, v44_apply x0 x1 x2 x3 x4 x6 h h1]
    rfl
  | ⟨1, hk⟩ =>

    rw [concatenate_apply_piece (0 : Fin S3x10000x8.rank) _ _ (ix3 (⟨1, hk⟩ : Fin 3) n bb) 1 (by simp) S1x10000x8 _ rfl rfl 1 rfl
      (ix3 (0 : Fin 1) n bb)
      (fun b hb => match b, hb with
        | ⟨0, _⟩, hb => absurd (Fin.ext rfl) hb
        | ⟨1, _⟩, _ => rfl
        | ⟨2, _⟩, _ => rfl) rfl,
      val_main_v75_apply]
    have e : idx_main_v75 (ix3 (0 : Fin 1) n bb) = ix2 n bb := funext fun a => match a with
      | ⟨0, _⟩ => rfl
      | ⟨1, _⟩ => rfl
    rw [e, v57_apply x0 x1 x2 x3 x4 x5 x6 hok h h1]
    rfl
  | ⟨2, hk⟩ =>

    rw [concatenate_apply_piece (0 : Fin S3x10000x8.rank) _ _ (ix3 (⟨2, hk⟩ : Fin 3) n bb) 2 (by simp) S1x10000x8 _ rfl rfl 2 rfl
      (ix3 (0 : Fin 1) n bb)
      (fun b hb => match b, hb with
        | ⟨0, _⟩, hb => absurd (Fin.ext rfl) hb
        | ⟨1, _⟩, _ => rfl
        | ⟨2, _⟩, _ => rfl) rfl,
      val_main_v76_apply]
    have e : idx_main_v76 (ix3 (0 : Fin 1) n bb) = ix2 n bb := funext fun a => match a with
      | ⟨0, _⟩ => rfl
      | ⟨1, _⟩ => rfl
    rw [e, v73_apply x0 x1 x2 x3 x4 x5 x6 hok h h1]
    rfl

private theorem v80_apply (hok : Ok x0 x1 x2 x3 x4 x5 x6) (h : Fin 8 → Fin 10000 → ℝ)
    (h1 : ∀ (bb : Fin 8) (n : Fin 10000), val_main_v42 (F := Ideal) x0 x1 x2 x3 x4 x6 (ix3 bb n (0 : Fin 1)) = ((h bb n : ℝ) : EReal))
    (bb : Fin 8) (n : Fin 10000) (k : Fin 3) :
    val_main_v80 (F := Ideal) x0 x1 x2 x3 x4 x6 (ix2 (⟨bb.val * 10000 + n.val, by have := bb.isLt; have := n.isLt; omega⟩ : Fin 80000) k)
      = ((cheb (graphOf x1 x2 x3) (feat2 h) k n bb : ℝ) : EReal) := by
  have hn := n.isLt
  have hb := bb.isLt
  have hk := k.isLt

  have e80 : idx_main_v80 (ix2 (⟨bb.val * 10000 + n.val, by omega⟩ : Fin 80000) k) = ix4 bb n (0 : Fin 1) k := by
    funext a
    refine Fin.ext ?_
    match a with
    | ⟨0, _⟩ => show ((bb.val * 10000 + n.val) * 3 + k.val) / 30000 = bb.val; omega
    | ⟨1, _⟩ => show ((bb.val * 10000 + n.val) * 3 + k.val) / 3 % 10000 = n.val; omega
    | ⟨2, _⟩ => rfl
    | ⟨3, _⟩ => show ((bb.val * 10000 + n.val) * 3 + k.val) % 3 = k.val; omega

  have e79 : idx_main_v79 (ix4 bb n (0 : Fin 1) k) = ix4 k n (0 : Fin 1) bb := funext fun a => match a with
    | ⟨0, _⟩ => rfl
    | ⟨1, _⟩ => rfl
    | ⟨2, _⟩ => rfl
    | ⟨3, _⟩ => rfl

  have e78 : idx_main_v78 (ix4 k n (0 : Fin 1) bb) = ix3 k n bb := by
    funext a
    refine Fin.ext ?_
    match a with
    | ⟨0, _⟩ => show (((k.val * 10000 + n.val) * 1 + 0) * 8 + bb.val) / 80000 = k.val; omega
    | ⟨1, _⟩ => show (((k.val * 10000 + n.val) * 1 + 0) * 8 + bb.val) / 8 % 10000 = n.val; omega
    | ⟨2, _⟩ => show (((k.val * 10000 + n.val) * 1 + 0) * 8 + bb.val) % 8 = bb.val; omega
  rw [val_main_v80_apply, e80, val_main_v79_apply, e79, val_main_v78_apply, e78, v77_apply x0 x1 x2 x3 x4 x5 x6 hok h h1]

theorem ref_layer2 (hok : Ok x0 x1 x2 x3 x4 x5 x6) (h : Fin 8 → Fin 10000 → ℝ)
    (h1 : ∀ (bb : Fin 8) (n : Fin 10000), val_main_v42 (F := Ideal) x0 x1 x2 x3 x4 x6 (ix3 bb n (0 : Fin 1)) = ((h bb n : ℝ) : EReal))
    (bb : Fin 8) (n : Fin 10000) :
    val_main_v86 (F := Ideal) x0 x1 x2 x3 x4 x5 x6 (ix2 bb n)
      = ((layer2 (graphOf x1 x2 x3) (feat2 h) (fun k => (x5 (ix2 k (0 : Fin 1))).toReal)
          (x6 (ix3 (0 : Fin 1) (0 : Fin 1) (0 : Fin 1))).toReal bb n : ℝ) : EReal) := by
  have hn := n.isLt
  have hb := bb.isLt

  have e86 : idx_main_v86 (ix2 bb n) = ix3 bb n (0 : Fin 1) := by
    funext a
    refine Fin.ext ?_
    match a with
    | ⟨0, _⟩ => show (bb.val * 10000 + n.val) / 10000 = bb.val; omega
    | ⟨1, _⟩ => show (bb.val * 10000 + n.val) / 1 % 10000 = n.val; omega
    | ⟨2, _⟩ => rfl

  have e82 : idx_main_v82 (ix3 bb n (0 : Fin 1))
      = ix2 (⟨bb.val * 10000 + n.val, by omega⟩ : Fin 80000) (0 : Fin 1) := by
    funext a
    refine Fin.ext ?_
    match a with
    | ⟨0, _⟩ => show ((bb.val * 10000 + n.val) * 1 + 0) / 1 = bb.val * 10000 + n.val; omega
    | ⟨1, _⟩ => rfl

  have e83 : idx_main_v83 (ix3 bb n (0 : Fin 1)) = ix3 (0 : Fin 1) (0 : Fin 1) (0 : Fin 1) := funext fun a => match a with
    | ⟨0, _⟩ => rfl
    | ⟨1, _⟩ => rfl
    | ⟨2, _⟩ => rfl

  have hs : ∀ k : Fin 3,
      val_main_v80 (F := Ideal) x0 x1 x2 x3 x4 x6
          (lidx_main_v81 (ix2 (⟨bb.val * 10000 + n.val, by omega⟩ : Fin 80000) (0 : Fin 1)) k)
        * x5 (ridx_main_v81 (ix2 (⟨bb.val * 10000 + n.val, by omega⟩ : Fin 80000) (0 : Fin 1)) k)
      = ((cheb (graphOf x1 x2 x3) (feat2 h) k n bb * (x5 (ix2 k (0 : Fin 1))).toReal : ℝ) : EReal) := by
    intro k
    have el : lidx_main_v81 (ix2 (⟨bb.val * 10000 + n.val, by omega⟩ : Fin 80000) (0 : Fin 1)) k
        = ix2 (⟨bb.val * 10000 + n.val, by omega⟩ : Fin 80000) k := funext fun a => match a with
      | ⟨0, _⟩ => rfl
      | ⟨1, _⟩ => rfl
    have er : ridx_main_v81 (ix2 (⟨bb.val * 10000 + n.val, by omega⟩ : Fin 80000) (0 : Fin 1)) k
        = ix2 k (0 : Fin 1) := funext fun a => match a with
      | ⟨0, _⟩ => rfl
      | ⟨1, _⟩ => rfl
    rw [el, er, v80_apply x0 x1 x2 x3 x4 x5 x6 hok h h1]
    exact (congrArg (((cheb (graphOf x1 x2 x3) (feat2 h) k n bb : ℝ) : EReal) * ·) (hok.w2_real (ix2 k (0 : Fin 1)))).trans
      (EReal.coe_mul _ _).symm

  generalize hbv : (x6 (ix3 (0 : Fin 1) (0 : Fin 1) (0 : Fin 1))).toReal = bR
  have hbias : x6 (ix3 (0 : Fin 1) (0 : Fin 1) (0 : Fin 1)) = ((bR : ℝ) : EReal) := hbv ▸ hok.b_real _
  rw [val_main_v86_apply, e86, val_main_v85_apply, val_main_v84_apply, val_main_v83_apply, e83, val_main_v82_apply, e82,
    val_main_v81_apply, val_main_call1_v0_apply, val_main_call1_cst_apply, Ideal.maximumf_def, Ideal.addf_def,
    Ideal.ofBits_def, Ideal.ofBits_zero_f32, Finset.sum_congr rfl (fun k _ => hs k), ← Cert.Math.coe_sum, hbias,
    ← EReal.coe_add, ← EReal.coe_zero, ← Cert.Math.coe_max]
  rfl

end Cert.RefSide

end
-- ==== Proof.RefSide.lean ====
/- The reference's result, read index by index, is the common form. -/
import proofs.«416138_j67946382623286_1_alg».proof.Proof.RefL1
import proofs.«416138_j67946382623286_1_alg».proof.Proof.RefL2

noncomputable section

open scoped BigOperators

namespace Cert.RefSide

open Cert.ReferenceIdeal Cert.ReferenceIdeal.Gen Cert.ReferenceIdeal.Read Cert.Spec
open Idealize.ShloMosaic Idealize.ShloMosaic.TcCoe Idealize.ShloMosaic.ValueIdx Idealize.SL.Sem

variable (x0 : (⟨S8x10000x128, .f32⟩ : BufTy).Contents (Elt Ideal)) (x1 x2 : (⟨S160000, .i32⟩ : BufTy).Contents (Elt Ideal))
  (x3 : (⟨S160000, .f32⟩ : BufTy).Contents (Elt Ideal)) (x4 : (⟨S384x1, .f32⟩ : BufTy).Contents (Elt Ideal))
  (x5 : (⟨S3x1, .f32⟩ : BufTy).Contents (Elt Ideal)) (x6 : (⟨S1x1x1, .f32⟩ : BufTy).Contents (Elt Ideal))

theorem ref_result (hok : Ok x0 x1 x2 x3 x4 x5 x6) :
    val_main_v86 (F := Ideal) x0 x1 x2 x3 x4 x5 x6 = G x0 x1 x2 x3 x4 x5 x6 := by
  funext i
  obtain ⟨bb, n, rfl⟩ : ∃ (bb : Fin 8) (n : Fin 10000), i = ix2 bb n := ⟨i 0, i 1, eq_ix2 i⟩
  rw [ref_layer2 x0 x1 x2 x3 x4 x5 x6 hok _ (ref_layer1 x0 x1 x2 x3 x4 x5 x6 hok) bb n]
  rfl

end Cert.RefSide

end
-- ==== Proof.RefRunC.lean ====
/- The reference's run, stretch by stretch: every execution of its host operations ends with the result at their composed term of the arguments. -/
import proofs.«416138_j67946382623286_1_alg».proof.Proof.RefRunBase
import proofs.«416138_j67946382623286_1_alg».proof.Proof.RefRead

noncomputable section

namespace Cert.ReferenceIdeal.ValueC

open Cert.ReferenceIdeal Cert.ReferenceIdeal.Gen Cert.ReferenceIdeal.ValueB Cert.ReferenceIdeal.Read
open Idealize.ShloMosaic Idealize.ShloMosaic.TcCoe Idealize.SL.Sem Idealize.ShloMosaic.StableHlo

variable {F : FTy → Type} [FloatOps F]

private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

private theorem w_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

variable (m : (ℓ : Loc nD τ sig) → Buf (Elt F) ℓ) (c : Dev nD)

private abbrev a0 := m ((c.tc : Thread nD τ).loc main_arg0)

private abbrev a1 := m ((c.tc : Thread nD τ).loc main_arg1)

private abbrev a2 := m ((c.tc : Thread nD τ).loc main_arg2)

private abbrev a3 := m ((c.tc : Thread nD τ).loc main_arg3)

private abbrev a4 := m ((c.tc : Thread nD τ).loc main_arg4)

private abbrev a5 := m ((c.tc : Thread nD τ).loc main_arg5)

private abbrev a6 := m ((c.tc : Thread nD τ).loc main_arg6)

private abbrev s1 : List (HloOp τ sig (Elt F)) := (ops.drop 0).take 18

private abbrev s2 : List (HloOp τ sig (Elt F)) := (ops.drop 18).take 16

private abbrev s3 : List (HloOp τ sig (Elt F)) := (ops.drop 34).take 7

private abbrev s4 : List (HloOp τ sig (Elt F)) := (ops.drop 41).take 1

private abbrev s5 : List (HloOp τ sig (Elt F)) := (ops.drop 42).take 12

private abbrev s6 : List (HloOp τ sig (Elt F)) := (ops.drop 54).take 16

private abbrev s7 : List (HloOp τ sig (Elt F)) := (ops.drop 70).take 16

private abbrev s8 : List (HloOp τ sig (Elt F)) := (ops.drop 86).take 7

private abbrev s9 : List (HloOp τ sig (Elt F)) := (ops.drop 93).take 1

private abbrev s10 : List (HloOp τ sig (Elt F)) := (ops.drop 94).take 11

private theorem ops_cut : (ops : List (HloOp τ sig (Elt F))) = s1 ++ (s2 ++ (s3 ++ (s4 ++ (s5 ++ (s6 ++ (s7 ++ (s8 ++ (s9 ++ (s10))))))))) := rfl

private abbrev W1 : List (Ref sig .tc) := [main_v0, main_v1, main_v2, main_c, main_v3, main_v4, main_c_0, main_v5, main_v6, main_v7, main_v8, main_v9, main_v10, main_v11, main_cst, main_v12, main_v13, main_v14]
private theorem s1_writes : (s1 : List (HloOp τ sig (Elt F))).Forall fun op => op.writes ⊆ (W1.map (Proc.devRef (τ := τ) .tc)).toFinset :=
  ⟨w_mem (y := main_v0) (by decide), w_mem (y := main_v1) (by decide), w_mem (y := main_v2) (by decide), w_mem (y := main_c) (by decide), w_mem (y := main_v3) (by decide), w_mem (y := main_v4) (by decide), w_mem (y := main_c_0) (by decide), w_mem (y := main_v5) (by decide), w_mem (y := main_v6) (by decide), w_mem (y := main_v7) (by decide), w_mem (y := main_v8) (by decide), w_mem (y := main_v9) (by decide), w_mem (y := main_v10) (by decide), w_mem (y := main_v11) (by decide), w_mem (y := main_cst) (by decide), w_mem (y := main_v12) (by decide), w_mem (y := main_v13) (by decide), w_mem (y := main_v14) (by decide)⟩

private abbrev W2 : List (Ref sig .tc) := [main_v15, main_c_1, main_v16, main_v17, main_c_2, main_v18, main_v19, main_v20, main_v21, main_v22, main_v23, main_v24, main_cst_3, main_v25, main_v26, main_v27]
private theorem s2_writes : (s2 : List (HloOp τ sig (Elt F))).Forall fun op => op.writes ⊆ (W2.map (Proc.devRef (τ := τ) .tc)).toFinset :=
  ⟨w_mem (y := main_v15) (by decide), w_mem (y := main_c_1) (by decide), w_mem (y := main_v16) (by decide), w_mem (y := main_v17) (by decide), w_mem (y := main_c_2) (by decide), w_mem (y := main_v18) (by decide), w_mem (y := main_v19) (by decide), w_mem (y := main_v20) (by decide), w_mem (y := main_v21) (by decide), w_mem (y := main_v22) (by decide), w_mem (y := main_v23) (by decide), w_mem (y := main_v24) (by decide), w_mem (y := main_cst_3) (by decide), w_mem (y := main_v25) (by decide), w_mem (y := main_v26) (by decide), w_mem (y := main_v27) (by decide)⟩

private abbrev W3 : List (Ref sig .tc) := [main_cst_4, main_v28, main_v29, main_v30, main_v31, main_v32, main_v33]
private theorem s3_writes : (s3 : List (HloOp τ sig (Elt F))).Forall fun op => op.writes ⊆ (W3.map (Proc.devRef (τ := τ) .tc)).toFinset :=
  ⟨w_mem (y := main_cst_4) (by decide), w_mem (y := main_v28) (by decide), w_mem (y := main_v29) (by decide), w_mem (y := main_v30) (by decide), w_mem (y := main_v31) (by decide), w_mem (y := main_v32) (by decide), w_mem (y := main_v33) (by decide)⟩

private abbrev W4 : List (Ref sig .tc) := [main_v34]
private theorem s4_writes : (s4 : List (HloOp τ sig (Elt F))).Forall fun op => op.writes ⊆ (W4.map (Proc.devRef (τ := τ) .tc)).toFinset :=
  w_mem (y := main_v34) (by decide)

private abbrev W5 : List (Ref sig .tc) := [main_v35, main_v36, main_v37, main_v38, main_v39, main_v40, main_v41, main_call0_cst, main_call0_v0, main_v42, main_v43, main_v44]
private theorem s5_writes : (s5 : List (HloOp τ sig (Elt F))).Forall fun op => op.writes ⊆ (W5.map (Proc.devRef (τ := τ) .tc)).toFinset :=
  ⟨w_mem (y := main_v35) (by decide), w_mem (y := main_v36) (by decide), w_mem (y := main_v37) (by decide), w_mem (y := main_v38) (by decide), w_mem (y := main_v39) (by decide), w_mem (y := main_v40) (by decide), w_mem (y := main_v41) (by decide), w_mem (y := main_call0_cst) (by decide), w_mem (y := main_call0_v0) (by decide), w_mem (y := main_v42) (by decide), w_mem (y := main_v43) (by decide), w_mem (y := main_v44) (by decide)⟩

private abbrev W6 : List (Ref sig .tc) := [main_v45, main_c_5, main_v46, main_v47, main_c_6, main_v48, main_v49, main_v50, main_v51, main_v52, main_v53, main_v54, main_cst_7, main_v55, main_v56, main_v57]
private theorem s6_writes : (s6 : List (HloOp τ sig (Elt F))).Forall fun op => op.writes ⊆ (W6.map (Proc.devRef (τ := τ) .tc)).toFinset :=
  ⟨w_mem (y := main_v45) (by decide), w_mem (y := main_c_5) (by decide), w_mem (y := main_v46) (by decide), w_mem (y := main_v47) (by decide), w_mem (y := main_c_6) (by decide), w_mem (y := main_v48) (by decide), w_mem (y := main_v49) (by decide), w_mem (y := main_v50) (by decide), w_mem (y := main_v51) (by decide), w_mem (y := main_v52) (by decide), w_mem (y := main_v53) (by decide), w_mem (y := main_v54) (by decide), w_mem (y := main_cst_7) (by decide), w_mem (y := main_v55) (by decide), w_mem (y := main_v56) (by decide), w_mem (y := main_v57) (by decide)⟩

private abbrev W7 : List (Ref sig .tc) := [main_v58, main_c_8, main_v59, main_v60, main_c_9, main_v61, main_v62, main_v63, main_v64, main_v65, main_v66, main_v67, main_cst_10, main_v68, main_v69, main_v70]
private theorem s7_writes : (s7 : List (HloOp τ sig (Elt F))).Forall fun op => op.writes ⊆ (W7.map (Proc.devRef (τ := τ) .tc)).toFinset :=
  ⟨w_mem (y := main_v58) (by decide), w_mem (y := main_c_8) (by decide), w_mem (y := main_v59) (by decide), w_mem (y := main_v60) (by decide), w_mem (y := main_c_9) (by decide), w_mem (y := main_v61) (by decide), w_mem (y := main_v62) (by decide), w_mem (y := main_v63) (by decide), w_mem (y := main_v64) (by decide), w_mem (y := main_v65) (by decide), w_mem (y := main_v66) (by decide), w_mem (y := main_v67) (by decide), w_mem (y := main_cst_10) (by decide), w_mem (y := main_v68) (by decide), w_mem (y := main_v69) (by decide), w_mem (y := main_v70) (by decide)⟩

private abbrev W8 : List (Ref sig .tc) := [main_cst_11, main_v71, main_v72, main_v73, main_v74, main_v75, main_v76]
private theorem s8_writes : (s8 : List (HloOp τ sig (Elt F))).Forall fun op => op.writes ⊆ (W8.map (Proc.devRef (τ := τ) .tc)).toFinset :=
  ⟨w_mem (y := main_cst_11) (by decide), w_mem (y := main_v71) (by decide), w_mem (y := main_v72) (by decide), w_mem (y := main_v73) (by decide), w_mem (y := main_v74) (by decide), w_mem (y := main_v75) (by decide), w_mem (y := main_v76) (by decide)⟩

private abbrev W9 : List (Ref sig .tc) := [main_v77]
private theorem s9_writes : (s9 : List (HloOp τ sig (Elt F))).Forall fun op => op.writes ⊆ (W9.map (Proc.devRef (τ := τ) .tc)).toFinset :=
  w_mem (y := main_v77) (by decide)

private abbrev W10 : List (Ref sig .tc) := [main_v78, main_v79, main_v80, main_v81, main_v82, main_v83, main_v84, main_call1_cst, main_call1_v0, main_v85, main_v86]
private theorem s10_writes : (s10 : List (HloOp τ sig (Elt F))).Forall fun op => op.writes ⊆ (W10.map (Proc.devRef (τ := τ) .tc)).toFinset :=
  ⟨w_mem (y := main_v78) (by decide), w_mem (y := main_v79) (by decide), w_mem (y := main_v80) (by decide), w_mem (y := main_v81) (by decide), w_mem (y := main_v82) (by decide), w_mem (y := main_v83) (by decide), w_mem (y := main_v84) (by decide), w_mem (y := main_call1_cst) (by decide), w_mem (y := main_call1_v0) (by decide), w_mem (y := main_v85) (by decide), w_mem (y := main_v86) (by decide)⟩

private def U0 : Valuation τ sig (Elt F) := launchContents m c

private def U1 : Valuation τ sig (Elt F) := after s1 (U0 m c)

private def U2 : Valuation τ sig (Elt F) := after s2 (U1 m c)

private def U3 : Valuation τ sig (Elt F) := after s3 (U2 m c)

private def U4 : Valuation τ sig (Elt F) := after s4 (U3 m c)

private def U5 : Valuation τ sig (Elt F) := after s5 (U4 m c)

private def U6 : Valuation τ sig (Elt F) := after s6 (U5 m c)

private def U7 : Valuation τ sig (Elt F) := after s7 (U6 m c)

private def U8 : Valuation τ sig (Elt F) := after s8 (U7 m c)

private def U9 : Valuation τ sig (Elt F) := after s9 (U8 m c)

private def U10 : Valuation τ sig (Elt F) := after s10 (U9 m c)

private theorem U1_keep (r : Ref sig .tc) (h : r ∉ W1) :
    U1 (F := F) m c (Proc.devRef .tc r) = U0 m c (Proc.devRef .tc r) :=
  after_of_writes_sub s1 _ s1_writes h

private theorem U2_keep (r : Ref sig .tc) (h : r ∉ W2) :
    U2 (F := F) m c (Proc.devRef .tc r) = U1 m c (Proc.devRef .tc r) :=
  after_of_writes_sub s2 _ s2_writes h

private theorem U3_keep (r : Ref sig .tc) (h : r ∉ W3) :
    U3 (F := F) m c (Proc.devRef .tc r) = U2 m c (Proc.devRef .tc r) :=
  after_of_writes_sub s3 _ s3_writes h

private theorem U4_keep (r : Ref sig .tc) (h : r ∉ W4) :
    U4 (F := F) m c (Proc.devRef .tc r) = U3 m c (Proc.devRef .tc r) :=
  after_of_writes_sub s4 _ s4_writes h

private theorem U5_keep (r : Ref sig .tc) (h : r ∉ W5) :
    U5 (F := F) m c (Proc.devRef .tc r) = U4 m c (Proc.devRef .tc r) :=
  after_of_writes_sub s5 _ s5_writes h

private theorem U6_keep (r : Ref sig .tc) (h : r ∉ W6) :
    U6 (F := F) m c (Proc.devRef .tc r) = U5 m c (Proc.devRef .tc r) :=
  after_of_writes_sub s6 _ s6_writes h

private theorem U7_keep (r : Ref sig .tc) (h : r ∉ W7) :
    U7 (F := F) m c (Proc.devRef .tc r) = U6 m c (Proc.devRef .tc r) :=
  after_of_writes_sub s7 _ s7_writes h

private theorem U8_keep (r : Ref sig .tc) (h : r ∉ W8) :
    U8 (F := F) m c (Proc.devRef .tc r) = U7 m c (Proc.devRef .tc r) :=
  after_of_writes_sub s8 _ s8_writes h

private theorem U9_keep (r : Ref sig .tc) (h : r ∉ W9) :
    U9 (F := F) m c (Proc.devRef .tc r) = U8 m c (Proc.devRef .tc r) :=
  after_of_writes_sub s9 _ s9_writes h

private theorem U10_keep (r : Ref sig .tc) (h : r ∉ W10) :
    U10 (F := F) m c (Proc.devRef .tc r) = U9 m c (Proc.devRef .tc r) :=
  after_of_writes_sub s10 _ s10_writes h

private abbrev args : List (Ref sig .tc) := [main_arg0, main_arg1, main_arg2, main_arg3, main_arg4, main_arg5, main_arg6]

private theorem U0_arg {r : Ref sig .tc} (h : r ∈ args) : U0 (F := F) m c (Proc.devRef .tc r) = m ((c.tc : Thread nD τ).loc r) := rfl
private theorem U1_arg {r : Ref sig .tc} (h : r ∈ args) : U1 (F := F) m c (Proc.devRef .tc r) = m ((c.tc : Thread nD τ).loc r) :=
  (U1_keep m c r ((by decide : ∀ r ∈ args, r ∉ W1) r h)).trans (U0_arg m c h)
private theorem U2_arg {r : Ref sig .tc} (h : r ∈ args) : U2 (F := F) m c (Proc.devRef .tc r) = m ((c.tc : Thread nD τ).loc r) :=
  (U2_keep m c r ((by decide : ∀ r ∈ args, r ∉ W2) r h)).trans (U1_arg m c h)
private theorem U3_arg {r : Ref sig .tc} (h : r ∈ args) : U3 (F := F) m c (Proc.devRef .tc r) = m ((c.tc : Thread nD τ).loc r) :=
  (U3_keep m c r ((by decide : ∀ r ∈ args, r ∉ W3) r h)).trans (U2_arg m c h)
private theorem U4_arg {r : Ref sig .tc} (h : r ∈ args) : U4 (F := F) m c (Proc.devRef .tc r) = m ((c.tc : Thread nD τ).loc r) :=
  (U4_keep m c r ((by decide : ∀ r ∈ args, r ∉ W4) r h)).trans (U3_arg m c h)
private theorem U5_arg {r : Ref sig .tc} (h : r ∈ args) : U5 (F := F) m c (Proc.devRef .tc r) = m ((c.tc : Thread nD τ).loc r) :=
  (U5_keep m c r ((by decide : ∀ r ∈ args, r ∉ W5) r h)).trans (U4_arg m c h)
private theorem U6_arg {r : Ref sig .tc} (h : r ∈ args) : U6 (F := F) m c (Proc.devRef .tc r) = m ((c.tc : Thread nD τ).loc r) :=
  (U6_keep m c r ((by decide : ∀ r ∈ args, r ∉ W6) r h)).trans (U5_arg m c h)
private theorem U7_arg {r : Ref sig .tc} (h : r ∈ args) : U7 (F := F) m c (Proc.devRef .tc r) = m ((c.tc : Thread nD τ).loc r) :=
  (U7_keep m c r ((by decide : ∀ r ∈ args, r ∉ W7) r h)).trans (U6_arg m c h)
private theorem U8_arg {r : Ref sig .tc} (h : r ∈ args) : U8 (F := F) m c (Proc.devRef .tc r) = m ((c.tc : Thread nD τ).loc r) :=
  (U8_keep m c r ((by decide : ∀ r ∈ args, r ∉ W8) r h)).trans (U7_arg m c h)
private theorem U9_arg {r : Ref sig .tc} (h : r ∈ args) : U9 (F := F) m c (Proc.devRef .tc r) = m ((c.tc : Thread nD τ).loc r) :=
  (U9_keep m c r ((by decide : ∀ r ∈ args, r ∉ W9) r h)).trans (U8_arg m c h)
private theorem U10_arg {r : Ref sig .tc} (h : r ∈ args) : U10 (F := F) m c (Proc.devRef .tc r) = m ((c.tc : Thread nD τ).loc r) :=
  (U10_keep m c r ((by decide : ∀ r ∈ args, r ∉ W10) r h)).trans (U9_arg m c h)

private theorem U1_v1 :
    U1 (F := F) m c (Proc.devRef .tc main_v1) = val_main_v1 (F := F) (a0 m c) := by
  show after s1 (U0 m c) _ = _
  simp only [s1, List.drop_succ_cons, List.drop_zero, List.take_succ_cons, List.take_zero]
  after_results_simp
  rw [U0_arg m c (r := main_arg0) (by decide)]
  rfl
private theorem U1_v14 :
    U1 (F := F) m c (Proc.devRef .tc main_v14) = val_main_v14 (F := F) (a0 m c) (a1 m c) (a2 m c) (a3 m c) := by
  show after s1 (U0 m c) _ = _
  simp only [s1, List.drop_succ_cons, List.drop_zero, List.take_succ_cons, List.take_zero]
  after_results_simp
  rw [U0_arg m c (r := main_arg1) (by decide), U0_arg m c (r := main_arg3) (by decide), U0_arg m c (r := main_arg0) (by decide), U0_arg m c (r := main_arg2) (by decide)]
  rfl
private theorem U2_v27 :
    U2 (F := F) m c (Proc.devRef .tc main_v27) = val_main_v27 (F := F) (a0 m c) (a1 m c) (a2 m c) (a3 m c) := by
  show after s2 (U1 m c) _ = _
  simp only [s2, List.drop_succ_cons, List.drop_zero, List.take_succ_cons, List.take_zero]
  after_results_simp
  rw [U1_arg m c (r := main_arg1) (by decide), U1_arg m c (r := main_arg3) (by decide), U1_v14 m c, U1_arg m c (r := main_arg2) (by decide)]
  rfl
private theorem U2_v14 :
    U2 (F := F) m c (Proc.devRef .tc main_v14) = val_main_v14 (F := F) (a0 m c) (a1 m c) (a2 m c) (a3 m c) :=
  (U2_keep m c main_v14 (by decide)).trans (U1_v14 m c)
private theorem U2_v1 :
    U2 (F := F) m c (Proc.devRef .tc main_v1) = val_main_v1 (F := F) (a0 m c) :=
  (U2_keep m c main_v1 (by decide)).trans (U1_v1 m c)
private theorem U3_v31 :
    U3 (F := F) m c (Proc.devRef .tc main_v31) = val_main_v31 (F := F) (a0 m c) := by
  show after s3 (U2 m c) _ = _
  simp only [s3, List.drop_succ_cons, List.drop_zero, List.take_succ_cons, List.take_zero]
  after_results_simp
  rw [U2_v1 m c]
  rfl
private theorem U3_v32 :
    U3 (F := F) m c (Proc.devRef .tc main_v32) = val_main_v32 (F := F) (a0 m c) (a1 m c) (a2 m c) (a3 m c) := by
  show after s3 (U2 m c) _ = _
  simp only [s3, List.drop_succ_cons, List.drop_zero, List.take_succ_cons, List.take_zero]
  after_results_simp
  rw [U2_v14 m c]
  rfl
private theorem U3_v33 :
    U3 (F := F) m c (Proc.devRef .tc main_v33) = val_main_v33 (F := F) (a0 m c) (a1 m c) (a2 m c) (a3 m c) := by
  show after s3 (U2 m c) _ = _
  simp only [s3, List.drop_succ_cons, List.drop_zero, List.take_succ_cons, List.take_zero]
  after_results_simp
  rw [U2_v27 m c, U2_v1 m c]
  rfl
private theorem U4_v34 :
    U4 (F := F) m c (Proc.devRef .tc main_v34) = val_main_v34 (F := F) (a0 m c) (a1 m c) (a2 m c) (a3 m c) := by
  show after s4 (U3 m c) _ = _
  simp only [s4, List.drop_succ_cons, List.drop_zero, List.take_succ_cons, List.take_zero]
  after_results_simp
  show concatenate S3x10000x1024 0 [⟨S1x10000x1024, (U3 m c (Proc.devRef .tc main_v31))⟩, ⟨S1x10000x1024, (U3 m c (Proc.devRef .tc main_v32))⟩, ⟨S1x10000x1024, (U3 m c (Proc.devRef .tc main_v33))⟩] concatenates_S1x10000x1024_S1x10000x1024_S1x10000x1024_S3x10000x1024_d0 = _
  rw [U3_v31 m c, U3_v32 m c, U3_v33 m c]
  rfl
private theorem U5_v44 :
    U5 (F := F) m c (Proc.devRef .tc main_v44) = val_main_v44 (F := F) (a0 m c) (a1 m c) (a2 m c) (a3 m c) (a4 m c) (a6 m c) := by
  show after s5 (U4 m c) _ = _
  simp only [s5, List.drop_succ_cons, List.drop_zero, List.take_succ_cons, List.take_zero]
  after_results_simp
  rw [U4_v34 m c, U4_arg m c (r := main_arg4) (by decide), U4_arg m c (r := main_arg6) (by decide)]
  rfl
private theorem U6_v57 :
    U6 (F := F) m c (Proc.devRef .tc main_v57) = val_main_v57 (F := F) (a0 m c) (a1 m c) (a2 m c) (a3 m c) (a4 m c) (a6 m c) := by
  show after s6 (U5 m c) _ = _
  simp only [s6, List.drop_succ_cons, List.drop_zero, List.take_succ_cons, List.take_zero]
  after_results_simp
  rw [U5_arg m c (r := main_arg1) (by decide), U5_arg m c (r := main_arg3) (by decide), U5_v44 m c, U5_arg m c (r := main_arg2) (by decide)]
  rfl
private theorem U6_v44 :
    U6 (F := F) m c (Proc.devRef .tc main_v44) = val_main_v44 (F := F) (a0 m c) (a1 m c) (a2 m c) (a3 m c) (a4 m c) (a6 m c) :=
  (U6_keep m c main_v44 (by decide)).trans (U5_v44 m c)
private theorem U7_v70 :
    U7 (F := F) m c (Proc.devRef .tc main_v70) = val_main_v70 (F := F) (a0 m c) (a1 m c) (a2 m c) (a3 m c) (a4 m c) (a6 m c) := by
  show after s7 (U6 m c) _ = _
  simp only [s7, List.drop_succ_cons, List.drop_zero, List.take_succ_cons, List.take_zero]
  after_results_simp
  rw [U6_arg m c (r := main_arg1) (by decide), U6_arg m c (r := main_arg3) (by decide), U6_v57 m c, U6_arg m c (r := main_arg2) (by decide)]
  rfl
private theorem U7_v44 :
    U7 (F := F) m c (Proc.devRef .tc main_v44) = val_main_v44 (F := F) (a0 m c) (a1 m c) (a2 m c) (a3 m c) (a4 m c) (a6 m c) :=
  (U7_keep m c main_v44 (by decide)).trans (U6_v44 m c)
private theorem U7_v57 :
    U7 (F := F) m c (Proc.devRef .tc main_v57) = val_main_v57 (F := F) (a0 m c) (a1 m c) (a2 m c) (a3 m c) (a4 m c) (a6 m c) :=
  (U7_keep m c main_v57 (by decide)).trans (U6_v57 m c)
private theorem U8_v74 :
    U8 (F := F) m c (Proc.devRef .tc main_v74) = val_main_v74 (F := F) (a0 m c) (a1 m c) (a2 m c) (a3 m c) (a4 m c) (a6 m c) := by
  show after s8 (U7 m c) _ = _
  simp only [s8, List.drop_succ_cons, List.drop_zero, List.take_succ_cons, List.take_zero]
  after_results_simp
  rw [U7_v44 m c]
  rfl
private theorem U8_v75 :
    U8 (F := F) m c (Proc.devRef .tc main_v75) = val_main_v75 (F := F) (a0 m c) (a1 m c) (a2 m c) (a3 m c) (a4 m c) (a6 m c) := by
  show after s8 (U7 m c) _ = _
  simp only [s8, List.drop_succ_cons, List.drop_zero, List.take_succ_cons, List.take_zero]
  after_results_simp
  rw [U7_v57 m c]
  rfl
private theorem U8_v76 :
    U8 (F := F) m c (Proc.devRef .tc main_v76) = val_main_v76 (F := F) (a0 m c) (a1 m c) (a2 m c) (a3 m c) (a4 m c) (a6 m c) := by
  show after s8 (U7 m c) _ = _
  simp only [s8, List.drop_succ_cons, List.drop_zero, List.take_succ_cons, List.take_zero]
  after_results_simp
  rw [U7_v70 m c, U7_v44 m c]
  rfl
private theorem U9_v77 :
    U9 (F := F) m c (Proc.devRef .tc main_v77) = val_main_v77 (F := F) (a0 m c) (a1 m c) (a2 m c) (a3 m c) (a4 m c) (a6 m c) := by
  show after s9 (U8 m c) _ = _
  simp only [s9, List.drop_succ_cons, List.drop_zero, List.take_succ_cons, List.take_zero]
  after_results_simp
  show concatenate S3x10000x8 0 [⟨S1x10000x8, (U8 m c (Proc.devRef .tc main_v74))⟩, ⟨S1x10000x8, (U8 m c (Proc.devRef .tc main_v75))⟩, ⟨S1x10000x8, (U8 m c (Proc.devRef .tc main_v76))⟩] concatenates_S1x10000x8_S1x10000x8_S1x10000x8_S3x10000x8_d0 = _
  rw [U8_v74 m c, U8_v75 m c, U8_v76 m c]
  rfl
private theorem U10_v86 :
    U10 (F := F) m c (Proc.devRef .tc main_v86) = val_main_v86 (F := F) (a0 m c) (a1 m c) (a2 m c) (a3 m c) (a4 m c) (a5 m c) (a6 m c) := by
  show after s10 (U9 m c) _ = _
  simp only [s10, List.drop_succ_cons, List.drop_zero, List.take_succ_cons, List.take_zero]
  after_results_simp
  rw [U9_v77 m c, U9_arg m c (r := main_arg5) (by decide), U9_arg m c (r := main_arg6) (by decide)]
  rfl

private theorem ops_fresh : ∀ op ∈ (ops : List (HloOp τ sig (Elt F))), op.fresh = ∅ :=
  List.forall_iff_forall_mem.mp (by simp only [List.Forall]; repeat' constructor)

private theorem after_ops : after (ops : List (HloOp τ sig (Elt F))) (launchContents m c) = U10 m c := by
  rw [ops_cut]; simp only [after_app]; rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86)
          = val_main_v86 (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have h := run_seq scopedRefs_eq scopedSems_eq defs (main (F := F)) (fun _ => ops) main_eq (fun _ => ops_sub) m ρ
    (hfresh := fun _ op hop => ops_fresh op hop)
  refine (θ_run defs _ _).mono (fun r h c => ?_) h
  have e : ∀ b : Ref sig .tc, r.2.mem ((c.tc : Thread nD τ).loc b) = U10 (F := F) m c (Proc.devRef .tc b) :=
    fun b => (h c b).trans (congrFun (after_ops m c) _)
  exact ⟨(e main_v86).trans (U10_v86 m c), (e main_arg0).trans (U10_arg m c (r := main_arg0) (by decide)),
    (e main_arg1).trans (U10_arg m c (r := main_arg1) (by decide)),
    (e main_arg2).trans (U10_arg m c (r := main_arg2) (by decide)),
    (e main_arg3).trans (U10_arg m c (r := main_arg3) (by decide)),
    (e main_arg4).trans (U10_arg m c (r := main_arg4) (by decide)),
    (e main_arg5).trans (U10_arg m c (r := main_arg5) (by decide)),
    (e main_arg6).trans (U10_arg m c (r := main_arg6) (by decide))⟩

end Cert.ReferenceIdeal.ValueC

end
-- ==== Proof.Pre.lean ====
/- The precondition decoded: every float entry is a real number and every row and column index lies in [0, 10000). -/
import proofs.«416138_j67946382623286_1_alg».proof.Defs
import proofs.«416138_j67946382623286_1_alg».proof.Proof.KArgs
import Idealize.ShloMosaic.Lib.ReduceAll
import Idealize.ShloMosaic.Lib.StableHlo.Predicate

noncomputable section

namespace Cert.KSide

open Cert.KernelIdeal
open Idealize.ShloMosaic Idealize.ShloMosaic.TcCoe Idealize.ShloMosaic.ValueIdx Idealize.SL.Sem

variable [hP : Cert.Pre_finite_inputs.Facts]

private instance scalarIdxSubsingleton : Subsingleton (⟨0, ![]⟩ : Shape).Idx := ⟨fun _ _ => funext fun d => d.elim0⟩

private theorem inf_eq_top : Ideal.ofBits .f32 0x7F800000#32 = ⊤ := by simp [Ideal.ofBits, Ideal.ieee]

private theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    x = ((x.toReal : ℝ) : EReal) := by
  have h' : BitVec.ofBool (decide (max x (-x) < Ideal.ofBits .f32 0x7F800000#32)) = 1#1 := h
  rw [inf_eq_top, StableHlo.Predicate.ofBool_eq_one_iff, decide_eq_true_eq, max_lt_iff] at h'
  have h1 : x ≠ ⊤ := h'.1.ne
  have h2 : x ≠ ⊥ := by
    intro hh
    have h3 := h'.2
    rw [hh, EReal.neg_bot] at h3
    exact lt_irrefl _ h3
  exact (EReal.coe_toReal h1 h2).symm

private theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : x i = (((x i).toReal : ℝ) : EReal) :=
  real_of_abs_lt (x i) (Host.reduce_andi_all _ _ hr hu ix0 e i)

private theorem all_range {s : Shape} {axes : List (Fin s.rank)} (w : IVec s 32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (andi (cmpi .sge w (broadcastInDim s ![] hb (constantI (⟨0, ![]⟩ : Shape) 32 0#32)))
          (cmpi .slt w (broadcastInDim s ![] hb (constantI (⟨0, ![]⟩ : Shape) 32 10000#32))))
        (constantI (⟨0, ![]⟩ : Shape) 1 1#1) hr hu ix0 = 1#1)
    (i : s.Idx) : 0 ≤ (w i).toInt ∧ (w i).toInt < 10000 := by
  have h' : IntOp.andi (IntOp.cmpi .sge (w i) 0#32) (IntOp.cmpi .slt (w i) 10000#32) = 1#1 :=
    Host.reduce_andi_all _ _ hr hu ix0 e i
  rw [IntOp.andi_eq_one, IntOp.cmpi_sge, IntOp.cmpi_slt] at h'
  have z : (0#32 : BitVec 32).toInt = 0 := by decide
  have t : (10000#32 : BitVec 32).toInt = 10000 := by decide
  rw [z, t] at h'
  exact h'

private theorem andi_scalar (a b : IVec (⟨0, ![]⟩ : Shape) 1) : andi a b ix0 = IntOp.andi (a ix0) (b ix0) := rfl

private theorem ok_of_fn (x : FVec Ideal Cert.Pre_finite_inputs.S8x10000x128 .f32)
    (rows cols : IVec Cert.Pre_finite_inputs.S160000 32) (vals : FVec Ideal Cert.Pre_finite_inputs.S160000 .f32)
    (w1 : FVec Ideal Cert.Pre_finite_inputs.S384x1 .f32) (w2 : FVec Ideal Cert.Pre_finite_inputs.S3x1 .f32)
    (b : FVec Ideal Cert.Pre_finite_inputs.S1x1x1 .f32)
    (h : Cert.Pre_finite_inputs.fn (F := Ideal) x rows cols vals w1 w2 b = fun _ => 1#1) :
    Cert.Spec.Ok x rows cols vals w1 w2 b := by
  have h0 := congrFun h ix0
  unfold Cert.Pre_finite_inputs.fn Cert.Pre_finite_inputs.fn_part1 Cert.Pre_finite_inputs.fn_part2 at h0
  dsimp only at h0
  simp only [andi_scalar, IntOp.andi_eq_one] at h0
  obtain ⟨⟨⟨⟨⟨⟨hx, hv⟩, hw1⟩, hw2⟩, hb⟩, hr⟩, hc⟩ := h0
  exact ⟨all_real _ _ _ _ hx, all_real _ _ _ _ hv, all_real _ _ _ _ hw1, all_real _ _ _ _ hw2, all_real _ _ _ _ hb,
    all_range _ _ _ _ hr, all_range _ _ _ _ hc⟩

theorem okK_of_pre (m : (ℓ : Loc nD τ sig) → Buf (Elt Ideal) ℓ) (h : Cert.Pre_KernelIdeal m) (c : Dev nD) : OkK m c :=
  ok_of_fn _ _ _ _ _ _ _ (h c)

end Cert.KSide

end
-- ==== Proof.lean ====
/- A two-layer Chebyshev graph convolution: the kernel's dense products of the scattered Laplacian equal the reference's gather-and-segment-sum, entry by entry over the extended reals. -/
import proofs.«416138_j67946382623286_1_alg».proof.Defs
import proofs.«416138_j67946382623286_1_alg».proof.Proof.Gen.Kernel
import proofs.«416138_j67946382623286_1_alg».proof.Proof.Gen.KernelIdeal
import proofs.«416138_j67946382623286_1_alg».proof.Proof.Gen.ReferenceIdeal
import proofs.«416138_j67946382623286_1_alg».proof.Proof.Gen.Pre_finite_inputs
import proofs.«416138_j67946382623286_1_alg».proof.Proof.K.Whole
import proofs.«416138_j67946382623286_1_alg».proof.Proof.KI.Whole
import proofs.«416138_j67946382623286_1_alg».proof.Proof.KernelValue
import proofs.«416138_j67946382623286_1_alg».proof.Proof.RefSide
import proofs.«416138_j67946382623286_1_alg».proof.Proof.RefRunC
import proofs.«416138_j67946382623286_1_alg».proof.Proof.Pre
import Idealize.ShloMosaic.Adequacy
import Idealize.ShloMosaic.Init

noncomputable section

namespace Cert.Proof

open Idealize.ShloMosaic Idealize.ShloMosaic.TcCoe Idealize.ShloMosaic.ValueIdx Idealize.SL.Sem

theorem mem_uc_Kernel (b : Ref Cert.Kernel.sig .tc) (h : ¬ (Proc.devRef .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩
theorem mem_uc_KernelIdeal (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

theorem frame_k : Cert.frame_Kernel := fun m ρ _ =>
  (θ_run Cert.Kernel.defs _ _).mono (fun r h c => by
    open Cert.Kernel in
    exact ⟨(h c _ (mem_uc_Kernel main_arg0 (by decide))).trans (Cert.Kernel.Gen.V14_main_arg0 m _ c),
      (h c _ (mem_uc_Kernel main_arg1 (by decide))).trans (Cert.Kernel.Gen.V14_main_arg1 m _ c),
      (h c _ (mem_uc_Kernel main_arg2 (by decide))).trans (Cert.Kernel.Gen.V14_main_arg2 m _ c),
      (h c _ (mem_uc_Kernel main_arg3 (by decide))).trans (Cert.Kernel.Gen.V14_main_arg3 m _ c),
      (h c _ (mem_uc_Kernel main_arg4 (by decide))).trans (Cert.Kernel.Gen.V14_main_arg4 m _ c),
      (h c _ (mem_uc_Kernel main_arg5 (by decide))).trans (Cert.Kernel.Gen.V14_main_arg5 m _ c),
      (h c _ (mem_uc_Kernel main_arg6 (by decide))).trans (Cert.Kernel.Gen.V14_main_arg6 m _ c)⟩)
    (Cert.Kernel.Frame.run_all (F := Bits) m ρ)

theorem frame_ki : Cert.frame_KernelIdeal := fun m ρ _ =>
  (θ_run Cert.KernelIdeal.defs _ _).mono (fun r h c => by
    open Cert.KernelIdeal in
    exact ⟨(h c _ (mem_uc_KernelIdeal main_arg0 (by decide))).trans (Cert.KernelIdeal.Gen.V14_main_arg0 m _ c),
      (h c _ (mem_uc_KernelIdeal main_arg1 (by decide))).trans (Cert.KernelIdeal.Gen.V14_main_arg1 m _ c),
      (h c _ (mem_uc_KernelIdeal main_arg2 (by decide))).trans (Cert.KernelIdeal.Gen.V14_main_arg2 m _ c),
      (h c _ (mem_uc_KernelIdeal main_arg3 (by decide))).trans (Cert.KernelIdeal.Gen.V14_main_arg3 m _ c),
      (h c _ (mem_uc_KernelIdeal main_arg4 (by decide))).trans (Cert.KernelIdeal.Gen.V14_main_arg4 m _ c),
      (h c _ (mem_uc_KernelIdeal main_arg5 (by decide))).trans (Cert.KernelIdeal.Gen.V14_main_arg5 m _ c),
      (h c _ (mem_uc_KernelIdeal main_arg6 (by decide))).trans (Cert.KernelIdeal.Gen.V14_main_arg6 m _ c)⟩)
    (Cert.KernelIdeal.Frame.run_all (F := Ideal) m ρ)

theorem frame_ri : Cert.frame_ReferenceIdeal := fun m ρ _ =>
  (θ_run Cert.ReferenceIdeal.defs _ _).mono (fun _ h c => (h c).2) (Cert.ReferenceIdeal.ValueC.run (F := Ideal) m ρ)

theorem algebraic : Cert.algebraic_KernelIdeal_ReferenceIdeal := by
  intro m ρ m' ρ' hpre hagree
  refine ⟨fun c => Cert.KernelIdeal.Gen.V14 m (Cert.KernelIdeal.Frame.outsF m) c Cert.KernelIdeal.main_v58, ?_, ?_⟩
  · refine (θ_run Cert.KernelIdeal.defs _ _).mono (fun r h c => ?_) (Cert.KernelIdeal.Frame.run_all (F := Ideal) m ρ)
    open Cert.KernelIdeal in
    exact ⟨h c _ (mem_uc_KernelIdeal main_v58 (by decide)),
      (h c _ (mem_uc_KernelIdeal main_arg0 (by decide))).trans (Cert.KernelIdeal.Gen.V14_main_arg0 m _ c),
      (h c _ (mem_uc_KernelIdeal main_arg1 (by decide))).trans (Cert.KernelIdeal.Gen.V14_main_arg1 m _ c),
      (h c _ (mem_uc_KernelIdeal main_arg2 (by decide))).trans (Cert.KernelIdeal.Gen.V14_main_arg2 m _ c),
      (h c _ (mem_uc_KernelIdeal main_arg3 (by decide))).trans (Cert.KernelIdeal.Gen.V14_main_arg3 m _ c),
      (h c _ (mem_uc_KernelIdeal main_arg4 (by decide))).trans (Cert.KernelIdeal.Gen.V14_main_arg4 m _ c),
      (h c _ (mem_uc_KernelIdeal main_arg5 (by decide))).trans (Cert.KernelIdeal.Gen.V14_main_arg5 m _ c),
      (h c _ (mem_uc_KernelIdeal main_arg6 (by decide))).trans (Cert.KernelIdeal.Gen.V14_main_arg6 m _ c)⟩
  · refine (θ_run Cert.ReferenceIdeal.defs _ _).mono (fun r h c => ⟨(h c).1.trans ?_, (h c).2⟩)
      (Cert.ReferenceIdeal.ValueC.run (F := Ideal) m' ρ')
    have hok := Cert.KSide.okK_of_pre m hpre c
    rw [(hagree c).1, (hagree c).2.1, (hagree c).2.2.1, (hagree c).2.2.2.1, (hagree c).2.2.2.2.1,
      (hagree c).2.2.2.2.2.1, (hagree c).2.2.2.2.2.2]
    rw [Cert.RefSide.ref_result _ _ _ _ _ _ _ hok]
    funext i
    obtain ⟨bb, n, rfl⟩ : ∃ (bb : Fin 8) (n : Fin 10000), i = ix2 bb n := ⟨i 0, i 1, eq_ix2 i⟩
    exact (Cert.KSide.kernel_value m c hok bb n).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
